-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v57)) (v2 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S512x1024 : Shape := ⟨2, ![512, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S50257x1024 : S_.BroadcastsInDim S50257x1024 (![] : Fin 0 → Fin S50257x1024.rank)
  reducesTo_S50257x1024_S_d0_1 : S50257x1024.ReducesTo [0, 1] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S50257 : S_.BroadcastsInDim S50257 (![] : Fin 0 → Fin S50257.rank)
  reducesTo_S50257_S_d0 : S50257.ReducesTo [0] S_
  bcast_S_S1 : S_.BroadcastsInDim S1 (![] : Fin 0 → Fin S1.rank)
  reducesTo_S1_S_d0 : S1.ReducesTo [0] S_

variable [Facts]

def fn_part4 {F : FTy → Type} [FloatOps F] (main_arg0 : IVec S1 32) (main_v67 : IVec S_ 1) : IVec S_ 1 :=
  let main_c_26 : IVec S_ 32 := constantI S_ 32 50257#32
  let main_v68 : IVec S1 32 := broadcastInDim S1 ![] bcast_S_S1 main_c_26
  let main_v69 : IVec S1 1 := cmpi .slt main_arg0 main_v68
  let main_c_27 : IVec S_ 1 := constantI S_ 1 1#1
  let main_v70 : IVec S_ 1 := (fun x v => Host.reduce IntOp.andi x v reducesTo_S1_S_d0 h_S_) main_v69 main_c_27
  let main_v71 : IVec S_ 1 := andi main_v67 main_v70
  main_v71

def fn_part3 {F : FTy → Type} [FloatOps F] (main_arg0 : IVec S1 32) (main_arg12 : FVec F S50257x1024 .f32) (main_arg13 : FVec F S50257 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S50257x1024 .f32 := Host.absf main_arg12
  let main_cst_20 : FVec F S_ .f32 := constant S_ .f32 0x7F800000#32
  let main_v55 : FVec F S50257x1024 .f32 := broadcastInDim S50257x1024 ![] bcast_S_S50257x1024 main_cst_20
  let main_v56 : IVec S50257x1024 1 := cmpf .olt main_v54 main_v55
  let main_c_21 : IVec S_ 1 := constantI S_ 1 1#1
  let main_v57 : IVec S_ 1 := (fun x v => Host.reduce IntOp.andi x v reducesTo_S50257x1024_S_d0_1 h_S_) main_v56 main_c_21
  let main_v58 : IVec S_ 1 := andi main_v53 main_v57
  let main_v59 : FVec F S50257 .f32 := Host.absf main_arg13
  let main_cst_22 : FVec F S_ .f32 := constant S_ .f32 0x7F800000#32
  let main_v60 : FVec F S50257 .f32 := broadcastInDim S50257 ![] bcast_S_S50257 main_cst_22
  let main_v61 : IVec S50257 1 := cmpf .olt main_v59 main_v60
  let main_c_23 : IVec S_ 1 := constantI S_ 1 1#1
  let main_v62 : IVec S_ 1 := (fun x v => Host.reduce IntOp.andi x v reducesTo_S50257_S_d0 h_S_) main_v61 main_c_23
  let main_v63 : IVec S_ 1 := andi main_v58 main_v62
  let main_c_24 : IVec S_ 32 := constantI S_ 32 0#32
  let main_v64 : IVec S1 32 := broadcastInDim S1 ![] bcast_S_S1 main_c_24
  let main_v65 : IVec S1 1 := cmpi .sge main_arg0 main_v64
  let main_c_25 : IVec S_ 1 := constantI S_ 1 1#1
  let main_v66 : IVec S_ 1 := (fun x v => Host.reduce IntOp.andi x v reducesTo_S1_S_d0 h_S_) main_v65 main_c_25
  let main_v67 : IVec S_ 1 := andi main_v63 main_v66
  fn_part4 (F := F) main_arg0 main_v67

def fn_part2 {F : FTy → Type} [FloatOps F] (main_arg0 : IVec S1 32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v33 : IVec S_ 1) : IVec S_ 1 :=
  let main_v34 : FVec F S3072x1024 .f32 := Host.absf main_arg8
  let main_cst_12 : FVec F S_ .f32 := constant S_ .f32 0x7F800000#32
  let main_v35 : FVec F S3072x1024 .f32 := broadcastInDim S3072x1024 ![] bcast_S_S3072x1024 main_cst_12
  let main_v36 : IVec S3072x1024 1 := cmpf .olt main_v34 main_v35
  let main_c_13 : IVec S_ 1 := constantI S_ 1 1#1
  let main_v37 : IVec S_ 1 := (fun x v => Host.reduce IntOp.andi x v reducesTo_S3072x1024_S_d0_1 h_S_) main_v36 main_c_13
  let main_v38 : IVec S_ 1 := andi main_v33 main_v37
  let main_v39 : FVec F S3072x1024 .f32 := Host.absf main_arg9
  let main_cst_14 : FVec F S_ .f32 := constant S_ .f32 0x7F800000#32
  let main_v40 : FVec F S3072x1024 .f32 := broadcastInDim S3072x1024 ![] bcast_S_S3072x1024 main_cst_14
  let main_v41 : IVec S3072x1024 1 := cmpf .olt main_v39 main_v40
  let main_c_15 : IVec S_ 1 := constantI S_ 1 1#1
  let main_v42 : IVec S_ 1 := (fun x v => Host.reduce IntOp.andi x v reducesTo_S3072x1024_S_d0_1 h_S_) main_v41 main_c_15
  let main_v43 : IVec S_ 1 := andi main_v38 main_v42
  let main_v44 : FVec F S3072 .f32 := Host.absf main_arg10
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  let main_v49 : FVec F S3072 .f32 := Host.absf main_arg11
  let main_cst_18 : FVec F S_ .f32 := constant S_ .f32 0x7F800000#32
  let main_v50 : FVec F S3072 .f32 := broadcastInDim S3072 ![] bcast_S_S3072 main_cst_18
  fn_part3 (F := F) main_arg0 main_arg12 main_arg13 main_v48 main_v49 main_v50

def fn_part1 {F : FTy → Type} [FloatOps F] (main_arg0 : IVec S1 32) (main_arg5 : FVec F S512 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1024x2048 .f32 := Host.absf main_arg6
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg0 main_arg8 main_arg9 main_arg10 main_arg11 main_arg12 main_arg13 main_v33

def fn {F : FTy → Type} [FloatOps F] (main_arg0 : IVec S1 32) (main_arg1 : FVec F S1x1x1024 .f32) (main_arg2 : FVec F S512x1024 .f32) (main_arg3 : FVec F S50257x1024 .f32) (main_arg4 : FVec F S512x2048 .f32) (main_arg5 : FVec F S512 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S512x1024 .f32 := Host.absf main_arg2
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S512x2048 .f32 := Host.absf main_arg4
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_arg0 main_arg5 main_arg6 main_arg7 main_arg8 main_arg9 main_arg10 main_arg11 main_arg12 main_arg13 main_v13 main_v16
-- ==== Kernel.lean ====
abbrev S1 : Shape := ⟨1, ![1]⟩
abbrev S1x1x1024 : Shape := ⟨3, ![1, 1, 1024]⟩
abbrev S512x1024 : Shape := ⟨2, ![512, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1024 : Shape := ⟨2, ![1, 1024]⟩
abbrev S1x2048 : Shape := ⟨2, ![1, 2048]⟩
abbrev S1x512 : Shape := ⟨2, ![1, 512]⟩
abbrev S1x1 : Shape := ⟨2, ![1, 1]⟩
abbrev S1x3072 : Shape := ⟨2, ![1, 3072]⟩
abbrev S1x50257 : Shape := ⟨2, ![1, 50257]⟩
abbrev S4096x1024 : Shape := ⟨2, ![4096, 1024]⟩
abbrev S1x4096 : Shape := ⟨2, ![1, 4096]⟩

abbrev nBuf : Space → Nat
  | .hbm => 102
  | .vmem => 27
  | .smem => 1
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S512x1024, .f32⟩
  | .hbm, ⟨3, _⟩ => ⟨S50257x1024, .f32⟩
  | .hbm, ⟨4, _⟩ => ⟨S512x2048, .f32⟩
  | .hbm, ⟨5, _⟩ => ⟨S512, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S1, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S1x1024, .f32⟩
  | .hbm, ⟨22, _⟩ => ⟨S1x1024, .f32⟩
  | .hbm, ⟨23, _⟩ => ⟨S1x2048, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1, .f32⟩
  | .hbm, ⟨28, _⟩ => ⟨S_, .f32⟩
  | .hbm, ⟨29, _⟩ => ⟨S1, .f32⟩
  | .hbm, ⟨30, _⟩ => ⟨S1, .f32⟩
  | .hbm, ⟨31, _⟩ => ⟨S1x1, .f32⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S_, .f32⟩
  | .hbm, ⟨36, _⟩ => ⟨S1, .f32⟩
  | .hbm, ⟨37, _⟩ => ⟨S1x1, .f32⟩
  | .hbm, ⟨38, _⟩ => ⟨S1x512, .f32⟩
  | .hbm, ⟨39, _⟩ => ⟨S1x512, .f32⟩
  | .hbm, ⟨40, _⟩ => ⟨S1x1024, .f32⟩
  | .hbm, ⟨41, _⟩ => ⟨S1x2048, .f32⟩
  | .hbm, ⟨42, _⟩ => ⟨S1x1024, .f32⟩
  | .hbm, ⟨43, _⟩ => ⟨S1x1024, .f32⟩
  | .hbm, ⟨44, _⟩ => ⟨S_, .f32⟩
  | .hbm, ⟨45, _⟩ => ⟨S1x1024, .f32⟩
  | .hbm, ⟨46, _⟩ => ⟨S1x1024, .f32⟩
  | .hbm, ⟨47, _⟩ => ⟨S1x3072, .f32⟩
  | .hbm, ⟨48, _⟩ => ⟨S1x3072, .f32⟩
  | .hbm, ⟨49, _⟩ => ⟨S1x3072, .f32⟩
  | .hbm, ⟨50, _⟩ => ⟨S1x3072, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S_, .f32⟩
  | .hbm, ⟨61, _⟩ => ⟨S1x1024, .f32⟩
  | .hbm, ⟨62, _⟩ => ⟨S1x1024, .f32⟩
  | .hbm, ⟨63, _⟩ => ⟨S_, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S_, .f32⟩
  | .hbm, ⟨70, _⟩ => ⟨S1x1024, .f32⟩
  | .hbm, ⟨71, _⟩ => ⟨S1x1024, .f32⟩
  | .hbm, ⟨72, _⟩ => ⟨S_, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S1x1024, .f32⟩
  | .hbm, ⟨82, _⟩ => ⟨S1x1024, .f32⟩
  | .hbm, ⟨83, _⟩ => ⟨S1x1024, .f32⟩
  | .hbm, ⟨84, _⟩ => ⟨S1x50257, .f32⟩
  | .hbm, ⟨85, _⟩ => ⟨S1x50257, .f32⟩
  | .hbm, ⟨86, _⟩ => ⟨S_, .f32⟩
  | .hbm, ⟨87, _⟩ => ⟨S1, .f32⟩
  | .hbm, ⟨88, _⟩ => ⟨S_, .f32⟩
  | .hbm, ⟨89, _⟩ => ⟨S1, .f32⟩
  | .hbm, ⟨90, _⟩ => ⟨S1, .f32⟩
  | .hbm, ⟨91, _⟩ => ⟨S1x1, .f32⟩
  | .hbm, ⟨92, _⟩ => ⟨S1x50257, .f32⟩
  | .hbm, ⟨93, _⟩ => ⟨S1x50257, .f32⟩
  | .hbm, ⟨94, _⟩ => ⟨S1x50257, .f32⟩
  | .hbm, ⟨95, _⟩ => ⟨S_, .f32⟩
  | .hbm, ⟨96, _⟩ => ⟨S1, .f32⟩
  | .hbm, ⟨97, _⟩ => ⟨S1x1, .f32⟩
  | .hbm, ⟨98, _⟩ => ⟨S1x1, .f32⟩
  | .hbm, ⟨99, _⟩ => ⟨S1x50257, .f32⟩
  | .hbm, ⟨100, _⟩ => ⟨S1x50257, .f32⟩
  | .hbm, ⟨101, _⟩ => ⟨S1x1x1024, .f32⟩
  | .local _ .vmem, ⟨0, _⟩ => ⟨S1x1024, .f32⟩
  | .local _ .vmem, ⟨1, _⟩ => ⟨S1x2048, .f32⟩
  | .local _ .vmem, ⟨2, _⟩ => ⟨S512x2048, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S512x1024, .f32⟩
  | .local _ .vmem, ⟨7, _⟩ => ⟨S1x1024, .f32⟩
  | .local _ .vmem, ⟨8, _⟩ => ⟨S1x2048, .f32⟩
  | .local _ .vmem, ⟨9, _⟩ => ⟨S1024x2048, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S3072x1024, .f32⟩
  | .local _ .vmem, ⟨14, _⟩ => ⟨S1x3072, .f32⟩
  | .local _ .vmem, ⟨15, _⟩ => ⟨S1x3072, .f32⟩
  | .local _ .vmem, ⟨16, _⟩ => ⟨S1x1024, .f32⟩
  | .local _ .vmem, ⟨17, _⟩ => ⟨S3072x1024, .f32⟩
  | .local _ .vmem, ⟨18, _⟩ => ⟨S1x3072, .f32⟩
  | .local _ .vmem, ⟨19, _⟩ => ⟨S1x3072, .f32⟩
  | .local _ .vmem, ⟨20, _⟩ => ⟨S1x1024, .f32⟩
  | .local _ .vmem, ⟨21, _⟩ => ⟨S4096x1024, .f32⟩
  | .local _ .vmem, ⟨22, _⟩ => ⟨S4096x1024, .f32⟩
  | .local _ .vmem, ⟨23, _⟩ => ⟨S1x4096, .f32⟩
  | .local _ .vmem, ⟨24, _⟩ => ⟨S1x4096, .f32⟩
  | .local _ .vmem, ⟨25, _⟩ => ⟨S1x4096, .f32⟩
  | .local _ .vmem, ⟨26, _⟩ => ⟨S1x4096, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_c_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_cst : Ref sig .tc := ⟨.hbm, 26, rfl⟩
abbrev main_v6 : Ref sig .tc := ⟨.hbm, 27, rfl⟩
abbrev main_cst_1 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_call1_cst : Ref sig .tc := ⟨.hbm, 44, rfl⟩
abbrev main_call1_v0 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_3 : Ref sig .tc := ⟨.hbm, 60, rfl⟩
abbrev main_v35 : Ref sig .tc := ⟨.hbm, 61, rfl⟩
abbrev main_v36 : Ref sig .tc := ⟨.hbm, 62, rfl⟩
abbrev main_cst_4 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_5 : Ref sig .tc := ⟨.hbm, 69, rfl⟩
abbrev main_v42 : Ref sig .tc := ⟨.hbm, 70, rfl⟩
abbrev main_v43 : Ref sig .tc := ⟨.hbm, 71, rfl⟩
abbrev main_cst_6 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_7 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_call2_cst : Ref sig .tc := ⟨.hbm, 86, rfl⟩
abbrev main_call2_v0 : Ref sig .tc := ⟨.hbm, 87, rfl⟩
abbrev main_call2_cst_0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_v6 : Ref sig .tc := ⟨.hbm, 94, rfl⟩
abbrev main_call2_cst_1 : Ref sig .tc := ⟨.hbm, 95, rfl⟩
abbrev main_call2_v7 : Ref sig .tc := ⟨.hbm, 96, rfl⟩
abbrev main_call2_v8 : Ref sig .tc := ⟨.hbm, 97, rfl⟩
abbrev main_call2_v9 : Ref sig .tc := ⟨.hbm, 98, rfl⟩
abbrev main_call2_v10 : Ref sig .tc := ⟨.hbm, 99, rfl⟩
abbrev main_v56 : Ref sig .tc := ⟨.hbm, 100, rfl⟩
abbrev main_v57 : Ref sig .tc := ⟨.hbm, 101, rfl⟩
abbrev main_v0 : Ref sig .tc := ⟨.smem, 0, rfl⟩
abbrev cc0_stg0_0 : Ref sig .tc := ⟨.vmem, 0, rfl⟩
abbrev cc1_stg0_0 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc2_stg0_0 : Ref sig .tc := ⟨.vmem, 5, rfl⟩
abbrev cc2_stg1_0 : Ref sig .tc := ⟨.vmem, 6, rfl⟩
abbrev cc2_stg2_0 : Ref sig .tc := ⟨.vmem, 7, rfl⟩
abbrev cc3_stg0_0 : Ref sig .tc := ⟨.vmem, 8, rfl⟩
abbrev cc3_stg1_0 : Ref sig .tc := ⟨.vmem, 9, rfl⟩
abbrev cc3_stg2_0 : Ref sig .tc := ⟨.vmem, 10, rfl⟩
abbrev cc3_stg3_0 : Ref sig .tc := ⟨.vmem, 11, rfl⟩
abbrev cc4_stg0_0 : Ref sig .tc := ⟨.vmem, 12, rfl⟩
abbrev cc4_stg1_0 : Ref sig .tc := ⟨.vmem, 13, rfl⟩
abbrev cc4_stg2_0 : Ref sig .tc := ⟨.vmem, 14, rfl⟩
abbrev cc4_stg3_0 : Ref sig .tc := ⟨.vmem, 15, rfl⟩
abbrev cc5_stg0_0 : Ref sig .tc := ⟨.vmem, 16, rfl⟩
abbrev cc5_stg1_0 : Ref sig .tc := ⟨.vmem, 17, rfl⟩
abbrev cc5_stg2_0 : Ref sig .tc := ⟨.vmem, 18, rfl⟩
abbrev cc5_stg3_0 : Ref sig .tc := ⟨.vmem, 19, rfl⟩
abbrev cc6_stg0_0 : Ref sig .tc := ⟨.vmem, 20, rfl⟩
abbrev cc6_stg1_0 : Ref sig .tc := ⟨.vmem, 21, rfl⟩
abbrev cc6_stg1_1 : Ref sig .tc := ⟨.vmem, 22, rfl⟩
abbrev cc6_stg2_0 : Ref sig .tc := ⟨.vmem, 23, rfl⟩
abbrev cc6_stg2_1 : Ref sig .tc := ⟨.vmem, 24, rfl⟩
abbrev cc6_stg3_0 : Ref sig .tc := ⟨.vmem, 25, rfl⟩
abbrev cc6_stg3_1 : Ref sig .tc := ⟨.vmem, 26, rfl⟩
abbrev cc0_sem0_0 : DmaSem sig := 0
abbrev cc1_sem0_0 : DmaSem sig := 2
abbrev cc1_sem1_0 : DmaSem sig := 3
abbrev cc1_sem2_0 : DmaSem sig := 4
abbrev cc1_sem3_0 : DmaSem sig := 5
abbrev cc2_sem0_0 : DmaSem sig := 6
abbrev cc2_sem1_0 : DmaSem sig := 7
abbrev cc2_sem2_0 : DmaSem sig := 8
abbrev cc3_sem0_0 : DmaSem sig := 9
abbrev cc3_sem1_0 : DmaSem sig := 10
abbrev cc3_sem2_0 : DmaSem sig := 11
abbrev cc3_sem3_0 : DmaSem sig := 12
abbrev cc4_sem0_0 : DmaSem sig := 13
abbrev cc4_sem1_0 : DmaSem sig := 14
abbrev cc4_sem2_0 : DmaSem sig := 15
abbrev cc4_sem3_0 : DmaSem sig := 16
abbrev cc5_sem0_0 : DmaSem sig := 17
abbrev cc5_sem1_0 : DmaSem sig := 18
abbrev cc5_sem2_0 : DmaSem sig := 19
abbrev cc5_sem3_0 : DmaSem sig := 20
abbrev cc6_sem0_0 : DmaSem sig := 21
abbrev cc6_sem1_0 : DmaSem sig := 22
abbrev cc6_sem1_1 : DmaSem sig := 23
abbrev cc6_sem2_0 : DmaSem sig := 24
abbrev cc6_sem2_1 : DmaSem sig := 25
abbrev cc6_sem3_0 : DmaSem sig := 26
abbrev cc6_sem3_1 : DmaSem sig := 27

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (v0 : BitVec 32) : Fin 2 → Nat :=
  let c0_i32_1 : BitVec 32 := 0#32
  ![v0.toNat, 0]

def k0_chk1 (v0 : BitVec 32) : Prop :=
  (∀ a, (k0_off1 v0) a + S1x1024.size a ≤ S50257x1024.size a)
instance k0_chk1.dec : ∀ (v0 : BitVec 32), Decidable (k0_chk1 v0) := fun v0 => decidable_of_iff' _ (Iff.of_eq (k0_chk1.eq_1 v0))
theorem k0_off1_inb : ∀ (v0 : BitVec 32) (k0_hw1 : k0_chk1 v0), ∀ a, (k0_off1 v0) a + S1x1024.size a ≤ S50257x1024.size a := fun v0 k0_hw1 => k0_hw1

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S512x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S512x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S1x2048 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S1024x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 1 → Memref sig .tc .vmem S1x1024 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S3072x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true]

abbrev stage4_2 : Fin 1 → Memref sig .tc .vmem S1x3072 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev stage4_3 : Fin 1 → Memref sig .tc .vmem S1x3072 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 1 → Memref sig .tc .vmem S1x1024 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S3072x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S1x3072 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

abbrev stage5_3 : Fin 1 → Memref sig .tc .vmem S1x3072 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]

abbrev grid6 : Pipeline.Grid := ⟨1, ![13], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage6_0 : Fin 1 → Memref sig .tc .vmem S1x1024 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 2 → Memref sig .tc .vmem S4096x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1x4096 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S1x4096 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  bcast_S_S1 : S_.BroadcastsInDim S1 (![] : Fin 0 → Fin S1.rank)
  inb_S1_S1_0 : ∀ a, (![0] : Fin 1 → Nat) a + S1.size a ≤ S1.size a
  numel1_S1 : S1.numel = 1
  inb_S1x1024_S1x1024_0_0 : ∀ a, (![0, 0] : Fin 2 → Nat) a + S1x1024.size a ≤ S1x1024.size a
  squeezes_S1x1024_S1024 : S1x1024.Squeezes S1024
  shapeCasts_S1x1x1024_S1x1024 : S1x1x1024.ShapeCasts S1x1024
  concatenates_S1x1024_S1x1024_S1x2048_d1 : Shape.Concatenates [S1x1024, S1x1024] S1x2048 1
  shapeCasts_S512_S1x512 : S512.ShapeCasts S1x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reducesTo_S1x512_S1_d1 : S1x512.ReducesTo [1] S1
  h_S_ : 0 < S_.numel
  bcast_S1_S1x1_0 : S1.BroadcastsInDim S1x1 (![0] : Fin 1 → Fin S1x1.rank)
  bcast_S1x1_S1x512_0_1 : S1x1.BroadcastsInDim S1x512 (![0, 1] : Fin 2 → Fin S1x512.rank)
  inb_S512x1024_S512x1024_0_0 : ∀ a, (![0, 0] : Fin 2 → Nat) a + S512x1024.size a ≤ S512x1024.size a
  h_S512x1024 : 0 < S512x1024.numel
  h_S1x1024 : 0 < S1x1024.numel
  shapeCasts_S1024_S1x1024 : S1024.ShapeCasts S1x1024
  inb_S1024x2048_S1024x2048_0_0 : ∀ a, (![0, 0] : Fin 2 → Nat) a + S1024x2048.size a ≤ S1024x2048.size a
  h_S1024x2048 : 0 < S1024x2048.numel
  shapeCasts_S1x1024_S1x1024 : S1x1024.ShapeCasts S1x1024
  bcast_S_S1x1024 : S_.BroadcastsInDim S1x1024 (![] : Fin 0 → Fin S1x1024.rank)
  shapeCasts_S3072_S1x3072 : S3072.ShapeCasts S1x3072
  inb_S3072x1024_S3072x1024_0_0 : ∀ a, (![0, 0] : Fin 2 → Nat) a + S3072x1024.size a ≤ S3072x1024.size a
  h_S3072x1024 : 0 < S3072x1024.numel
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  shapeCasts_S50257_S1x50257 : S50257.ShapeCasts S1x50257
  inb_S4096x1024_S4096x1024_0_0 : ∀ a, (![0, 0] : Fin 2 → Nat) a + S4096x1024.size a ≤ S4096x1024.size a
  h_S4096x1024 : 0 < S4096x1024.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  dot_S1x2048_S512x2048_S1x512_1_1_0_0_n_n_wf : DotDims.WF S1x2048 S512x2048 S1x512 [1] [1] [0] [0] [] []
  dot_S1x512_S512x1024_S1x1024_1_0_0_1_n_n_wf : DotDims.WF S1x512 S512x1024 S1x1024 [1] [0] [0] [1] [] []
  dot_S1x2048_S1024x2048_S1x1024_1_1_0_0_n_n_wf : DotDims.WF S1x2048 S1024x2048 S1x1024 [1] [1] [0] [0] [] []
  dot_S1x1024_S3072x1024_S1x3072_1_1_0_0_n_n_wf : DotDims.WF S1x1024 S3072x1024 S1x3072 [1] [1] [0] [0] [] []
  dot_S1x1024_S4096x1024_S1x4096_1_1_0_0_n_n_wf : DotDims.WF S1x1024 S4096x1024 S1x4096 [1] [1] [0] [0] [] []
  hcc0_scratch0 : 1 + S_.numel ≤ 28
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_1 i = cc0_transform_1 i'
  hinb0_0 : ∀ (i : grid0.Coords) a, (cc0_transform_1 i a + 1) * S1x1024.size a ≤ S1x1024.size a
  hwx0_0 : ∀ i : grid0.Coords, EltTy.bits .f32 = 32 ∨ (Rect.block (s := S1x1024) S1x1024.size (cc0_transform_1 i) (hinb0_0 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x2048.size a ≤ S1x2048.size a
  hwx1_0 : ∀ i : grid1.Coords, EltTy.bits .f32 = 32 ∨ (Rect.block (s := S1x2048) S1x2048.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S512x2048.size a
  hwx1_1 : ∀ i : grid1.Coords, EltTy.bits .f32 = 32 ∨ (Rect.block (s := S512x2048) S512x2048.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x512.size a ≤ S1x512.size a
  hwx2_0 : ∀ i : grid2.Coords, EltTy.bits .f32 = 32 ∨ (Rect.block (s := S1x512) S1x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S512x1024.size a
  hwx2_1 : ∀ i : grid2.Coords, EltTy.bits .f32 = 32 ∨ (Rect.block (s := S512x1024) S512x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1x2048.size a ≤ S1x2048.size a
  hwx3_0 : ∀ i : grid3.Coords, EltTy.bits .f32 = 32 ∨ (Rect.block (s := S1x2048) S1x2048.size (cc3_transform_0 i) (hinb3_0 i)).WholeWords (EltTy.packing .f32)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S1024x2048.size a ≤ S1024x2048.size a
  hwx3_1 : ∀ i : grid3.Coords, EltTy.bits .f32 = 32 ∨ (Rect.block (s := S1024x2048) S1024x2048.size (cc3_transform_1 i) (hinb3_1 i)).WholeWords (EltTy.packing .f32)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x1024.size a
  hwx3_3 : ∀ i : grid3.Coords, EltTy.bits .f32 = 32 ∨ (Rect.block (s := S1x1024) S1x1024.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1x1024.size a ≤ S1x1024.size a
  hwx4_0 : ∀ i : grid4.Coords, EltTy.bits .f32 = 32 ∨ (Rect.block (s := S1x1024) S1x1024.size (cc4_transform_0 i) (hinb4_0 i)).WholeWords (EltTy.packing .f32)
  hstage4_1 : ∀ j, (stage4_1 j).IsWhole
  nbuf4_1 : grid4.bufCount reads4_1 false = 1
  hreads4_1 : ∀ i i' : grid4.Coords, (∀ a, reads4_1 a = true → i a = i' a) → cc4_transform_1 i = cc4_transform_1 i'
  hinb4_1 : ∀ (i : grid4.Coords) a, (cc4_transform_1 i a + 1) * S3072x1024.size a ≤ S3072x1024.size a
  hwx4_1 : ∀ i : grid4.Coords, EltTy.bits .f32 = 32 ∨ (Rect.block (s := S3072x1024) S3072x1024.size (cc4_transform_1 i) (hinb4_1 i)).WholeWords (EltTy.packing .f32)
  hstage4_2 : ∀ j, (stage4_2 j).IsWhole
  nbuf4_2 : grid4.bufCount reads4_2 false = 1
  hreads4_2 : ∀ i i' : grid4.Coords, (∀ a, reads4_2 a = true → i a = i' a) → cc4_transform_2 i = cc4_transform_2 i'
  hinb4_2 : ∀ (i : grid4.Coords) a, (cc4_transform_2 i a + 1) * S1x3072.size a ≤ S1x3072.size a
  hwx4_2 : ∀ i : grid4.Coords, EltTy.bits .f32 = 32 ∨ (Rect.block (s := S1x3072) S1x3072.size (cc4_transform_2 i) (hinb4_2 i)).WholeWords (EltTy.packing .f32)
  hstage4_3 : ∀ j, (stage4_3 j).IsWhole
  nbuf4_3 : grid4.bufCount reads4_3 false = 1
  hreads4_3 : ∀ i i' : grid4.Coords, (∀ a, reads4_3 a = true → i a = i' a) → cc4_transform_3 i = cc4_transform_3 i'
  hinb4_3 : ∀ (i : grid4.Coords) a, (cc4_transform_3 i a + 1) * S1x3072.size a ≤ S1x3072.size a
  hwx4_3 : ∀ i : grid4.Coords, EltTy.bits .f32 = 32 ∨ (Rect.block (s := S1x3072) S1x3072.size (cc4_transform_3 i) (hinb4_3 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S1x1024.size a ≤ S1x1024.size a
  hwx5_0 : ∀ i : grid5.Coords, EltTy.bits .f32 = 32 ∨ (Rect.block (s := S1x1024) S1x1024.size (cc5_transform_0 i) (hinb5_0 i)).WholeWords (EltTy.packing .f32)
  hstage5_1 : ∀ j, (stage5_1 j).IsWhole
  nbuf5_1 : grid5.bufCount reads5_1 false = 1
  hreads5_1 : ∀ i i' : grid5.Coords, (∀ a, reads5_1 a = true → i a = i' a) → cc5_transform_1 i = cc5_transform_1 i'
  hinb5_1 : ∀ (i : grid5.Coords) a, (cc5_transform_1 i a + 1) * S3072x1024.size a ≤ S3072x1024.size a
  hwx5_1 : ∀ i : grid5.Coords, EltTy.bits .f32 = 32 ∨ (Rect.block (s := S3072x1024) S3072x1024.size (cc5_transform_1 i) (hinb5_1 i)).WholeWords (EltTy.packing .f32)
  hstage5_2 : ∀ j, (stage5_2 j).IsWhole
  nbuf5_2 : grid5.bufCount reads5_2 false = 1
  hreads5_2 : ∀ i i' : grid5.Coords, (∀ a, reads5_2 a = true → i a = i' a) → cc5_transform_2 i = cc5_transform_2 i'
  hinb5_2 : ∀ (i : grid5.Coords) a, (cc5_transform_2 i a + 1) * S1x3072.size a ≤ S1x3072.size a
  hwx5_2 : ∀ i : grid5.Coords, EltTy.bits .f32 = 32 ∨ (Rect.block (s := S1x3072) S1x3072.size (cc5_transform_2 i) (hinb5_2 i)).WholeWords (EltTy.packing .f32)
  hstage5_3 : ∀ j, (stage5_3 j).IsWhole
  nbuf5_3 : grid5.bufCount reads5_3 false = 1
  hreads5_3 : ∀ i i' : grid5.Coords, (∀ a, reads5_3 a = true → i a = i' a) → cc5_transform_3 i = cc5_transform_3 i'
  hinb5_3 : ∀ (i : grid5.Coords) a, (cc5_transform_3 i a + 1) * S1x3072.size a ≤ S1x3072.size a
  hwx5_3 : ∀ i : grid5.Coords, EltTy.bits .f32 = 32 ∨ (Rect.block (s := S1x3072) S1x3072.size (cc5_transform_3 i) (hinb5_3 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S1x1024.size a ≤ S1x1024.size a
  hwx6_0 : ∀ i : grid6.Coords, EltTy.bits .f32 = 32 ∨ (Rect.block (s := S1x1024) S1x1024.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hstart6_1 : ∀ (i : grid6.Coords) a, cc6_transform_1 i a * S4096x1024.size a < S50257x1024.size a
  hwx6_1 : ∀ i : grid6.Coords, EltTy.bits .f32 = 32 ∨ (Rect.unit (s := S50257x1024) (fun a => cc6_transform_1 i a * S4096x1024.size a) (fun a => (Pipeline.Clip.of (cc6_transform_1 i a) (S4096x1024.size a) (S50257x1024.size a)).extent (S4096x1024.size a)) fun a => Pipeline.Clip.inb (Pipeline.Clip.ok_of (hstart6_1 i a))).WholeWords (EltTy.packing .f32)
  hwxs6_1 : ∀ i : grid6.Coords, EltTy.bits .f32 = 32 ∨ (Rect.unit (s := S4096x1024) (fun _ => 0) (fun a => (Pipeline.Clip.of (cc6_transform_1 i a) (S4096x1024.size a) (S50257x1024.size a)).extent (S4096x1024.size a)) fun a => (Nat.zero_add _).trans_le (Pipeline.Clip.extent_le (Pipeline.Clip.ok_of (hstart6_1 i a)))).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hstart6_2 : ∀ (i : grid6.Coords) a, cc6_transform_2 i a * S1x4096.size a < S1x50257.size a
  hwx6_2 : ∀ i : grid6.Coords, EltTy.bits .f32 = 32 ∨ (Rect.unit (s := S1x50257) (fun a => cc6_transform_2 i a * S1x4096.size a) (fun a => (Pipeline.Clip.of (cc6_transform_2 i a) (S1x4096.size a) (S1x50257.size a)).extent (S1x4096.size a)) fun a => Pipeline.Clip.inb (Pipeline.Clip.ok_of (hstart6_2 i a))).WholeWords (EltTy.packing .f32)
  hwxs6_2 : ∀ i : grid6.Coords, EltTy.bits .f32 = 32 ∨ (Rect.unit (s := S1x4096) (fun _ => 0) (fun a => (Pipeline.Clip.of (cc6_transform_2 i a) (S1x4096.size a) (S1x50257.size a)).extent (S1x4096.size a)) fun a => (Nat.zero_add _).trans_le (Pipeline.Clip.extent_le (Pipeline.Clip.ok_of (hstart6_2 i a)))).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hstart6_3 : ∀ (i : grid6.Coords) a, cc6_transform_3 i a * S1x4096.size a < S1x50257.size a
  hwx6_3 : ∀ i : grid6.Coords, EltTy.bits .f32 = 32 ∨ (Rect.unit (s := S1x50257) (fun a => cc6_transform_3 i a * S1x4096.size a) (fun a => (Pipeline.Clip.of (cc6_transform_3 i a) (S1x4096.size a) (S1x50257.size a)).extent (S1x4096.size a)) fun a => Pipeline.Clip.inb (Pipeline.Clip.ok_of (hstart6_3 i a))).WholeWords (EltTy.packing .f32)
  hwxs6_3 : ∀ i : grid6.Coords, EltTy.bits .f32 = 32 ∨ (Rect.unit (s := S1x4096) (fun _ => 0) (fun a => (Pipeline.Clip.of (cc6_transform_3 i a) (S1x4096.size a) (S1x50257.size a)).extent (S1x4096.size a)) fun a => (Nat.zero_add _).trans_le (Pipeline.Clip.extent_le (Pipeline.Clip.ok_of (hstart6_3 i a)))).WholeWords (EltTy.packing .f32)

variable [Facts₀]

abbrev cc0_scratch0 : DmaSems sig S_ := SemArray.consecutive 1 S_ hcc0_scratch0
def dot_S1x2048_S512x2048_S1x512_1_1_0_0_n_n : DotDims S1x2048 S512x2048 S1x512 where
  lhsContracting := [1]
  rhsContracting := [1]
  lhsNonContracting := [0]
  rhsNonContracting := [0]
  lhsBatch := []
  rhsBatch := []
  wf := dot_S1x2048_S512x2048_S1x512_1_1_0_0_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf
def dot_S1x2048_S1024x2048_S1x1024_1_1_0_0_n_n : DotDims S1x2048 S1024x2048 S1x1024 where
  lhsContracting := [1]
  rhsContracting := [1]
  lhsNonContracting := [0]
  rhsNonContracting := [0]
  lhsBatch := []
  rhsBatch := []
  wf := dot_S1x2048_S1024x2048_S1x1024_1_1_0_0_n_n_wf
def dot_S1x1024_S3072x1024_S1x3072_1_1_0_0_n_n : DotDims S1x1024 S3072x1024 S1x3072 where
  lhsContracting := [1]
  rhsContracting := [1]
  lhsNonContracting := [0]
  rhsNonContracting := [0]
  lhsBatch := []
  rhsBatch := []
  wf := dot_S1x1024_S3072x1024_S1x3072_1_1_0_0_n_n_wf
def dot_S1x1024_S4096x1024_S1x4096_1_1_0_0_n_n : DotDims S1x1024 S4096x1024 S1x4096 where
  lhsContracting := [1]
  rhsContracting := [1]
  lhsNonContracting := [0]
  rhsNonContracting := [0]
  lhsBatch := []
  rhsBatch := []
  wf := dot_S1x1024_S4096x1024_S1x4096_1_1_0_0_n_n_wf

abbrev spec0_0 : Pipeline.WinSpec sig grid0.rank :=
  Pipeline.WinSpec.ofSpec (Memref.whole main_v1) S1x1024.size reads0_0 true true 1 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))
abbrev win1_0 : Pipeline.Window sig grid1 :=
  Pipeline.Window.ofSpec (Memref.whole main_v3) S1x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S512x2048.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x512.size cc1_transform_2 reads1_2 false false 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x512.size cc1_transform_3 reads1_3 true false 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v16) S1x512.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S512x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x1024.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v18) S1x2048.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S1024x2048.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_v19) S1x1024.size cc3_transform_2 reads3_2 false false 1 stage3_2 sem3_2
    hrank3 hreads3_2 hinb3_2 nbuf3_2 (Memref.isWhole_whole _) hwx3_2 hstage3_2

abbrev win3_3 : Pipeline.Window sig grid3 :=
  Pipeline.Window.ofSpec (Memref.whole main_v20) S1x1024.size cc3_transform_3 reads3_3 true false 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v21) S1x1024.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S3072x1024.size cc4_transform_1 reads4_1 false false 1 stage4_1 sem4_1
    hrank4 hreads4_1 hinb4_1 nbuf4_1 (Memref.isWhole_whole _) hwx4_1 hstage4_1

abbrev win4_2 : Pipeline.Window sig grid4 :=
  Pipeline.Window.ofSpec (Memref.whole main_v22) S1x3072.size cc4_transform_2 reads4_2 false false 1 stage4_2 sem4_2
    hrank4 hreads4_2 hinb4_2 nbuf4_2 (Memref.isWhole_whole _) hwx4_2 hstage4_2

abbrev win4_3 : Pipeline.Window sig grid4 :=
  Pipeline.Window.ofSpec (Memref.whole main_v24) S1x3072.size cc4_transform_3 reads4_3 true false 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v2) S1x1024.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg9) S3072x1024.size cc5_transform_1 reads5_1 false false 1 stage5_1 sem5_1
    hrank5 hreads5_1 hinb5_1 nbuf5_1 (Memref.isWhole_whole _) hwx5_1 hstage5_1

abbrev win5_2 : Pipeline.Window sig grid5 :=
  Pipeline.Window.ofSpec (Memref.whole main_v23) S1x3072.size cc5_transform_2 reads5_2 false false 1 stage5_2 sem5_2
    hrank5 hreads5_2 hinb5_2 nbuf5_2 (Memref.isWhole_whole _) hwx5_2 hstage5_2

abbrev win5_3 : Pipeline.Window sig grid5 :=
  Pipeline.Window.ofSpec (Memref.whole main_v25) S1x3072.size cc5_transform_3 reads5_3 true false 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v53) S1x1024.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpecClip (Memref.whole main_arg12) S4096x1024.size cc6_transform_1 reads6_1 false false 2 stage6_1 sem6_1
    hrank6 hreads6_1 hstart6_1 nbuf6_1 (Memref.isWhole_whole _) hwx6_1 hwxs6_1 hstage6_1

abbrev win6_2 : Pipeline.Window sig grid6 :=
  Pipeline.Window.ofSpecClip (Memref.whole main_v54) S1x4096.size cc6_transform_2 reads6_2 false false 2 stage6_2 sem6_2
    hrank6 hreads6_2 hstart6_2 nbuf6_2 (Memref.isWhole_whole _) hwx6_2 hwxs6_2 hstage6_2

abbrev win6_3 : Pipeline.Window sig grid6 :=
  Pipeline.Window.ofSpecClip (Memref.whole main_v55) S1x4096.size cc6_transform_3 reads6_3 true false 2 stage6_3 sem6_3
    hrank6 hreads6_3 hstart6_3 nbuf6_3 (Memref.isWhole_whole _) hwx6_3 hwxs6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where
  harr0 : ∀ w, (spec0 w).arr.IsWhole

variable [Facts]
-- ==== ReferenceIdeal.lean ====
abbrev S1 : Shape := ⟨1, ![1]⟩
abbrev S1x1x1024 : Shape := ⟨3, ![1, 1, 1024]⟩
abbrev S512x1024 : Shape := ⟨2, ![512, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x2048 : Shape := ⟨2, ![1, 2048]⟩
abbrev S2048x512 : Shape := ⟨2, ![2048, 512]⟩
abbrev S1x512 : Shape := ⟨2, ![1, 512]⟩
abbrev S2048x1024 : Shape := ⟨2, ![2048, 1024]⟩
abbrev S1024x3072 : Shape := ⟨2, ![1024, 3072]⟩
abbrev S1x3072 : Shape := ⟨2, ![1, 3072]⟩
abbrev S1024x50257 : Shape := ⟨2, ![1024, 50257]⟩
abbrev S1x50257 : Shape := ⟨2, ![1, 50257]⟩

abbrev nBuf : Space → Nat
  | .hbm => 113
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S512x1024, .f32⟩
  | .hbm, ⟨3, _⟩ => ⟨S50257x1024, .f32⟩
  | .hbm, ⟨4, _⟩ => ⟨S512x2048, .f32⟩
  | .hbm, ⟨5, _⟩ => ⟨S512, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x1024, .f32⟩
  | .hbm, ⟨23, _⟩ => ⟨S1x1024, .f32⟩
  | .hbm, ⟨24, _⟩ => ⟨S1x2048, .f32⟩
  | .hbm, ⟨25, _⟩ => ⟨S2048x512, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S1x1, .f32⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S_, .f32⟩
  | .hbm, ⟨39, _⟩ => ⟨S1, .f32⟩
  | .hbm, ⟨40, _⟩ => ⟨S1x1, .f32⟩
  | .hbm, ⟨41, _⟩ => ⟨S1x512, .f32⟩
  | .hbm, ⟨42, _⟩ => ⟨S1x512, .f32⟩
  | .hbm, ⟨43, _⟩ => ⟨S1x1024, .f32⟩
  | .hbm, ⟨44, _⟩ => ⟨S1x2048, .f32⟩
  | .hbm, ⟨45, _⟩ => ⟨S2048x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S1024x3072, .f32⟩
  | .hbm, ⟨53, _⟩ => ⟨S1x3072, .f32⟩
  | .hbm, ⟨54, _⟩ => ⟨S1x3072, .f32⟩
  | .hbm, ⟨55, _⟩ => ⟨S1x3072, .f32⟩
  | .hbm, ⟨56, _⟩ => ⟨S1024x3072, .f32⟩
  | .hbm, ⟨57, _⟩ => ⟨S1x3072, .f32⟩
  | .hbm, ⟨58, _⟩ => ⟨S1x3072, .f32⟩
  | .hbm, ⟨59, _⟩ => ⟨S1x3072, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S_, .f32⟩
  | .hbm, ⟨70, _⟩ => ⟨S1x1024, .f32⟩
  | .hbm, ⟨71, _⟩ => ⟨S1x1024, .f32⟩
  | .hbm, ⟨72, _⟩ => ⟨S_, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S_, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S1024x50257, .f32⟩
  | .hbm, ⟨94, _⟩ => ⟨S1x50257, .f32⟩
  | .hbm, ⟨95, _⟩ => ⟨S1x50257, .f32⟩
  | .hbm, ⟨96, _⟩ => ⟨S1x50257, .f32⟩
  | .hbm, ⟨97, _⟩ => ⟨S_, .f32⟩
  | .hbm, ⟨98, _⟩ => ⟨S1, .f32⟩
  | .hbm, ⟨99, _⟩ => ⟨S_, .f32⟩
  | .hbm, ⟨100, _⟩ => ⟨S1, .f32⟩
  | .hbm, ⟨101, _⟩ => ⟨S1, .f32⟩
  | .hbm, ⟨102, _⟩ => ⟨S1x1, .f32⟩
  | .hbm, ⟨103, _⟩ => ⟨S1x50257, .f32⟩
  | .hbm, ⟨104, _⟩ => ⟨S1x50257, .f32⟩
  | .hbm, ⟨105, _⟩ => ⟨S1x50257, .f32⟩
  | .hbm, ⟨106, _⟩ => ⟨S_, .f32⟩
  | .hbm, ⟨107, _⟩ => ⟨S1, .f32⟩
  | .hbm, ⟨108, _⟩ => ⟨S1x1, .f32⟩
  | .hbm, ⟨109, _⟩ => ⟨S1x1, .f32⟩
  | .hbm, ⟨110, _⟩ => ⟨S1x50257, .f32⟩
  | .hbm, ⟨111, _⟩ => ⟨S1x50257, .f32⟩
  | .hbm, ⟨112, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call0_cst : Ref sig .tc := ⟨.hbm, 49, rfl⟩
abbrev main_call0_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_3 : Ref sig .tc := ⟨.hbm, 69, rfl⟩
abbrev main_v48 : Ref sig .tc := ⟨.hbm, 70, rfl⟩
abbrev main_v49 : Ref sig .tc := ⟨.hbm, 71, rfl⟩
abbrev main_cst_4 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_5 : Ref sig .tc := ⟨.hbm, 78, rfl⟩
abbrev main_v55 : Ref sig .tc := ⟨.hbm, 79, rfl⟩
abbrev main_v56 : Ref sig .tc := ⟨.hbm, 80, rfl⟩
abbrev main_cst_6 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_7 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_call1_cst : Ref sig .tc := ⟨.hbm, 97, rfl⟩
abbrev main_call1_v0 : Ref sig .tc := ⟨.hbm, 98, rfl⟩
abbrev main_call1_cst_0 : Ref sig .tc := ⟨.hbm, 99, rfl⟩
abbrev main_call1_v1 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_call1_v5 : Ref sig .tc := ⟨.hbm, 104, rfl⟩
abbrev main_call1_v6 : Ref sig .tc := ⟨.hbm, 105, rfl⟩
abbrev main_call1_cst_1 : Ref sig .tc := ⟨.hbm, 106, rfl⟩
abbrev main_call1_v7 : Ref sig .tc := ⟨.hbm, 107, rfl⟩
abbrev main_call1_v8 : Ref sig .tc := ⟨.hbm, 108, rfl⟩
abbrev main_call1_v9 : Ref sig .tc := ⟨.hbm, 109, rfl⟩
abbrev main_call1_v10 : Ref sig .tc := ⟨.hbm, 110, rfl⟩
abbrev main_v71 : Ref sig .tc := ⟨.hbm, 111, rfl⟩
abbrev main_v72 : Ref sig .tc := ⟨.hbm, 112, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x1024_S1x1024 : S1x1x1024.ShapeCasts S1x1024
  concatenates_S1x1024_S1x1024_S1x2048_d1 : Shape.Concatenates [S1x1024, S1x1024] S1x2048 1
  transposes_S512x2048_S2048x512_1_0 : S512x2048.Transposes [1, 0] S2048x512
  bcast_S512_S1x512_1 : S512.BroadcastsInDim S1x512 (![1] : Fin 1 → Fin S1x512.rank)
  reducesTo_S1x512_S1_d1 : S1x512.ReducesTo [1] S1
  h_S_ : 0 < S_.numel
  bcast_S1x1_S1x512_0_1 : S1x1.BroadcastsInDim S1x512 (![0, 1] : Fin 2 → Fin S1x512.rank)
  transposes_S1024x2048_S2048x1024_1_0 : S1024x2048.Transposes [1, 0] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  transposes_S50257x1024_S1024x50257_1_0 : S50257x1024.Transposes [1, 0] S1024x50257
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S2048x512_S1x512_1_0_0_1_n_n_wf : DotDims.WF S1x2048 S2048x512 S1x512 [1] [0] [0] [1] [] []
  dot_S1x512_S512x1024_S1x1024_1_0_0_1_n_n_wf : DotDims.WF S1x512 S512x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S1024x50257_S1x50257_1_0_0_1_n_n_wf : DotDims.WF S1x1024 S1024x50257 S1x50257 [1] [0] [0] [1] [] []

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S2048x512_S1x512_1_0_0_1_n_n : DotDims S1x2048 S2048x512 S1x512 where
  lhsContracting := [1]
  rhsContracting := [0]
  lhsNonContracting := [0]
  rhsNonContracting := [1]
  lhsBatch := []
  rhsBatch := []
  wf := dot_S1x2048_S2048x512_S1x512_1_0_0_1_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.RefRunHand.lean ====
import proofs.«409304_j78383153152469_3_alg».proof.Proof.RefRead
import Idealize.ShloMosaic.Lib.StableHlo.Run

noncomputable section

namespace Cert.RefHand

open Cert.ReferenceIdeal Cert.ReferenceIdeal.Gen Idealize.ShloMosaic Idealize.ShloMosaic.TcCoe Idealize.SL.Sem Idealize.ShloMosaic.StableHlo
open Cert.RefHand.Read

variable {F : FTy → Type} [FloatOps F]

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

theorem ofBuf_toBuf {T : BufTy} (x : TRef sig T) (v : T.Contents (Elt F)) :
    x.ofBuf (Val := Elt F) (x.toBuf v) = v := by
  obtain ⟨r, h, h1, h2⟩ := x; subst h; rfl

macro "ops_writes_tac" : tactic =>
  `(tactic| (simp only [List.Forall]
             repeat' apply And.intro
             all_goals (simp only [nullary_writes, unary_writes, binary_writes, ternary_writes, reshape_writes,
               Finset.singleton_subset_iff, List.mem_toFinset]; exact List.mem_map_of_mem (by decide))))

macro "ops_fresh_tac" : tactic =>
  `(tactic| (intro _ h; (repeat (cases h with | head => rfl | tail _ h => ?_)); exact nomatch h))

abbrev opsA : List (HloOp τ sig (Elt F)) :=
  [ nullary main_c (constantI S_ 32 0#32),
    unary main_c main_v0 (broadcastInDim S1 ![] bcast_S_S1 : (⟨S_, .i32⟩ : BufTy).Contents (Elt F) → (⟨S1, .i32⟩ : BufTy).Contents (Elt F)),
    binary main_arg0 main_v0 main_v1 (cmpi .slt : (⟨S1, .i32⟩ : BufTy).Contents (Elt F) → (⟨S1, .i32⟩ : BufTy).Contents (Elt F) → (⟨S1, .i1⟩ : BufTy).Contents (Elt F)),
    nullary main_c_0 (constantI S_ 32 50257#32),
    unary main_c_0 main_v2 (broadcastInDim S1 ![] bcast_S_S1 : (⟨S_, .i32⟩ : BufTy).Contents (Elt F) → (⟨S1, .i32⟩ : BufTy).Contents (Elt F)),
    binary main_arg0 main_v2 main_v3 (addi : (⟨S1, .i32⟩ : BufTy).Contents (Elt F) → (⟨S1, .i32⟩ : BufTy).Contents (Elt F) → (⟨S1, .i32⟩ : BufTy).Contents (Elt F)),
    ternary main_v1 main_v3 main_arg0 main_v4 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v4 main_v5 (broadcastInDim S1x1 ![0] bcast_S1_S1x1_0 : (⟨S1, .i32⟩ : BufTy).Contents (Elt F) → (⟨S1x1, .i32⟩ : BufTy).Contents (Elt F)),
    binary main_arg3 main_v5 main_v6 ((fun x i => Host.gather gather_S50257x1024_S1x1_S1x1024_1_0_n_n_0_1_11024 x i) : (⟨S50257x1024, .f32⟩ : BufTy).Contents (Elt F) → (⟨S1x1, .i32⟩ : BufTy).Contents (Elt F) → (⟨S1x1024, .f32⟩ : BufTy).Contents (Elt F)),
    reshape main_arg1 main_v7 rfl shapeCasts_S1x1x1024_S1x1024 ]

abbrev opsA_W : List (Ref sig .tc) := [main_c, main_v0, main_v1, main_c_0, main_v2, main_v3, main_v4, main_v5, main_v6, main_v7]

abbrev opsB : List (HloOp τ sig (Elt F)) :=
  [ binary main_v6 main_v7 main_v8 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg4 main_v9 ((transpose S2048x512 [1, 0] · transposes_S512x2048_S2048x512_1_0) : (⟨S512x2048, .f32⟩ : BufTy).Contents (Elt F) → (⟨S2048x512, .f32⟩ : BufTy).Contents (Elt F)),
    binary main_v8 main_v9 main_v10 ((fun l r => Host.dotGeneral dot_S1x2048_S2048x512_S1x512_1_0_0_1_n_n none l r) : (⟨S1x2048, .f32⟩ : BufTy).Contents (Elt F) → (⟨S2048x512, .f32⟩ : BufTy).Contents (Elt F) → (⟨S1x512, .f32⟩ : BufTy).Contents (Elt F)),
    unary main_arg5 main_v11 (broadcastInDim S1x512 ![1] bcast_S512_S1x512_1 : (⟨S512, .f32⟩ : BufTy).Contents (Elt F) → (⟨S1x512, .f32⟩ : BufTy).Contents (Elt F)),
    binary main_v10 main_v11 main_v12 (addf : (⟨S1x512, .f32⟩ : BufTy).Contents (Elt F) → (⟨S1x512, .f32⟩ : BufTy).Contents (Elt F) → (⟨S1x512, .f32⟩ : BufTy).Contents (Elt F)),
    nullary main_cst (constant S_ .f32 0xFF800000#32),
    binary main_v12 main_cst main_v13 ((fun x v => Host.reduce FloatOps.maximumf x v reducesTo_S1x512_S1_d1 h_S_) : (⟨S1x512, .f32⟩ : BufTy).Contents (Elt F) → (⟨S_, .f32⟩ : BufTy).Contents (Elt F) → (⟨S1, .f32⟩ : BufTy).Contents (Elt F)),
    nullary main_cst_1 (constant S_ .f32 0xFF800000#32),
    unary main_cst_1 main_v14 (broadcastInDim S1 ![] bcast_S_S1 : (⟨S_, .f32⟩ : BufTy).Contents (Elt F) → (⟨S1, .f32⟩ : BufTy).Contents (Elt F)),
    binary main_v14 main_v13 main_v15 (maximumf : (⟨S1, .f32⟩ : BufTy).Contents (Elt F) → (⟨S1, .f32⟩ : BufTy).Contents (Elt F) → (⟨S1, .f32⟩ : BufTy).Contents (Elt F)),
    unary main_v15 main_v16 (broadcastInDim S1x1 ![0] bcast_S1_S1x1_0 : (⟨S1, .f32⟩ : BufTy).Contents (Elt F) → (⟨S1x1, .f32⟩ : BufTy).Contents (Elt F)),
    unary main_v16 main_v17 (broadcastInDim S1x512 ![0, 1] bcast_S1x1_S1x512_0_1 : (⟨S1x1, .f32⟩ : BufTy).Contents (Elt F) → (⟨S1x512, .f32⟩ : BufTy).Contents (Elt F)),
    binary main_v12 main_v17 main_v18 (subf : (⟨S1x512, .f32⟩ : BufTy).Contents (Elt F) → (⟨S1x512, .f32⟩ : BufTy).Contents (Elt F) → (⟨S1x512, .f32⟩ : BufTy).Contents (Elt F)),
    unary main_v18 main_v19 (Host.exp : (⟨S1x512, .f32⟩ : BufTy).Contents (Elt F) → (⟨S1x512, .f32⟩ : BufTy).Contents (Elt F)),
    nullary main_cst_2 (constant S_ .f32 0x00000000#32),
    binary main_v19 main_cst_2 main_v20 ((fun x v => Host.reduceAdd x v reducesTo_S1x512_S1_d1 h_S_) : (⟨S1x512, .f32⟩ : BufTy).Contents (Elt F) → (⟨S_, .f32⟩ : BufTy).Contents (Elt F) → (⟨S1, .f32⟩ : BufTy).Contents (Elt F)),
    unary main_v20 main_v21 (broadcastInDim S1x1 ![0] bcast_S1_S1x1_0 : (⟨S1, .f32⟩ : BufTy).Contents (Elt F) → (⟨S1x1, .f32⟩ : BufTy).Contents (Elt F)),
    unary main_v21 main_v22 (broadcastInDim S1x512 ![0, 1] bcast_S1x1_S1x512_0_1 : (⟨S1x1, .f32⟩ : BufTy).Contents (Elt F) → (⟨S1x512, .f32⟩ : BufTy).Contents (Elt F)),
    binary main_v19 main_v22 main_v23 (Host.divf : (⟨S1x512, .f32⟩ : BufTy).Contents (Elt F) → (⟨S1x512, .f32⟩ : BufTy).Contents (Elt F) → (⟨S1x512, .f32⟩ : BufTy).Contents (Elt F)),
    binary main_v23 main_arg2 main_v24 ((fun l r => Host.dotGeneral dot_S1x512_S512x1024_S1x1024_1_0_0_1_n_n none l r) : (⟨S1x512, .f32⟩ : BufTy).Contents (Elt F) → (⟨S512x1024, .f32⟩ : BufTy).Contents (Elt F) → (⟨S1x1024, .f32⟩ : BufTy).Contents (Elt F)) ]

abbrev opsB_W : List (Ref sig .tc) := [main_v8, main_v9, main_v10, main_v11, main_v12, main_cst, main_v13, main_cst_1, main_v14, main_v15, main_v16, main_v17, main_v18, main_v19, main_cst_2, main_v20, main_v21, main_v22, main_v23, main_v24]

abbrev opsC : List (HloOp τ sig (Elt F)) :=
  [ binary main_v6 main_v24 main_v25 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg6 main_v26 ((transpose S2048x1024 [1, 0] · transposes_S1024x2048_S2048x1024_1_0) : (⟨S1024x2048, .f32⟩ : BufTy).Contents (Elt F) → (⟨S2048x1024, .f32⟩ : BufTy).Contents (Elt F)),
    binary main_v25 main_v26 main_v27 ((fun l r => Host.dotGeneral dot_S1x2048_S2048x1024_S1x1024_1_0_0_1_n_n none l r) : (⟨S1x2048, .f32⟩ : BufTy).Contents (Elt F) → (⟨S2048x1024, .f32⟩ : BufTy).Contents (Elt F) → (⟨S1x1024, .f32⟩ : BufTy).Contents (Elt F)),
    unary main_arg7 main_v28 (broadcastInDim S1x1024 ![1] bcast_S1024_S1x1024_1 : (⟨S1024, .f32⟩ : BufTy).Contents (Elt F) → (⟨S1x1024, .f32⟩ : BufTy).Contents (Elt F)),
    binary main_v27 main_v28 main_v29 (addf : (⟨S1x1024, .f32⟩ : BufTy).Contents (Elt F) → (⟨S1x1024, .f32⟩ : BufTy).Contents (Elt F) → (⟨S1x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x1024, .f32⟩) main_call0_v0) (broadcastInDim S1x1024 ![] bcast_S_S1x1024),
    TRef.binary (TRef.of (T := ⟨S1x1024, .f32⟩) main_v29) (TRef.of (T := ⟨S1x1024, .f32⟩) main_call0_v0) (TRef.of (T := ⟨S1x1024, .f32⟩) main_v30) maximumf,
    unary main_arg8 main_v31 ((transpose S1024x3072 [1, 0] · transposes_S3072x1024_S1024x3072_1_0) : (⟨S3072x1024, .f32⟩ : BufTy).Contents (Elt F) → (⟨S1024x3072, .f32⟩ : BufTy).Contents (Elt F)),
    binary main_v30 main_v31 main_v32 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg10 main_v33 (broadcastInDim S1x3072 ![1] bcast_S3072_S1x3072_1 : (⟨S3072, .f32⟩ : BufTy).Contents (Elt F) → (⟨S1x3072, .f32⟩ : BufTy).Contents (Elt F)),
    binary main_v32 main_v33 main_v34 (addf : (⟨S1x3072, .f32⟩ : BufTy).Contents (Elt F) → (⟨S1x3072, .f32⟩ : BufTy).Contents (Elt F) → (⟨S1x3072, .f32⟩ : BufTy).Contents (Elt F)),
    unary main_arg9 main_v35 ((transpose S1024x3072 [1, 0] · transposes_S3072x1024_S1024x3072_1_0) : (⟨S3072x1024, .f32⟩ : BufTy).Contents (Elt F) → (⟨S1024x3072, .f32⟩ : BufTy).Contents (Elt F)),
    binary main_v7 main_v35 main_v36 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg11 main_v37 (broadcastInDim S1x3072 ![1] bcast_S3072_S1x3072_1 : (⟨S3072, .f32⟩ : BufTy).Contents (Elt F) → (⟨S1x3072, .f32⟩ : BufTy).Contents (Elt F)),
    binary main_v36 main_v37 main_v38 (addf : (⟨S1x3072, .f32⟩ : BufTy).Contents (Elt F) → (⟨S1x3072, .f32⟩ : BufTy).Contents (Elt F) → (⟨S1x3072, .f32⟩ : BufTy).Contents (Elt F)) ]

abbrev opsC_W : List (Ref sig .tc) := [main_v25, main_v26, main_v27, main_v28, main_v29, main_call0_cst, main_call0_v0, main_v30, main_v31, main_v32, main_v33, main_v34, main_v35, main_v36, main_v37, main_v38]

abbrev opsD : List (HloOp τ sig (Elt F)) :=
  [ unary main_v34 main_v39 ((extractStridedSlice S1x1024 ![0, 0] · slices_S1x3072_S1x1024_0_0) : (⟨S1x3072, .f32⟩ : BufTy).Contents (Elt F) → (⟨S1x1024, .f32⟩ : BufTy).Contents (Elt F)),
    unary main_v34 main_v40 ((extractStridedSlice S1x1024 ![0, 1024] · slices_S1x3072_S1x1024_0_1024) : (⟨S1x3072, .f32⟩ : BufTy).Contents (Elt F) → (⟨S1x1024, .f32⟩ : BufTy).Contents (Elt F)),
    unary main_v34 main_v41 ((extractStridedSlice S1x1024 ![0, 2048] · slices_S1x3072_S1x1024_0_2048) : (⟨S1x3072, .f32⟩ : BufTy).Contents (Elt F) → (⟨S1x1024, .f32⟩ : BufTy).Contents (Elt F)),
    unary main_v38 main_v42 ((extractStridedSlice S1x1024 ![0, 0] · slices_S1x3072_S1x1024_0_0) : (⟨S1x3072, .f32⟩ : BufTy).Contents (Elt F) → (⟨S1x1024, .f32⟩ : BufTy).Contents (Elt F)),
    unary main_v38 main_v43 ((extractStridedSlice S1x1024 ![0, 1024] · slices_S1x3072_S1x1024_0_1024) : (⟨S1x3072, .f32⟩ : BufTy).Contents (Elt F) → (⟨S1x1024, .f32⟩ : BufTy).Contents (Elt F)),
    unary main_v38 main_v44 ((extractStridedSlice S1x1024 ![0, 2048] · slices_S1x3072_S1x1024_0_2048) : (⟨S1x3072, .f32⟩ : BufTy).Contents (Elt F) → (⟨S1x1024, .f32⟩ : BufTy).Contents (Elt F)),
    binary main_v39 main_v42 main_v45 (addf : (⟨S1x1024, .f32⟩ : BufTy).Contents (Elt F) → (⟨S1x1024, .f32⟩ : BufTy).Contents (Elt F) → (⟨S1x1024, .f32⟩ : BufTy).Contents (Elt F)),
    unary main_v45 main_v46 (Host.negf : (⟨S1x1024, .f32⟩ : BufTy).Contents (Elt F) → (⟨S1x1024, .f32⟩ : BufTy).Contents (Elt F)),
    unary main_v46 main_v47 (Host.exp : (⟨S1x1024, .f32⟩ : BufTy).Contents (Elt F) → (⟨S1x1024, .f32⟩ : BufTy).Contents (Elt F)),
    nullary main_cst_3 (constant S_ .f32 0x3F800000#32),
    unary main_cst_3 main_v48 (broadcastInDim S1x1024 ![] bcast_S_S1x1024 : (⟨S_, .f32⟩ : BufTy).Contents (Elt F) → (⟨S1x1024, .f32⟩ : BufTy).Contents (Elt F)),
    binary main_v48 main_v47 main_v49 (addf : (⟨S1x1024, .f32⟩ : BufTy).Contents (Elt F) → (⟨S1x1024, .f32⟩ : BufTy).Contents (Elt F) → (⟨S1x1024, .f32⟩ : BufTy).Contents (Elt F)),
    nullary main_cst_4 (constant S_ .f32 0x3F800000#32),
    unary main_cst_4 main_v50 (broadcastInDim S1x1024 ![] bcast_S_S1x1024 : (⟨S_, .f32⟩ : BufTy).Contents (Elt F) → (⟨S1x1024, .f32⟩ : BufTy).Contents (Elt F)),
    binary main_v50 main_v49 main_v51 (Host.divf : (⟨S1x1024, .f32⟩ : BufTy).Contents (Elt F) → (⟨S1x1024, .f32⟩ : BufTy).Contents (Elt F) → (⟨S1x1024, .f32⟩ : BufTy).Contents (Elt F)),
    binary main_v40 main_v43 main_v52 (addf : (⟨S1x1024, .f32⟩ : BufTy).Contents (Elt F) → (⟨S1x1024, .f32⟩ : BufTy).Contents (Elt F) → (⟨S1x1024, .f32⟩ : BufTy).Contents (Elt F)),
    unary main_v52 main_v53 (Host.negf : (⟨S1x1024, .f32⟩ : BufTy).Contents (Elt F) → (⟨S1x1024, .f32⟩ : BufTy).Contents (Elt F)),
    unary main_v53 main_v54 (Host.exp : (⟨S1x1024, .f32⟩ : BufTy).Contents (Elt F) → (⟨S1x1024, .f32⟩ : BufTy).Contents (Elt F)),
    nullary main_cst_5 (constant S_ .f32 0x3F800000#32),
    unary main_cst_5 main_v55 (broadcastInDim S1x1024 ![] bcast_S_S1x1024 : (⟨S_, .f32⟩ : BufTy).Contents (Elt F) → (⟨S1x1024, .f32⟩ : BufTy).Contents (Elt F)),
    binary main_v55 main_v54 main_v56 (addf : (⟨S1x1024, .f32⟩ : BufTy).Contents (Elt F) → (⟨S1x1024, .f32⟩ : BufTy).Contents (Elt F) → (⟨S1x1024, .f32⟩ : BufTy).Contents (Elt F)),
    nullary main_cst_6 (constant S_ .f32 0x3F800000#32),
    unary main_cst_6 main_v57 (broadcastInDim S1x1024 ![] bcast_S_S1x1024 : (⟨S_, .f32⟩ : BufTy).Contents (Elt F) → (⟨S1x1024, .f32⟩ : BufTy).Contents (Elt F)),
    binary main_v57 main_v56 main_v58 (Host.divf : (⟨S1x1024, .f32⟩ : BufTy).Contents (Elt F) → (⟨S1x1024, .f32⟩ : BufTy).Contents (Elt F) → (⟨S1x1024, .f32⟩ : BufTy).Contents (Elt F)),
    binary main_v51 main_v44 main_v59 (mulf : (⟨S1x1024, .f32⟩ : BufTy).Contents (Elt F) → (⟨S1x1024, .f32⟩ : BufTy).Contents (Elt F) → (⟨S1x1024, .f32⟩ : BufTy).Contents (Elt F)),
    binary main_v41 main_v59 main_v60 (addf : (⟨S1x1024, .f32⟩ : BufTy).Contents (Elt F) → (⟨S1x1024, .f32⟩ : BufTy).Contents (Elt F) → (⟨S1x1024, .f32⟩ : BufTy).Contents (Elt F)),
    unary main_v60 main_v61 (Host.tanh : (⟨S1x1024, .f32⟩ : BufTy).Contents (Elt F) → (⟨S1x1024, .f32⟩ : BufTy).Contents (Elt F)),
    nullary main_cst_7 (constant S_ .f32 0x3F800000#32),
    unary main_cst_7 main_v62 (broadcastInDim S1x1024 ![] bcast_S_S1x1024 : (⟨S_, .f32⟩ : BufTy).Contents (Elt F) → (⟨S1x1024, .f32⟩ : BufTy).Contents (Elt F)),
    binary main_v62 main_v58 main_v63 (subf : (⟨S1x1024, .f32⟩ : BufTy).Contents (Elt F) → (⟨S1x1024, .f32⟩ : BufTy).Contents (Elt F) → (⟨S1x1024, .f32⟩ : BufTy).Contents (Elt F)),
    binary main_v63 main_v61 main_v64 (mulf : (⟨S1x1024, .f32⟩ : BufTy).Contents (Elt F) → (⟨S1x1024, .f32⟩ : BufTy).Contents (Elt F) → (⟨S1x1024, .f32⟩ : BufTy).Contents (Elt F)),
    binary main_v58 main_v7 main_v65 (mulf : (⟨S1x1024, .f32⟩ : BufTy).Contents (Elt F) → (⟨S1x1024, .f32⟩ : BufTy).Contents (Elt F) → (⟨S1x1024, .f32⟩ : BufTy).Contents (Elt F)),
    binary main_v64 main_v65 main_v66 (addf : (⟨S1x1024, .f32⟩ : BufTy).Contents (Elt F) → (⟨S1x1024, .f32⟩ : BufTy).Contents (Elt F) → (⟨S1x1024, .f32⟩ : BufTy).Contents (Elt F)) ]

abbrev opsD_W : List (Ref sig .tc) := [main_v39, main_v40, main_v41, main_v42, main_v43, main_v44, main_v45, main_v46, main_v47, main_cst_3, main_v48, main_v49, main_cst_4, main_v50, main_v51, main_v52, main_v53, main_v54, main_cst_5, main_v55, main_v56, main_cst_6, main_v57, main_v58, main_v59, main_v60, main_v61, main_cst_7, main_v62, main_v63, main_v64, main_v65, main_v66]

abbrev opsE : List (HloOp τ sig (Elt F)) :=
  [ unary main_arg12 main_v67 ((transpose S1024x50257 [1, 0] · transposes_S50257x1024_S1024x50257_1_0) : (⟨S50257x1024, .f32⟩ : BufTy).Contents (Elt F) → (⟨S1024x50257, .f32⟩ : BufTy).Contents (Elt F)),
    binary main_v66 main_v67 main_v68 ((fun l r => Host.dotGeneral dot_S1x1024_S1024x50257_S1x50257_1_0_0_1_n_n none l r) : (⟨S1x1024, .f32⟩ : BufTy).Contents (Elt F) → (⟨S1024x50257, .f32⟩ : BufTy).Contents (Elt F) → (⟨S1x50257, .f32⟩ : BufTy).Contents (Elt F)),
    unary main_arg13 main_v69 (broadcastInDim S1x50257 ![1] bcast_S50257_S1x50257_1 : (⟨S50257, .f32⟩ : BufTy).Contents (Elt F) → (⟨S1x50257, .f32⟩ : BufTy).Contents (Elt F)),
    binary main_v68 main_v69 main_v70 (addf : (⟨S1x50257, .f32⟩ : BufTy).Contents (Elt F) → (⟨S1x50257, .f32⟩ : BufTy).Contents (Elt F) → (⟨S1x50257, .f32⟩ : BufTy).Contents (Elt F)),
    TRef.nullary (TRef.of (T := ⟨S_, .f32⟩) main_call1_cst) (constant S_ .f32 0xFF800000#32),
    TRef.binary (TRef.of (T := ⟨S1x50257, .f32⟩) main_v70) (TRef.of (T := ⟨S_, .f32⟩) main_call1_cst) (TRef.of (T := ⟨S1, .f32⟩) main_call1_v0) (fun x v => Host.reduce FloatOps.maximumf x v reducesTo_S1x50257_S1_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S1, .f32⟩) main_call1_v1) (broadcastInDim S1 ![] bcast_S_S1),
    TRef.binary (TRef.of (T := ⟨S1, .f32⟩) main_call1_v1) (TRef.of (T := ⟨S1, .f32⟩) main_call1_v0) (TRef.of (T := ⟨S1, .f32⟩) main_call1_v2) maximumf,
    TRef.unary (TRef.of (T := ⟨S1, .f32⟩) main_call1_v2) (TRef.of (T := ⟨S1x1, .f32⟩) main_call1_v3) (broadcastInDim S1x1 ![0] bcast_S1_S1x1_0),
    TRef.unary (TRef.of (T := ⟨S1x1, .f32⟩) main_call1_v3) (TRef.of (T := ⟨S1x50257, .f32⟩) main_call1_v4) (broadcastInDim S1x50257 ![0, 1] bcast_S1x1_S1x50257_0_1),
    TRef.binary (TRef.of (T := ⟨S1x50257, .f32⟩) main_v70) (TRef.of (T := ⟨S1x50257, .f32⟩) main_call1_v4) (TRef.of (T := ⟨S1x50257, .f32⟩) main_call1_v5) subf,
    TRef.unary (TRef.of (T := ⟨S1x50257, .f32⟩) main_call1_v5) (TRef.of (T := ⟨S1x50257, .f32⟩) main_call1_v6) Host.exp,
    TRef.nullary (TRef.of (T := ⟨S_, .f32⟩) main_call1_cst_1) (constant S_ .f32 0x00000000#32),
    TRef.binary (TRef.of (T := ⟨S1x50257, .f32⟩) main_call1_v6) (TRef.of (T := ⟨S_, .f32⟩) main_call1_cst_1) (TRef.of (T := ⟨S1, .f32⟩) main_call1_v7) (fun x v => Host.reduceAdd x v reducesTo_S1x50257_S1_d1 h_S_),
    TRef.unary (TRef.of (T := ⟨S1, .f32⟩) main_call1_v7) (TRef.of (T := ⟨S1x1, .f32⟩) main_call1_v8) (broadcastInDim S1x1 ![0] bcast_S1_S1x1_0),
    TRef.unary (TRef.of (T := ⟨S1x1, .f32⟩) main_call1_v8) (TRef.of (T := ⟨S1x1, .f32⟩) main_call1_v9) Host.log,
    TRef.unary (TRef.of (T := ⟨S1x1, .f32⟩) main_call1_v9) (TRef.of (T := ⟨S1x50257, .f32⟩) main_call1_v10) (broadcastInDim S1x50257 ![0, 1] bcast_S1x1_S1x50257_0_1),
    TRef.binary (TRef.of (T := ⟨S1x50257, .f32⟩) main_call1_v5) (TRef.of (T := ⟨S1x50257, .f32⟩) main_call1_v10) (TRef.of (T := ⟨S1x50257, .f32⟩) main_v71) subf,
    unary main_v66 main_v72 (broadcastInDim S1x1x1024 ![1, 2] bcast_S1x1024_S1x1x1024_1_2 : (⟨S1x1024, .f32⟩ : BufTy).Contents (Elt F) → (⟨S1x1x1024, .f32⟩ : BufTy).Contents (Elt F)) ]

abbrev opsE_W : List (Ref sig .tc) := [main_v67, main_v68, main_v69, main_v70, main_call1_cst, main_call1_v0, main_call1_cst_0, main_call1_v1, main_call1_v2, main_call1_v3, main_call1_v4, main_call1_v5, main_call1_v6, main_call1_cst_1, main_call1_v7, main_call1_v8, main_call1_v9, main_call1_v10, main_v71, main_v72]

theorem opsA_sub : (opsA : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., reshape_bufs_sub ..⟩
set_option maxRecDepth 8192 in
theorem opsA_writes : (opsA : List (HloOp τ sig (Elt F))).Forall fun op => op.writes ⊆ (opsA_W.map (Proc.devRef (τ := τ) .tc)).toFinset := by ops_writes_tac
set_option maxRecDepth 8192 in
theorem opsA_fresh : ∀ op ∈ (opsA : List (HloOp τ sig (Elt F))), op.fresh = ∅ := by ops_fresh_tac

theorem afterA_of_not_mem (W : Valuation τ sig (Elt F)) (r : Ref sig .tc) (h : r ∉ opsA_W) :
    after opsA W (Proc.devRef .tc r) = W (Proc.devRef .tc r) :=
  after_of_writes_sub opsA W opsA_writes h

theorem opsB_sub : (opsB : List (HloOp τ sig (Elt F))).Forall fun op => op.bufs ⊆ tcRefs τ sig :=
  ⟨binary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub ..⟩
set_option maxRecDepth 8192 in
theorem opsB_writes : (opsB : List (HloOp τ sig (Elt F))).Forall fun op => op.writes ⊆ (opsB_W.map (Proc.devRef (τ := τ) .tc)).toFinset := by ops_writes_tac
set_option maxRecDepth 8192 in
theorem opsB_fresh : ∀ op ∈ (opsB : List (HloOp τ sig (Elt F))), op.fresh = ∅ := by ops_fresh_tac

theorem afterB_of_not_mem (W : Valuation τ sig (Elt F)) (r : Ref sig .tc) (h : r ∉ opsB_W) :
    after opsB W (Proc.devRef .tc r) = W (Proc.devRef .tc r) :=
  after_of_writes_sub opsB W opsB_writes h

theorem opsC_sub : (opsC : List (HloOp τ sig (Elt F))).Forall fun op => op.bufs ⊆ tcRefs τ sig :=
  ⟨binary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., unary_bufs_sub .., binary_bufs_sub .., unary_bufs_sub .., binary_bufs_sub ..⟩
set_option maxRecDepth 8192 in
theorem opsC_writes : (opsC : List (HloOp τ sig (Elt F))).Forall fun op => op.writes ⊆ (opsC_W.map (Proc.devRef (τ := τ) .tc)).toFinset := by ops_writes_tac
set_option maxRecDepth 8192 in
theorem opsC_fresh : ∀ op ∈ (opsC : List (HloOp τ sig (Elt F))), op.fresh = ∅ := by ops_fresh_tac

theorem afterC_of_not_mem (W : Valuation τ sig (Elt F)) (r : Ref sig .tc) (h : r ∉ opsC_W) :
    after opsC W (Proc.devRef .tc r) = W (Proc.devRef .tc r) :=
  after_of_writes_sub opsC W opsC_writes h

theorem opsD_sub : (opsD : List (HloOp τ sig (Elt F))).Forall fun op => op.bufs ⊆ tcRefs τ sig :=
  ⟨unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩
set_option maxRecDepth 8192 in
theorem opsD_writes : (opsD : List (HloOp τ sig (Elt F))).Forall fun op => op.writes ⊆ (opsD_W.map (Proc.devRef (τ := τ) .tc)).toFinset := by ops_writes_tac
set_option maxRecDepth 8192 in
theorem opsD_fresh : ∀ op ∈ (opsD : List (HloOp τ sig (Elt F))), op.fresh = ∅ := by ops_fresh_tac

theorem afterD_of_not_mem (W : Valuation τ sig (Elt F)) (r : Ref sig .tc) (h : r ∉ opsD_W) :
    after opsD W (Proc.devRef .tc r) = W (Proc.devRef .tc r) :=
  after_of_writes_sub opsD W opsD_writes h

theorem opsE_sub : (opsE : List (HloOp τ sig (Elt F))).Forall fun op => op.bufs ⊆ tcRefs τ sig :=
  ⟨unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub ..⟩
set_option maxRecDepth 8192 in
theorem opsE_writes : (opsE : List (HloOp τ sig (Elt F))).Forall fun op => op.writes ⊆ (opsE_W.map (Proc.devRef (τ := τ) .tc)).toFinset := by ops_writes_tac
set_option maxRecDepth 8192 in
theorem opsE_fresh : ∀ op ∈ (opsE : List (HloOp τ sig (Elt F))), op.fresh = ∅ := by ops_fresh_tac

theorem afterE_of_not_mem (W : Valuation τ sig (Elt F)) (r : Ref sig .tc) (h : r ∉ opsE_W) :
    after opsE W (Proc.devRef .tc r) = W (Proc.devRef .tc r) :=
  after_of_writes_sub opsE W opsE_writes h

abbrev opsAll : List (HloOp τ sig (Elt F)) := opsA ++ (opsB ++ (opsC ++ (opsD ++ opsE)))

set_option maxRecDepth 8192 in
set_option maxHeartbeats 4000000 in
theorem main_eq (c : Dev nD) : main (F := F) c = seq opsAll := rfl

theorem scopedRefs_eq : (Finset.univ.filter fun b : Ref sig .tc => b.isScoped) = ∅ := by decide
theorem scopedSems_eq : (Finset.univ.filter fun sm : SemLoc sig => sm.isScoped .tc) = ∅ := by decide

theorem opsAll_sub : (opsAll : List (HloOp τ sig (Elt F))).Forall fun op => op.bufs ⊆ tcRefs τ sig :=
  forall_append opsA_sub (forall_append opsB_sub (forall_append opsC_sub (forall_append opsD_sub opsE_sub)))

theorem opsAll_fresh : ∀ op ∈ (opsAll : List (HloOp τ sig (Elt F))), op.fresh = ∅ := by
  intro op h
  simp only [opsAll, List.mem_append] at h
  rcases h with h | h | h | h | h
  · exact opsA_fresh op h
  · exact opsB_fresh op h
  · exact opsC_fresh op h
  · exact opsD_fresh op h
  · exact opsE_fresh op h

theorem after_opsAll (V : Valuation τ sig (Elt F)) :
    after opsAll V = after opsE (after opsD (after opsC (after opsB (after opsA V)))) := by
  simp only [opsAll, after_append]

theorem afterA_v6 (W : Valuation τ sig (Elt F)) (x0 : (⟨S1, .i32⟩ : BufTy).Contents (Elt F)) (x3 : (⟨S50257x1024, .f32⟩ : BufTy).Contents (Elt F))
    (a0 : W (Proc.devRef .tc main_arg0) = x0) (a3 : W (Proc.devRef .tc main_arg3) = x3) :
    after opsA W (Proc.devRef .tc main_v6) = val_main_v6 (F := F) x0 x3 := by
  subst a0 a3
  after_results; rfl

theorem afterA_v7 (W : Valuation τ sig (Elt F)) (x1 : (⟨S1x1x1024, .f32⟩ : BufTy).Contents (Elt F))
    (a1 : W (Proc.devRef .tc main_arg1) = x1) :
    after opsA W (Proc.devRef .tc main_v7) = val_main_v7 (F := F) x1 := by
  subst a1
  after_results; rfl

theorem afterB_v23 (W : Valuation τ sig (Elt F)) (x0 : (⟨S1, .i32⟩ : BufTy).Contents (Elt F)) (x1 : (⟨S1x1x1024, .f32⟩ : BufTy).Contents (Elt F)) (x3 : (⟨S50257x1024, .f32⟩ : BufTy).Contents (Elt F)) (x4 : (⟨S512x2048, .f32⟩ : BufTy).Contents (Elt F)) (x5 : (⟨S512, .f32⟩ : BufTy).Contents (Elt F))
    (h6 : W (Proc.devRef .tc main_v6) = val_main_v6 (F := F) x0 x3) (h7 : W (Proc.devRef .tc main_v7) = val_main_v7 (F := F) x1) (a4 : W (Proc.devRef .tc main_arg4) = x4) (a5 : W (Proc.devRef .tc main_arg5) = x5) :
    after opsB W (Proc.devRef .tc main_v23) = val_main_v23 (F := F) x0 x1 x3 x4 x5 := by
  subst a4 a5
  after_results
  rw [h6, h7]; rfl

theorem afterB_v24 (W : Valuation τ sig (Elt F)) (x0 : (⟨S1, .i32⟩ : BufTy).Contents (Elt F)) (x1 : (⟨S1x1x1024, .f32⟩ : BufTy).Contents (Elt F)) (x2 : (⟨S512x1024, .f32⟩ : BufTy).Contents (Elt F)) (x3 : (⟨S50257x1024, .f32⟩ : BufTy).Contents (Elt F)) (x4 : (⟨S512x2048, .f32⟩ : BufTy).Contents (Elt F)) (x5 : (⟨S512, .f32⟩ : BufTy).Contents (Elt F))
    (h6 : W (Proc.devRef .tc main_v6) = val_main_v6 (F := F) x0 x3) (h7 : W (Proc.devRef .tc main_v7) = val_main_v7 (F := F) x1) (a2 : W (Proc.devRef .tc main_arg2) = x2) (a4 : W (Proc.devRef .tc main_arg4) = x4) (a5 : W (Proc.devRef .tc main_arg5) = x5) :
    after opsB W (Proc.devRef .tc main_v24) = val_main_v24 (F := F) x0 x1 x2 x3 x4 x5 := by
  subst a2 a4 a5
  after_results
  rw [h6, h7]; rfl

theorem afterC_v34 (W : Valuation τ sig (Elt F)) (x0 : (⟨S1, .i32⟩ : BufTy).Contents (Elt F)) (x1 : (⟨S1x1x1024, .f32⟩ : BufTy).Contents (Elt F)) (x2 : (⟨S512x1024, .f32⟩ : BufTy).Contents (Elt F)) (x3 : (⟨S50257x1024, .f32⟩ : BufTy).Contents (Elt F)) (x4 : (⟨S512x2048, .f32⟩ : BufTy).Contents (Elt F)) (x5 : (⟨S512, .f32⟩ : BufTy).Contents (Elt F)) (x6 : (⟨S1024x2048, .f32⟩ : BufTy).Contents (Elt F)) (x7 : (⟨S1024, .f32⟩ : BufTy).Contents (Elt F)) (x8 : (⟨S3072x1024, .f32⟩ : BufTy).Contents (Elt F)) (x10 : (⟨S3072, .f32⟩ : BufTy).Contents (Elt F))
    (h6 : W (Proc.devRef .tc main_v6) = val_main_v6 (F := F) x0 x3) (h24 : W (Proc.devRef .tc main_v24) = val_main_v24 (F := F) x0 x1 x2 x3 x4 x5) (a6 : W (Proc.devRef .tc main_arg6) = x6) (a7 : W (Proc.devRef .tc main_arg7) = x7) (a8 : W (Proc.devRef .tc main_arg8) = x8) (a10 : W (Proc.devRef .tc main_arg10) = x10) :
    after opsC W (Proc.devRef .tc main_v34) = val_main_v34 (F := F) x0 x1 x2 x3 x4 x5 x6 x7 x8 x10 := by
  subst a6 a7 a8 a10
  after_results
  simp only [ofBuf_toBuf]
  rw [h6, h24]; rfl

theorem afterC_v38 (W : Valuation τ sig (Elt F)) (x1 : (⟨S1x1x1024, .f32⟩ : BufTy).Contents (Elt F)) (x9 : (⟨S3072x1024, .f32⟩ : BufTy).Contents (Elt F)) (x11 : (⟨S3072, .f32⟩ : BufTy).Contents (Elt F))
    (h7 : W (Proc.devRef .tc main_v7) = val_main_v7 (F := F) x1) (a9 : W (Proc.devRef .tc main_arg9) = x9) (a11 : W (Proc.devRef .tc main_arg11) = x11) :
    after opsC W (Proc.devRef .tc main_v38) = val_main_v38 (F := F) x1 x9 x11 := by
  subst a9 a11
  after_results
  rw [h7]; rfl

theorem afterD_v66 (W : Valuation τ sig (Elt F)) (x0 : (⟨S1, .i32⟩ : BufTy).Contents (Elt F)) (x1 : (⟨S1x1x1024, .f32⟩ : BufTy).Contents (Elt F)) (x2 : (⟨S512x1024, .f32⟩ : BufTy).Contents (Elt F)) (x3 : (⟨S50257x1024, .f32⟩ : BufTy).Contents (Elt F)) (x4 : (⟨S512x2048, .f32⟩ : BufTy).Contents (Elt F)) (x5 : (⟨S512, .f32⟩ : BufTy).Contents (Elt F)) (x6 : (⟨S1024x2048, .f32⟩ : BufTy).Contents (Elt F)) (x7 : (⟨S1024, .f32⟩ : BufTy).Contents (Elt F)) (x8 : (⟨S3072x1024, .f32⟩ : BufTy).Contents (Elt F)) (x9 : (⟨S3072x1024, .f32⟩ : BufTy).Contents (Elt F)) (x10 : (⟨S3072, .f32⟩ : BufTy).Contents (Elt F)) (x11 : (⟨S3072, .f32⟩ : BufTy).Contents (Elt F))
    (h34 : W (Proc.devRef .tc main_v34) = val_main_v34 (F := F) x0 x1 x2 x3 x4 x5 x6 x7 x8 x10) (h38 : W (Proc.devRef .tc main_v38) = val_main_v38 (F := F) x1 x9 x11) (h7 : W (Proc.devRef .tc main_v7) = val_main_v7 (F := F) x1) :
    after opsD W (Proc.devRef .tc main_v66) = val_main_v66 (F := F) x0 x1 x2 x3 x4 x5 x6 x7 x8 x9 x10 x11 := by
  after_results_simp
  rw [h34, h38, h7]; rfl

theorem afterE_v71 (W : Valuation τ sig (Elt F)) (x0 : (⟨S1, .i32⟩ : BufTy).Contents (Elt F)) (x1 : (⟨S1x1x1024, .f32⟩ : BufTy).Contents (Elt F)) (x2 : (⟨S512x1024, .f32⟩ : BufTy).Contents (Elt F)) (x3 : (⟨S50257x1024, .f32⟩ : BufTy).Contents (Elt F)) (x4 : (⟨S512x2048, .f32⟩ : BufTy).Contents (Elt F)) (x5 : (⟨S512, .f32⟩ : BufTy).Contents (Elt F)) (x6 : (⟨S1024x2048, .f32⟩ : BufTy).Contents (Elt F)) (x7 : (⟨S1024, .f32⟩ : BufTy).Contents (Elt F)) (x8 : (⟨S3072x1024, .f32⟩ : BufTy).Contents (Elt F)) (x9 : (⟨S3072x1024, .f32⟩ : BufTy).Contents (Elt F)) (x10 : (⟨S3072, .f32⟩ : BufTy).Contents (Elt F)) (x11 : (⟨S3072, .f32⟩ : BufTy).Contents (Elt F)) (x12 : (⟨S50257x1024, .f32⟩ : BufTy).Contents (Elt F)) (x13 : (⟨S50257, .f32⟩ : BufTy).Contents (Elt F))
    (h66 : W (Proc.devRef .tc main_v66) = val_main_v66 (F := F) x0 x1 x2 x3 x4 x5 x6 x7 x8 x9 x10 x11) (a12 : W (Proc.devRef .tc main_arg12) = x12) (a13 : W (Proc.devRef .tc main_arg13) = x13) :
    after opsE W (Proc.devRef .tc main_v71) = val_main_v71 (F := F) x0 x1 x2 x3 x4 x5 x6 x7 x8 x9 x10 x11 x12 x13 := by
  subst a12 a13
  after_results
  simp only [ofBuf_toBuf]
  rw [h66]; rfl

theorem afterE_v72 (W : Valuation τ sig (Elt F)) (x0 : (⟨S1, .i32⟩ : BufTy).Contents (Elt F)) (x1 : (⟨S1x1x1024, .f32⟩ : BufTy).Contents (Elt F)) (x2 : (⟨S512x1024, .f32⟩ : BufTy).Contents (Elt F)) (x3 : (⟨S50257x1024, .f32⟩ : BufTy).Contents (Elt F)) (x4 : (⟨S512x2048, .f32⟩ : BufTy).Contents (Elt F)) (x5 : (⟨S512, .f32⟩ : BufTy).Contents (Elt F)) (x6 : (⟨S1024x2048, .f32⟩ : BufTy).Contents (Elt F)) (x7 : (⟨S1024, .f32⟩ : BufTy).Contents (Elt F)) (x8 : (⟨S3072x1024, .f32⟩ : BufTy).Contents (Elt F)) (x9 : (⟨S3072x1024, .f32⟩ : BufTy).Contents (Elt F)) (x10 : (⟨S3072, .f32⟩ : BufTy).Contents (Elt F)) (x11 : (⟨S3072, .f32⟩ : BufTy).Contents (Elt F))
    (h66 : W (Proc.devRef .tc main_v66) = val_main_v66 (F := F) x0 x1 x2 x3 x4 x5 x6 x7 x8 x9 x10 x11) :
    after opsE W (Proc.devRef .tc main_v72) = val_main_v72 (F := F) x0 x1 x2 x3 x4 x5 x6 x7 x8 x9 x10 x11 := by
  after_results
  rw [h66]; rfl

section Chain

variable (m : (ℓ : Loc nD τ sig) → Buf (Elt F) ℓ) (c : Dev nD)

def LA : Valuation τ sig (Elt F) := after opsA (launchContents m c)

def LB : Valuation τ sig (Elt F) := after opsB (LA m c)

def LC : Valuation τ sig (Elt F) := after opsC (LB m c)

def LD : Valuation τ sig (Elt F) := after opsD (LC m c)

def LE : Valuation τ sig (Elt F) := after opsE (LD m c)

theorem LE_eq : after opsAll (launchContents m c) = LE m c := by
  rw [after_opsAll]; rfl

theorem LA_keep (r : Ref sig .tc) (hA : r ∉ opsA_W) :
    LA m c (Proc.devRef .tc r) = m ((c.tc : Thread nD τ).loc r) :=
  afterA_of_not_mem _ r hA
theorem LB_keep (r : Ref sig .tc) (hA : r ∉ opsA_W) (hB : r ∉ opsB_W) :
    LB m c (Proc.devRef .tc r) = m ((c.tc : Thread nD τ).loc r) :=
  (afterB_of_not_mem _ r hB).trans (LA_keep m c r hA)
theorem LC_keep (r : Ref sig .tc) (hA : r ∉ opsA_W) (hB : r ∉ opsB_W) (hC : r ∉ opsC_W) :
    LC m c (Proc.devRef .tc r) = m ((c.tc : Thread nD τ).loc r) :=
  (afterC_of_not_mem _ r hC).trans (LB_keep m c r hA hB)
theorem LD_keep (r : Ref sig .tc) (hA : r ∉ opsA_W) (hB : r ∉ opsB_W) (hC : r ∉ opsC_W) (hD : r ∉ opsD_W) :
    LD m c (Proc.devRef .tc r) = m ((c.tc : Thread nD τ).loc r) :=
  (afterD_of_not_mem _ r hD).trans (LC_keep m c r hA hB hC)
theorem LE_keep (r : Ref sig .tc) (hA : r ∉ opsA_W) (hB : r ∉ opsB_W) (hC : r ∉ opsC_W) (hD : r ∉ opsD_W)
    (hE : r ∉ opsE_W) : LE m c (Proc.devRef .tc r) = m ((c.tc : Thread nD τ).loc r) :=
  (afterE_of_not_mem _ r hE).trans (LD_keep m c r hA hB hC hD)

theorem LA_v6 : LA m c (Proc.devRef .tc main_v6) = val_main_v6 (F := F) (m ((c.tc : Thread nD τ).loc main_arg0)) (m ((c.tc : Thread nD τ).loc main_arg3)) :=
  afterA_v6 _ _ _ rfl rfl
theorem LA_v7 : LA m c (Proc.devRef .tc main_v7) = val_main_v7 (F := F) (m ((c.tc : Thread nD τ).loc main_arg1)) :=
  afterA_v7 _ _ rfl
theorem LB_v6 : LB m c (Proc.devRef .tc main_v6) = val_main_v6 (F := F) (m ((c.tc : Thread nD τ).loc main_arg0)) (m ((c.tc : Thread nD τ).loc main_arg3)) :=
  (afterB_of_not_mem _ main_v6 (by decide)).trans (LA_v6 m c)
theorem LB_v7 : LB m c (Proc.devRef .tc main_v7) = val_main_v7 (F := F) (m ((c.tc : Thread nD τ).loc main_arg1)) :=
  (afterB_of_not_mem _ main_v7 (by decide)).trans (LA_v7 m c)
theorem LC_v7 : LC m c (Proc.devRef .tc main_v7) = val_main_v7 (F := F) (m ((c.tc : Thread nD τ).loc main_arg1)) :=
  (afterC_of_not_mem _ main_v7 (by decide)).trans (LB_v7 m c)

theorem LB_v23 : LB m c (Proc.devRef .tc main_v23) = val_main_v23 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  afterB_v23 _ _ _ _ _ _ (LA_v6 m c) (LA_v7 m c) (LA_keep m c main_arg4 (by decide)) (LA_keep m c main_arg5 (by decide))
theorem LB_v24 : LB m c (Proc.devRef .tc main_v24) = val_main_v24 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  afterB_v24 _ _ _ _ _ _ _ (LA_v6 m c) (LA_v7 m c) (LA_keep m c main_arg2 (by decide)) (LA_keep m c main_arg4 (by decide))
    (LA_keep m c main_arg5 (by decide))
theorem LE_v23 : LE m c (Proc.devRef .tc main_v23) = val_main_v23 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  (afterE_of_not_mem _ main_v23 (by decide)).trans <| (afterD_of_not_mem _ main_v23 (by decide)).trans <|
    (afterC_of_not_mem _ main_v23 (by decide)).trans (LB_v23 m c)

theorem LC_v34 : LC m c (Proc.devRef .tc main_v34) = val_main_v34 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg10)) :=
  afterC_v34 _ _ _ _ _ _ _ _ _ _ _ (LB_v6 m c) (LB_v24 m c) (LB_keep m c main_arg6 (by decide) (by decide))
    (LB_keep m c main_arg7 (by decide) (by decide)) (LB_keep m c main_arg8 (by decide) (by decide))
    (LB_keep m c main_arg10 (by decide) (by decide))
theorem LC_v38 : LC m c (Proc.devRef .tc main_v38) = val_main_v38 (F := F) (m ((c.tc : Thread nD τ).loc main_arg1)) (m ((c.tc : Thread nD τ).loc main_arg9)) (m ((c.tc : Thread nD τ).loc main_arg11)) :=
  afterC_v38 _ _ _ _ (LB_v7 m c) (LB_keep m c main_arg9 (by decide) (by decide)) (LB_keep m c main_arg11 (by decide) (by decide))
theorem LD_v66 : LD m c (Proc.devRef .tc main_v66) = val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  afterD_v66 _ _ _ _ _ _ _ _ _ _ _ _ _ (LC_v34 m c) (LC_v38 m c) (LC_v7 m c)
theorem LE_v71 : LE m c (Proc.devRef .tc main_v71) = val_main_v71 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  afterE_v71 _ _ _ _ _ _ _ _ _ _ _ _ _ _ _ (LD_v66 m c) (LD_keep m c main_arg12 (by decide) (by decide) (by decide) (by decide))
    (LD_keep m c main_arg13 (by decide) (by decide) (by decide) (by decide))
theorem LE_v72 : LE m c (Proc.devRef .tc main_v72) = val_main_v72 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  afterE_v72 _ _ _ _ _ _ _ _ _ _ _ _ _ (LD_v66 m c)

end Chain

set_option maxRecDepth 8192 in

theorem run_hand (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ fun r => ∀ c : Dev nD,
      r.2.mem ((c.tc : Thread nD τ).loc main_v71) = val_main_v71 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v72) = val_main_v72 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v23) = val_main_v23 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨((h c main_v71).trans (congrFun (LE_eq m c) _)).trans (LE_v71 m c),
      ((h c main_v72).trans (congrFun (LE_eq m c) _)).trans (LE_v72 m c),
      ((h c main_v23).trans (congrFun (LE_eq m c) _)).trans (LE_v23 m c),
      ((h c main_arg0).trans (congrFun (LE_eq m c) _)).trans (LE_keep m c main_arg0 (by decide) (by decide) (by decide) (by decide) (by decide)),
      ((h c main_arg1).trans (congrFun (LE_eq m c) _)).trans (LE_keep m c main_arg1 (by decide) (by decide) (by decide) (by decide) (by decide)),
      ((h c main_arg2).trans (congrFun (LE_eq m c) _)).trans (LE_keep m c main_arg2 (by decide) (by decide) (by decide) (by decide) (by decide)),
      ((h c main_arg3).trans (congrFun (LE_eq m c) _)).trans (LE_keep m c main_arg3 (by decide) (by decide) (by decide) (by decide) (by decide)),
      ((h c main_arg4).trans (congrFun (LE_eq m c) _)).trans (LE_keep m c main_arg4 (by decide) (by decide) (by decide) (by decide) (by decide)),
      ((h c main_arg5).trans (congrFun (LE_eq m c) _)).trans (LE_keep m c main_arg5 (by decide) (by decide) (by decide) (by decide) (by decide)),
      ((h c main_arg6).trans (congrFun (LE_eq m c) _)).trans (LE_keep m c main_arg6 (by decide) (by decide) (by decide) (by decide) (by decide)),
      ((h c main_arg7).trans (congrFun (LE_eq m c) _)).trans (LE_keep m c main_arg7 (by decide) (by decide) (by decide) (by decide) (by decide)),
      ((h c main_arg8).trans (congrFun (LE_eq m c) _)).trans (LE_keep m c main_arg8 (by decide) (by decide) (by decide) (by decide) (by decide)),
      ((h c main_arg9).trans (congrFun (LE_eq m c) _)).trans (LE_keep m c main_arg9 (by decide) (by decide) (by decide) (by decide) (by decide)),
      ((h c main_arg10).trans (congrFun (LE_eq m c) _)).trans (LE_keep m c main_arg10 (by decide) (by decide) (by decide) (by decide) (by decide)),
      ((h c main_arg11).trans (congrFun (LE_eq m c) _)).trans (LE_keep m c main_arg11 (by decide) (by decide) (by decide) (by decide) (by decide)),
      ((h c main_arg12).trans (congrFun (LE_eq m c) _)).trans (LE_keep m c main_arg12 (by decide) (by decide) (by decide) (by decide) (by decide)),
      ((h c main_arg13).trans (congrFun (LE_eq m c) _)).trans (LE_keep m c main_arg13 (by decide) (by decide) (by decide) (by decide) (by decide))⟩)
    (run_seq scopedRefs_eq scopedSems_eq defs main (fun _ => opsAll) main_eq (fun _ => opsAll_sub) m ρ (fun _ => opsAll_fresh))

end Cert.RefHand

end
-- ==== Proof.PreTok.lean ====
import proofs.«409304_j78383153152469_3_alg».proof.Pre_finite_inputs
import Idealize.ShloMosaic.Lib.ReduceAll
import Idealize.ShloMosaic.Lib.ValueIdx
import Idealize.ShloMosaic.Lib.StableHlo.Predicate

namespace Cert.PreTok

open Idealize.ShloMosaic Idealize.ShloMosaic.ValueIdx
open Cert.Pre_finite_inputs

variable {F : FTy → Type} [FloatOps F] [Facts]

instance : Subsingleton S_.Idx := ⟨fun a b => funext fun d => d.elim0⟩

theorem tok_cmp (a0 : IVec S1 32) (a1 : FVec F S1x1x1024 .f32) (a2 : FVec F S512x1024 .f32) (a3 : FVec F S50257x1024 .f32)
    (a4 : FVec F S512x2048 .f32) (a5 : FVec F S512 .f32) (a6 : FVec F S1024x2048 .f32) (a7 : FVec F S1024 .f32)
    (a8 : FVec F S3072x1024 .f32) (a9 : FVec F S3072x1024 .f32) (a10 : FVec F S3072 .f32) (a11 : FVec F S3072 .f32)
    (a12 : FVec F S50257x1024 .f32) (a13 : FVec F S50257 .f32)
    (h : fn (F := F) a0 a1 a2 a3 a4 a5 a6 a7 a8 a9 a10 a11 a12 a13 = fun _ => 1#1) :
    IntOp.cmpi .sge (a0 (ix1 (0 : Fin 1))) 0#32 = 1#1 ∧ IntOp.cmpi .slt (a0 (ix1 (0 : Fin 1))) 50257#32 = 1#1 := by
  have h0 := congrFun h ix0
  dsimp only [fn, fn_part1, fn_part2, fn_part3, fn_part4] at h0
  obtain ⟨h67, h70⟩ := IntOp.andi_eq_one.1 h0
  obtain ⟨-, h66⟩ := IntOp.andi_eq_one.1 h67
  have hge := Host.reduce_andi_all _ _ _ _ _ h66 (ix1 (0 : Fin 1))
  have hlt := Host.reduce_andi_all _ _ _ _ _ h70 (ix1 (0 : Fin 1))
  exact ⟨hge, hlt⟩

theorem tok_range (a0 : IVec S1 32) (a1 : FVec F S1x1x1024 .f32) (a2 : FVec F S512x1024 .f32) (a3 : FVec F S50257x1024 .f32)
    (a4 : FVec F S512x2048 .f32) (a5 : FVec F S512 .f32) (a6 : FVec F S1024x2048 .f32) (a7 : FVec F S1024 .f32)
    (a8 : FVec F S3072x1024 .f32) (a9 : FVec F S3072x1024 .f32) (a10 : FVec F S3072 .f32) (a11 : FVec F S3072 .f32)
    (a12 : FVec F S50257x1024 .f32) (a13 : FVec F S50257 .f32)
    (h : fn (F := F) a0 a1 a2 a3 a4 a5 a6 a7 a8 a9 a10 a11 a12 a13 = fun _ => 1#1) :
    (0 : Int) ≤ (a0 (ix1 (0 : Fin 1))).toInt ∧ (a0 (ix1 (0 : Fin 1))).toInt < 50257 := by
  obtain ⟨hge, hlt⟩ := tok_cmp a0 a1 a2 a3 a4 a5 a6 a7 a8 a9 a10 a11 a12 a13 h
  have e0 : (0#32 : BitVec 32).toInt = 0 := by decide
  have e1 : (50257#32 : BitVec 32).toInt = 50257 := by decide
  have hge' := IntOp.cmpi_sge.1 hge
  have hlt' := IntOp.cmpi_slt.1 hlt
  rw [e0] at hge'
  rw [e1] at hlt'
  exact ⟨hge', hlt'⟩

end Cert.PreTok
-- ==== Proof.KI.Reg6.lean ====
import proofs.«409304_j78383153152469_3_alg».proof.Proof.Gen.KernelIdeal.Launch
import proofs.«409304_j78383153152469_3_alg».proof.Proof.Gen.KernelIdeal.Skeleton
import proofs.«409304_j78383153152469_3_alg».proof.Proof.Gen.KernelIdeal.Points
import Idealize.ShloMosaic.Lib.Pipeline.FrameBody
import Idealize.ShloMosaic.Lib.Pipeline.Value
import Idealize.ShloMosaic.Lib.Pipeline.Kit
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

section Region6

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def pad6 : Elt F .f32 := Scalar.ofBits .f32 0#32

def xblk6 (c : Dev nD) (t : Fin cfg6.N) : Vec F S1x1024 .f32 := iblk6 V c 0 t

def wblk6 (c : Dev nD) (t : Fin cfg6.N) : Vec F S4096x1024 .f32 :=
  win6_1.fill (grid6.coords t) (fun _ => pad6) (iblk6 V c 1 t)

def bblk6 (c : Dev nD) (t : Fin cfg6.N) : Vec F S1x4096 .f32 :=
  win6_2.fill (grid6.coords t) (fun _ => pad6) (iblk6 V c 2 t)

def oblk6 (c : Dev nD) (t : Fin cfg6.N) : Vec F S1x4096 .f32 :=
  k6_pay1 (xblk6 V c t) (wblk6 V c t) (bblk6 V c t)

def dat6 (c : Dev nD) : Dat τ (Elt F) Unit ℕ (Pipeline.UD sig nD τ) ℕ cfg6 c where
  A w := V c (Pipeline.arrRef spec6 w)
  after w t := match w with
    | ⟨0, _⟩ => xblk6 V c t
    | ⟨1, _⟩ => wblk6 V c t
    | ⟨2, _⟩ => bblk6 V c t
    | ⟨3, _⟩ => oblk6 V c t
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = xblk6 V c t := by dsimp only [dat6]
theorem after6_1 (c : Dev nD) (t : Fin cfg6.N) : (dat6 V c).after 1 t = wblk6 V c t := by dsimp only [dat6]
theorem after6_2 (c : Dev nD) (t : Fin cfg6.N) : (dat6 V c).after 2 t = bblk6 V c t := by dsimp only [dat6]
theorem after6_3 (c : Dev nD) (t : Fin cfg6.N) : (dat6 V c).after 3 t = oblk6 V c t := by dsimp only [dat6]

end Region6

section Body

theorem zero2_6 : (![0, 0] : Fin 2 → Nat) = fun _ => 0 := funext fun a => by fin_cases a <;> rfl

set_option maxHeartbeats 1000000 in

theorem sound_kernel6 (c : Dev nD) (E : Set ℕ) (i : grid6.Coords)
    (arg1 : Memref sig .tc .vmem S1x1024 .f32) (harg1 : arg1.IsWhole) (arg2 : Memref sig .tc .vmem S4096x1024 .f32) (harg2 : arg2.IsWhole)
    (arg3 : Memref sig .tc .vmem S1x4096 .f32) (harg3 : arg3.IsWhole) (arg4 : Memref sig .tc .vmem S1x4096 .f32) (harg4 : arg4.IsWhole)
    (x0 : Vec F S1x1024 .f32) (x1 : Vec F S4096x1024 .f32) (x2 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (k6_pay1 x0 x1 x2)) -∗ K ⟨⟩))
      ⊢ wp frame (wpE (defs₀ (F := F)) Variants.none c none) E (cc6_kernel i arg1 harg1 arg2 harg2 arg3 harg3 arg4 harg4) K := by
  simp only [cc6_kernel_eq_skeleton]; unfold cc6_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk

  have e0 : View.readAt (Elt F) arg1.view (Rect.unit (s := S1x1024) ![0, 0] S1x1024.size inb_S1x1024_S1x1024_0_0).toLoadRect f0
      = View.read (Elt F) arg1.view f0 :=
    (View.readAt_eq_ld arg1.view f0 _).trans (View.ld_unit_zero zero2_6 inb_S1x1024_S1x1024_0_0 (View.read (Elt F) arg1.view f0))
  have e1 : View.readAt (Elt F) arg2.view (Rect.unit (s := S4096x1024) ![0, 0] S4096x1024.size inb_S4096x1024_S4096x1024_0_0).toLoadRect f1
      = View.read (Elt F) arg2.view f1 :=
    (View.readAt_eq_ld arg2.view f1 _).trans (View.ld_unit_zero zero2_6 inb_S4096x1024_S4096x1024_0_0 (View.read (Elt F) arg2.view f1))
  have e2 : View.readAt (Elt F) arg3.view (Rect.unit (s := S1x4096) ![0, 0] S1x4096.size inb_S1x4096_S1x4096_0_0).toLoadRect f2
      = View.read (Elt F) arg3.view f2 :=
    (View.readAt_eq_ld arg3.view f2 _).trans (View.ld_unit_zero zero2_6 inb_S1x4096_S1x4096_0_0 (View.read (Elt F) arg3.view f2))
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero zero2_6 inb_S1x4096_S1x4096_0_0 y⟩),
    View.canon_unit_zero zero2_6, e0, e1, e2]

end Body

section Obligation

variable (V : (c : Dev nD) → (b : Ref sig .tc) → Buf (Elt F) ((c : Thread nD τ).loc b))

theorem before6_0 (c : Dev nD) (t : Fin cfg6.N) (d) : (dat6 V c).before 0 t d = xblk6 V c t :=
  ((dat6 V c).before_in_eq_fetched 0 rfl (fun _ => rfl) (fun _ _ _ => rfl)
    (fun t => by rw [after6_0]; unfold Dat.blockOf xblk6 iblk6; rw [A_eq6]; try rfl) t d).trans
    (by unfold Dat.fetched Dat.blockOf xblk6 iblk6; rw [A_eq6]; try rfl)

theorem before6_1 (c : Dev nD) (t : Fin cfg6.N) (d) :
    (dat6 V c).before 1 t d = win6_1.fill (grid6.coords t) d (iblk6 V c 1 t) := by
  unfold Dat.before; rw [if_pos (fetch6_1 t)]; unfold Dat.fetched Dat.blockOf iblk6; rw [A_eq6]; try rfl

theorem before6_2 (c : Dev nD) (t : Fin cfg6.N) (d) :
    (dat6 V c).before 2 t d = win6_2.fill (grid6.coords t) d (iblk6 V c 2 t) := by
  unfold Dat.before; rw [if_pos (fetch6_2 t)]; unfold Dat.fetched Dat.blockOf iblk6; rw [A_eq6]; try rfl

def K6Local (F : FTy → Type) [FloatOps F] : Prop :=
  ∀ (i : grid6.Coords) (x : Vec F S1x1024 .f32) (W W' : Vec F S4096x1024 .f32) (B B' : Vec F S1x4096 .f32),
    win6_1.cut i W = win6_1.cut i W' → win6_2.cut i B = win6_2.cut i B' →
      win6_3.cut i (k6_pay1 x W B) = win6_3.cut i (k6_pay1 x W' B')

theorem body_obligation6_of (hloc : K6Local F) (c : Dev nD) :
    BodyObligationLoose (dat6 (F := F) V c) (defs₀ (F := F)) Variants.none () Set.univ := fun t => by
  rw [bigSep_W6, bigSep_W6]
  simp only
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  rw [before6_0 V c t d0, before6_1 V c t d1, before6_2 V c t d2]
  iapply (sound_kernel6 (F := F) c Set.univ (grid6.coords t)
    (win6_0.stage (cfg6.slots t 0)) (hstage6_0 ((cfg6.slots t 0).cast nbuf6_0)) (win6_1.stage (cfg6.slots t 1)) (hstage6_1 ((cfg6.slots t 1).cast nbuf6_1))
    (win6_2.stage (cfg6.slots t 2)) (hstage6_2 ((cfg6.slots t 2).cast nbuf6_2)) (win6_3.stage (cfg6.slots t 3)) (hstage6_3 ((cfg6.slots t 3).cast nbuf6_3))
    (xblk6 V c t)
    (win6_1.fill (grid6.coords t) d1 (iblk6 V c 1 t)) (win6_2.fill (grid6.coords t) d2 (iblk6 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0

  have hw : win6_1.cut (grid6.coords t) (wblk6 V c t) = iblk6 V c 1 t := win6_1.cut_fill _ _ _
  have hb : win6_2.cut (grid6.coords t) (bblk6 V c t) = iblk6 V c 2 t := win6_2.cut_fill _ _ _
  have ho : win6_3.cut (grid6.coords t) (oblk6 V c t)
      = win6_3.cut (grid6.coords t) (k6_pay1 (xblk6 V c t) (win6_1.fill (grid6.coords t) d1 (iblk6 V c 1 t))
          (win6_2.fill (grid6.coords t) d2 (iblk6 V c 2 t))) :=
    hloc _ _ _ _ _ _ (hw.trans (win6_1.cut_fill _ _ _).symm) (hb.trans (win6_2.cut_fill _ _ _).symm)
  isplitl [H1]
  · iexists d1
    change _ ⊢ owns (c : Thread nD τ) (stage6_1 (cfg6.slots t 1)) fullShare
      (win6_1.fill (grid6.coords t) d1 (win6_1.cut (grid6.coords t) (wblk6 V c t)))
    rw [hw]
  isplitl [H2]
  · iexists d2
    change _ ⊢ owns (c : Thread nD τ) (stage6_2 (cfg6.slots t 2)) fullShare
      (win6_2.fill (grid6.coords t) d2 (win6_2.cut (grid6.coords t) (bblk6 V c t)))
    rw [hb]
  · iexists k6_pay1 (xblk6 V c t) (win6_1.fill (grid6.coords t) d1 (iblk6 V c 1 t)) (win6_2.fill (grid6.coords t) d2 (iblk6 V c 2 t))
    change _ ⊢ owns (c : Thread nD τ) (stage6_3 (cfg6.slots t 3)) fullShare
      (win6_3.fill (grid6.coords t) _ (win6_3.cut (grid6.coords t) (oblk6 V c t)))
    rw [ho, win6_3.fill_cut]

end Obligation

section Forgotten

variable (V : (c : Dev nD) → (b : Ref sig .tc) → Buf (Elt F) ((c : Thread nD τ).loc b))

def fgt6 : Fin cfg6.W → Bool := fun | 0 => false | 1 => false | 2 => false | 3 => true | ⟨_ + 4, h⟩ => absurd h (Nat.not_lt.2 (Nat.le_add_left _ _))

theorem body_obligation6_fgt (c : Dev nD) :
    BodyObligationLoose (dat6 (F := F) V c) (defs₀ (F := F)) Variants.none () Set.univ fgt6 := fun t => by
  rw [bigSep_W6, bigSep_W6]
  simp only [fgt6]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩, ⟨%d3, H3⟩⟩
  rw [before6_0 V c t d0, before6_1 V c t d1, before6_2 V c t d2]
  iapply (sound_kernel6 (F := F) c Set.univ (grid6.coords t)
    (win6_0.stage (cfg6.slots t 0)) (hstage6_0 ((cfg6.slots t 0).cast nbuf6_0)) (win6_1.stage (cfg6.slots t 1)) (hstage6_1 ((cfg6.slots t 1).cast nbuf6_1))
    (win6_2.stage (cfg6.slots t 2)) (hstage6_2 ((cfg6.slots t 2).cast nbuf6_2)) (win6_3.stage (cfg6.slots t 3)) (hstage6_3 ((cfg6.slots t 3).cast nbuf6_3))
    (xblk6 V c t)
    (win6_1.fill (grid6.coords t) d1 (iblk6 V c 1 t)) (win6_2.fill (grid6.coords t) d2 (iblk6 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  have hw : win6_1.cut (grid6.coords t) (wblk6 V c t) = iblk6 V c 1 t := win6_1.cut_fill _ _ _
  have hb : win6_2.cut (grid6.coords t) (bblk6 V c t) = iblk6 V c 2 t := win6_2.cut_fill _ _ _
  isplitl [H1]
  · iexists d1
    change _ ⊢ owns (c : Thread nD τ) (stage6_1 (cfg6.slots t 1)) fullShare
      (win6_1.fill (grid6.coords t) d1 (win6_1.cut (grid6.coords t) (wblk6 V c t)))
    rw [hw]
  isplitl [H2]
  · iexists d2
    change _ ⊢ owns (c : Thread nD τ) (stage6_2 (cfg6.slots t 2)) fullShare
      (win6_2.fill (grid6.coords t) d2 (win6_2.cut (grid6.coords t) (bblk6 V c t)))
    rw [hb]
  · iexists _; iexact H3

def rdat6 (c : Dev nD) : Pipeline.RDat τ (Elt F) Unit ℕ (Pipeline.UD sig nD τ) ℕ cfg6 c := (dat6 V c).toRForget fgt6

theorem rbody_obligation6 (c : Dev nD) : (rdat6 (F := F) V c).BodyObligation (defs₀ (F := F)) Variants.none () Set.univ :=
  (body_obligation6_fgt V c).toRForget

theorem rA_eq6 (c : Dev nD) (w : Fin cfg6.W) : (rdat6 V c).A w = V c (Pipeline.arrRef spec6 w) := by
  show (dat6 V c).A w = _; dsimp only [dat6]

end Forgotten

end Cert.KernelIdeal.Hand

end
-- ==== Proof.KI.Reg6Ideal.lean ====
import proofs.«409304_j78383153152469_3_alg».proof.Proof.KI.Reg6
import Idealize.ShloMosaic.PureOps.Ideal.Laws

set_option maxRecDepth 16384

noncomputable section

namespace Cert.KernelIdeal.Hand

open Cert.KernelIdeal Cert.KernelIdeal.Gen

open Idealize.ShloMosaic Idealize.ShloMosaic.TcCoe
open Idealize.SL Idealize.SL.Sem
open Idealize.ShloMosaic.Pipeline (Dat Cfg Window BodyObligation BodyObligationLoose)

section IdealLocal

theorem eq_of_cut_eq6 {G : Pipeline.Grid} (w : Window sig G) {α : Type} (i : G.Coords) {X Y : w.block.Idx → α}
    (h : w.cut i X = w.cut i Y) (p : w.block.Idx) (hp : w.moved i p = true) : X p = Y p :=
  congrFun h fun a => ⟨(p a).val, (w.moved_iff i p).mp hp a⟩

theorem rows_moved6 (i : grid6.Coords) (J : S1x4096.Idx) (k : dot_S1x1024_S4096x1024_S1x4096_1_1_0_0_n_n.contr.Idx)
    (hJ : win6_3.moved i J = true) : win6_1.moved i (dot_S1x1024_S4096x1024_S1x4096_1_1_0_0_n_n.rhsIdx J k) = true := by
  rw [Window.moved_iff] at hJ ⊢
  intro a
  match a with
  | ⟨0, _⟩ => exact hJ 1
  | ⟨1, _⟩ => exact (dot_S1x1024_S4096x1024_S1x4096_1_1_0_0_n_n.rhsIdx J k 1).isLt

theorem k6Local_ideal : K6Local Ideal := by
  intro i x W W' B B' hW hB
  funext j
  have hJ : win6_3.moved i (win6_3.xinj i j) = true := win6_3.moved_xinj i j
  have hrow : ∀ k, W (dot_S1x1024_S4096x1024_S1x4096_1_1_0_0_n_n.rhsIdx (win6_3.xinj i j) k)
      = W' (dot_S1x1024_S4096x1024_S1x4096_1_1_0_0_n_n.rhsIdx (win6_3.xinj i j) k) :=
    fun k => eq_of_cut_eq6 win6_1 i hW _ (rows_moved6 i _ k hJ)
  have hcol : B (win6_3.xinj i j) = B' (win6_3.xinj i j) := eq_of_cut_eq6 win6_2 i hB _ hJ
  show k6_pay1 x W B (win6_3.xinj i j) = k6_pay1 x W' B' (win6_3.xinj i j)
  unfold k6_pay1
  simp only [addf, shapeCast_self]
  rw [hcol]
  refine congrArg (FloatOps.addf · _) ?_
  simp only [matmul]
  rw [Ideal.matmul_apply, Ideal.matmul_apply]
  refine congrArg (_ + ·) (Finset.sum_congr rfl fun k _ => ?_)
  simp only [truncf]
  rw [hrow k]

end IdealLocal

end Cert.KernelIdeal.Hand

end
-- ==== Proof.KI.Reg0.lean ====
import proofs.«409304_j78383153152469_3_alg».proof.Proof.Gen.KernelIdeal.Launch
import proofs.«409304_j78383153152469_3_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbM0 : Memref sig .tc .smem S1 .i32 := Memref.whole main_v0
abbrev htbM0 : tbM0.IsWhole := Memref.isWhole_whole _

abbrev hbM0 : Memref sig .tc .hbm S50257x1024 .f32 := Memref.whole main_arg3
abbrev MBuf0 (c : Dev nD) {sp : Space} {S : Shape} {e : EltTy} (M : Memref sig .tc sp S e) : Type := Buf (Elt F) (M.view.loc (c : Thread nD τ))
abbrev mPt0 (c : Dev nD) {sp : Space} {S : Shape} {e : EltTy} (M : Memref sig .tc sp S e) (f : MBuf0 (F := F) c M) : sProp 𝕄 :=
  M.view.loc (c : Thread nD τ) ↦{fullShare} f

abbrev tokWord (c : Dev nD) (xt : MBuf0 (F := F) c tbM0) : Elt F .i32 :=
  tbM0.view.readAt (Elt F) (Rect.unit (s := S1) ![0] S1.size inb_S1_S1_0).toLoadRect xt (Shape.Idx.first (numel1_S1.symm ▸ Nat.one_pos))

abbrev rowRect (w : BitVec 32) (h : k0_chk1 w) : Rect S50257x1024 :=
  Rect.unit (s := S50257x1024) (k0_off1 w) S1x1024.size (k0_off1_inb w h)

def rowOf (c : Dev nD) (w : BitVec 32) (h : k0_chk1 w) (fh : MBuf0 (F := F) c hbM0) : S1x1024.Idx → Elt F .f32 :=
  hbM0.view.readAt (Elt F) (rowRect w h).toLoadRect fh

theorem read_write_sq_whole {sp : Space} (M : Memref sig .tc sp S1x1024 .f32) (hr) (f1 : M.view.ty.Contents (Elt F)) (p : S1024.Idx → Elt F .f32) :
    M.view.read (Elt F) (View.write (Elt F) ((M.slice (Rect.unit (s := S1x1024) ![0, 0] S1x1024.size inb_S1x1024_S1x1024_0_0) hr).squeeze S1024 squeezes_S1x1024_S1024).view f1 p Finset.univ)
      = fun j => p ((Shape.reshapeEquiv squeezes_S1x1024_S1024.numel_eq).symm j) := by
  show M.view.read (Elt F) (View.write (Elt F) ((M.view.slice (Rect.unit (s := S1x1024) ![0, 0] S1x1024.size inb_S1x1024_S1x1024_0_0)).reshape S1024 squeezes_S1x1024_S1024.numel_eq) f1 p Finset.univ) = _
  rw [View.write_reshape_univ]
  funext j
  have h := View.read_slice_write_emb (v := M.view) (Rect.unit (s := S1x1024) ![0, 0] S1x1024.size inb_S1x1024_S1x1024_0_0) f1
    (fun x => p ((Shape.reshapeEquiv squeezes_S1x1024_S1024.numel_eq).symm x)) (Finset.mem_univ j)
  have he : (Rect.unit (s := S1x1024) ![0, 0] S1x1024.size inb_S1x1024_S1x1024_0_0).emb j = j := by
    funext a; apply Fin.ext; rw [Rect.emb_apply]
    fin_cases a
    · show 0 + 1 * (j 0).val = (j 0).val; omega
    · show 0 + 1 * (j 1).val = (j 1).val; omega
  rw [he] at h
  exact h

set_option maxHeartbeats 1000000 in

theorem kernelRun0 (c : Dev nD) (i : grid0.Coords) (arg3 : Memref sig .tc .vmem S1x1024 .f32) (harg3 : arg3.IsWhole)
    (xt : MBuf0 (F := F) c tbM0) (fh : MBuf0 (F := F) c hbM0) (hchk : k0_chk1 (tokWord c xt))
    (W : Waits sig Unit) (K : PUnit → sProp 𝕄) :
    iprop((∃ d, owns (c : Thread nD τ) arg3 fullShare d) ∗ mPt0 c tbM0 xt ∗ semVal ((c : Thread nD τ), SemLoc.dma 1) 0 ∗ mPt0 c hbM0 fh ∗ owes (c : Thread nD τ) 0 W
        ∗ (iprop(owns (c : Thread nD τ) arg3 fullShare (rowOf c (tokWord c xt) hchk fh) ∗ mPt0 c tbM0 xt ∗ semVal ((c : Thread nD τ), SemLoc.dma 1) 0 ∗ mPt0 c hbM0 fh ∗ (∃ W', owes (c : Thread nD τ) 0 W')) -∗ K ⟨⟩))
      ⊢ wp frame (wpE (defs₀ (F := F)) Variants.none c none) Set.univ (cc0_kernel i tbM0 htbM0 hbM0 (Memref.isWhole_whole _) arg3 harg3 cc0_scratch0) K := by
  simp only [cc0_kernel_eq_skeleton]; unfold cc0_kernel_skel
  unfold owns
  iintro ⟨⟨%d1, %f1, -, H1⟩, HT, Hq0, Hh0, HW, Hk⟩
  sl_exec (disch := first | sl_exact hchk)
  sl_step
  iapply Hk
  isplitl [H1]
  · iexists _; isplitr; swap; · iexact H1
    ipureintro
    rw [read_write_sq_whole]
    funext j
    unfold kernelRun0.sl.dma1 rowOf
    show (hbM0.view.readAt (Elt F) (rowRect (tokWord c xt) hchk).toLoadRect fh)
      (Shape.reshapeEquiv squeezes_S1x1024_S1024.numel_eq ((Shape.reshapeEquiv squeezes_S1x1024_S1024.numel_eq).symm j)) = _
    rw [Equiv.apply_symm_apply]
  isplitl [HT]; · iexact HT
  isplitl [Hq0]; · iexact Hq0
  isplitl [Hh0]; · iexact Hh0
  iexists _; iexact HW

abbrev osem0 : Fin 1 → SemLoc sig := fun j => (![SemLoc.dma 1] : Fin 1 → SemLoc sig) j
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 1) 0) := by
  rw [Pipeline.ownSems0_eq_of_list c osem0 [0] (by decide) (by decide)]; rfl

def H0 : Finset (Ref sig .tc) := {main_arg3}
theorem H0_subP : H0 ⊆ Pipeline.restRefsP sig pre0 spec0 := by decide

variable (V : (c : Dev nD) → (b : Ref sig .tc) → Buf (Elt F) ((c : Thread nD τ).loc b))

theorem hbmPts0_eq (c : Dev nD) :
    (bigSep H0 (fun b => ((c : Thread nD τ).loc b) ↦{fullShare} V c b) : sProp 𝕄) = iprop(mPt0 c hbM0 (V c main_arg3)) := by
  rw [BI.bigSep_eq_bigSepL_of_eq [main_arg3] (by decide) (by decide)]; rfl

theorem prefHeld0_eq (pf : pre0.Contents (Elt F)) (c : Dev nD) :
    (Pipeline.prefHeld (Ix := Unit) (Name := ℕ) (U := Pipeline.UD sig nD τ) (Lvl := ℕ) pre0 c (fun _ => fullShare) pf : sProp 𝕄)
      = iprop(mPt0 c tbM0 (pf 0)) := by
  unfold Pipeline.prefHeld
  rw [show (Finset.univ : Finset (Fin 1)) = {(0 : Fin 1)} from by decide, bigSep_singleton]
  rfl

def tokWordA (a : (pcfg0 (F := F)).Adm) : BitVec 32 := tokWord (F := F) (0 : Dev nD) (a.1 0)

def tokRow (a : (pcfg0 (F := F)).Adm) : ℕ := (tokWordA a).toNat

theorem k0_off1_tok (a : (pcfg0 (F := F)).Adm) : k0_off1 (tokWordA a) = ![tokRow a, 0] := rfl

theorem tokWordA_eq (a : (pcfg0 (F := F)).Adm) (x : S1.Idx) : tokWordA a = (a.1 0 : S1.Idx → BitVec 32) x := by
  unfold tokWordA
  show (a.1 0 : S1.Idx → BitVec 32) _ = _
  refine congrArg (a.1 0 : S1.Idx → BitVec 32) ?_
  funext i; apply Fin.ext
  have h1 := (x i).isLt
  fin_cases i
  show 0 + 1 * 0 = (x 0).val
  have : (x 0).val < 1 := h1
  omega

theorem chk_of_row (a : (pcfg0 (F := F)).Adm) (hrow : tokRow a + 1 ≤ 50257) : k0_chk1 (tokWordA a) := by
  intro x
  rw [k0_off1_tok]
  fin_cases x
  · exact hrow
  · show 0 + 1024 ≤ 1024; omega

def embRow (a : (pcfg0 (F := F)).Adm) (c : Dev nD) : S1x1024.Idx → Elt F .f32 :=
  if h : k0_chk1 (tokWordA a) then rowOf c (tokWordA a) h (V c main_arg3) else rowOf c 0#32 (by decide) (V c main_arg3)

theorem embRow_eq (a : (pcfg0 (F := F)).Adm) (c : Dev nD) (h : k0_chk1 (tokWordA a)) :
    embRow V a c = rowOf c (tokWordA a) h (V c main_arg3) := dif_pos h

def dat0 (a : (pcfg0 (F := F)).Adm) (c : Dev nD) : Dat τ (Elt F) Unit ℕ (Pipeline.UD sig nD τ) ℕ (cfg0 a) c where
  A w := V c (Pipeline.arrRef spec0 w)
  after w t := match w with
    | ⟨0, _⟩ => embRow V a c
  Φ _ := iprop(Pipeline.ΦD osem0 spec0 H0 V c
    ∗ Pipeline.prefHeld (Ix := Unit) (Name := ℕ) (U := Pipeline.UD sig nD τ) (Lvl := ℕ) pre0 c (fun _ => fullShare) a.1)
  q _ := fullShare
  owed _ := 0

theorem after0_0 (a : (pcfg0 (F := F)).Adm) (c : Dev nD) (t : Fin (cfg0 a).N) : (dat0 V a c).after 0 t = embRow V a c := by dsimp only [dat0]; rfl

theorem Phi0_eq (a : (pcfg0 (F := F)).Adm) (c : Dev nD) (t : Fin ((cfg0 a).N + 1)) :
    ((dat0 V a c).Φ t : sProp 𝕄)
      = iprop((Pipeline.scopedRest (Ix := Unit) (Name := ℕ) (U := Pipeline.UD sig nD τ) (Lvl := ℕ) (Val := Elt F) spec0 c
          ∗ (∃ r, prngReg c r) ∗ semVal ((c : Thread nD τ), SemLoc.dma 1) 0 ∗ mPt0 c hbM0 (V c main_arg3))
        ∗ mPt0 c tbM0 (a.1 0)) := by
  show iprop(Pipeline.ΦD osem0 spec0 H0 V c
    ∗ Pipeline.prefHeld (Ix := Unit) (Name := ℕ) (U := Pipeline.UD sig nD τ) (Lvl := ℕ) pre0 c (fun _ => fullShare) a.1) = _
  rw [Pipeline.ΦD_eq, ownSems00_eq, hbmPts0_eq, prefHeld0_eq]

abbrev ms0 (a : (pcfg0 (F := F)).Adm) (t : Fin (cfg0 a).N) : Memref sig .tc .vmem S1x1024 .f32 := spec0_0.stage ((cfg0 a).slots t 0)
abbrev hs0 (a : (pcfg0 (F := F)).Adm) (t : Fin (cfg0 a).N) : (ms0 a t).IsWhole := hstage0_0 (((cfg0 a).slots t 0).cast nbuf0_0)

abbrev bodyAt0 (a : (pcfg0 (F := F)).Adm) (t : Fin (cfg0 a).N) : Prog (TpuEff nD τ sig (Elt F) Λ₀ .tc) PUnit :=
  cc0_kernel (grid0.coords t) tbM0 htbM0 hbM0 (Memref.isWhole_whole _) (ms0 a t) (hs0 a t) cc0_scratch0

def bodyPre0 (a : (pcfg0 (F := F)).Adm) (c : Dev nD) (t : Fin (cfg0 a).N) : sProp 𝕄 :=
  iprop((dat0 V a c).Φ t.castSucc ∗ (dat0 V a c).owesAt () t.castSucc
    ∗ (∃ d, owns (c : Thread nD τ) (ms0 a t) fullShare ((dat0 V a c).before 0 t d)))

def bodyPost0 (a : (pcfg0 (F := F)).Adm) (c : Dev nD) (t : Fin (cfg0 a).N) : sProp 𝕄 :=
  iprop((dat0 V a c).Φ t.succ ∗ (dat0 V a c).owesAt () t.succ
    ∗ owns (c : Thread nD τ) (ms0 a t) fullShare ((dat0 V a c).after 0 t))

theorem sound_body0 (a : (pcfg0 (F := F)).Adm) (hrow : tokRow a + 1 ≤ 50257) (c : Dev nD) (t : Fin (cfg0 a).N) :
    bodyPre0 V a c t ⊢ wp frame (wpE (defs₀ (F := F)) Variants.none c none) Set.univ (bodyAt0 a t) (fun _ => bodyPost0 V a c t) := by
  unfold bodyPre0 bodyPost0 bodyAt0
  rw [Phi0_eq, Phi0_eq, after0_0, embRow_eq V a c (chk_of_row a hrow)]
  unfold Dat.owesAt Pipeline.owesWithin
  rw [show (dat0 V a c).owed t.castSucc = 0 from rfl, show (dat0 V a c).owed t.succ = 0 from rfl]
  iintro ⟨⟨⟨HR, Hg, Hq0, Hh0⟩, HT⟩, ⟨%W, -, HW⟩, ⟨%d0, H0⟩⟩
  iapply (kernelRun0 c (grid0.coords t) _ _ (a.1 0) (V c main_arg3) (chk_of_row a hrow) W _)
  isplitl [H0]; · iexists _; iexact H0
  isplitl [HT]; · iexact HT
  isplitl [Hq0]; · iexact Hq0
  isplitl [Hh0]; · iexact Hh0
  isplitl [HW]; · iexact HW
  iintro ⟨H0, HT, Hq0, Hh0, ⟨%W', HW'⟩⟩
  isplitl [HR Hg Hq0 Hh0 HT]
  · isplitl [HR Hg Hq0 Hh0]
    · isplitl [HR]; · iexact HR
      isplitl [Hg]; · iexact Hg
      isplitl [Hq0]; · iexact Hq0
      iexact Hh0
    iexact HT
  isplitl [HW']
  · iexists W'; isplitr; · ipureintro; exact fun _ _ => Or.inl trivial
    iexact HW'
  iexact H0

theorem body_obligation0 (a : (pcfg0 (F := F)).Adm) (hrow : tokRow a + 1 ≤ 50257) (c : Dev nD) :
    BodyObligation (dat0 (F := F) V a c) (defs₀ (F := F)) Variants.none () Set.univ := fun t => by
  rw [bigSep_W0, bigSep_W0]
  exact sound_body0 V a hrow c t

theorem hout0 (a : (pcfg0 (F := F)).Adm) (c : Dev nD) :
    ((dat0 V a c).Φ (Fin.last (cfg0 a).N) : sProp 𝕄)
      ⊢ iprop(iprop((∃ r, prngReg c r) ∗ (bigSep H0 fun b => (((c : Thread nD τ)).loc b) ↦{fullShare} V c b)
            ∗ Pipeline.prefHeld (Ix := Unit) (Name := ℕ) (U := Pipeline.UD sig nD τ) (Lvl := ℕ) pre0 c (fun _ => fullShare) a.1)
          ∗ Pipeline.ownSems0 (Ix := Unit) (Name := ℕ) (U := Pipeline.UD sig nD τ) (Lvl := ℕ) (Val := Elt F) (τ := τ) osem0 c
          ∗ Pipeline.scopedRest (Ix := Unit) (Name := ℕ) (U := Pipeline.UD sig nD τ) (Lvl := ℕ) (Val := Elt F) spec0 c) := by
  show iprop(Pipeline.ΦD osem0 spec0 H0 V c
    ∗ Pipeline.prefHeld (Ix := Unit) (Name := ℕ) (U := Pipeline.UD sig nD τ) (Lvl := ℕ) pre0 c (fun _ => fullShare) a.1) ⊢ _
  rw [Pipeline.ΦD_eq]
  iintro ⟨⟨Hr, Hp, Ho, HH⟩, HT⟩
  isplitl [Hp HH HT]
  · isplitl [Hp]; · iexact Hp
    isplitl [HH]; · iexact HH
    iexact HT
  isplitl [Ho]; · iexact Ho
  iexact Hr

theorem rowOf_apply (c : Dev nD) (w : BitVec 32) (h : k0_chk1 w) (fh : MBuf0 (F := F) c hbM0) (j : S1x1024.Idx) :
    rowOf c w h fh j = (fh : Vec F S50257x1024 .f32) (ValueIdx.ix2 (⟨w.toNat, by have := h 0; exact this⟩ : Fin 50257) (⟨(j 1).val, (j 1).isLt⟩ : Fin 1024)) := by
  unfold rowOf
  show (fh : Vec F S50257x1024 .f32) _ = _
  refine congrArg (fh : Vec F S50257x1024 .f32) ?_
  funext x; apply Fin.ext
  fin_cases x
  · show w.toNat + 1 * (j 0).val = w.toNat
    have : (j 0).val < 1 := (j 0).isLt
    omega
  · show 0 + 1 * (j 1).val = (j 1).val
    omega

theorem embRow_apply (a : (pcfg0 (F := F)).Adm) (hrow : tokRow a + 1 ≤ 50257) (c : Dev nD) (j : S1x1024.Idx) :
    embRow V a c j = (V c main_arg3 : Vec F S50257x1024 .f32) (ValueIdx.ix2 (⟨tokRow a, hrow⟩ : Fin 50257) (⟨(j 1).val, (j 1).isLt⟩ : Fin 1024)) := by
  rw [embRow_eq V a c (chk_of_row a hrow), rowOf_apply]
  rfl

theorem flush0_0 (a : (pcfg0 (F := F)).Adm) (t : Fin (cfg0 a).N) : ((cfg0 a).win 0).flush t = true := by
  have hN : (cfg0 a).N = 1 := N_0
  have ht : t.val + 1 = (cfg0 a).N := by have := t.isLt; omega
  unfold Pipeline.Window.flush
  rw [show ((cfg0 a).win 0).isOut = true from rfl, Bool.true_and, Bool.or_eq_true]
  exact Or.inl (decide_eq_true ht)

theorem write_univ_apply_of_emb {κ : Kind} {sp : Space} {s : Shape} {e : EltTy} (v : View sig κ sp s e)
    (f : v.ty.Contents (Elt F)) (w : s.Idx → Elt F e) (x : s.Idx) (j : v.ty.Idx) (h : v.emb x = j) :
    v.write (Elt F) f w Finset.univ j = _root_.cast (congrArg (Elt F) v.elt_eq.symm) (w x) := by
  subst h
  rw [View.write_emb, if_pos (Finset.mem_univ _)]

theorem arrAt0_out (a : (pcfg0 (F := F)).Adm) (c : Dev nD) :
    (dat0 V a c).arrAt 0 (cfg0 a).N = (embRow V a c : S1x1024.Idx → Elt F .f32) := by
  have hN : (cfg0 a).N = 0 + 1 := N_0
  have h0 : 0 < (cfg0 a).N := by rw [hN]; exact Nat.one_pos
  have h := (dat0 V a c).arrAt_succ 0 (⟨0, h0⟩ : Fin (cfg0 a).N)
  rw [flush0_0, if_pos rfl] at h
  rw [hN]
  refine h.trans ?_
  funext (j : S1x1024.Idx)
  have he : (((cfg0 a).win 0).blk ⟨0, h0⟩).view.emb (j : S1x1024.Idx) = (j : S1x1024.Idx) := by
    funext (x : Fin 2); apply Fin.ext
    fin_cases x
    · show 0 * 1 + 1 * (j 0).val = (j 0).val; omega
    · show 0 * 1024 + 1 * (j 1).val = (j 1).val; omega
  refine (write_univ_apply_of_emb (((cfg0 a).win 0).blk ⟨0, h0⟩).view _ _ (j : S1x1024.Idx) (j : S1x1024.Idx) he).trans ?_
  refine (cast_eq _ _).trans ?_
  show (dat0 V a c).after 0 ⟨0, h0⟩ _ = _
  rw [after0_0]
  rfl

theorem arrAt0_out_apply (a : (pcfg0 (F := F)).Adm) (hrow : tokRow a + 1 ≤ 50257) (c : Dev nD) (j : S1x1024.Idx) :
    ((dat0 V a c).arrAt 0 (cfg0 a).N : S1x1024.Idx → Elt F .f32) j
      = (V c main_arg3 : Vec F S50257x1024 .f32) (ValueIdx.ix2 (⟨tokRow a, hrow⟩ : Fin 50257) (⟨(j 1).val, (j 1).isLt⟩ : Fin 1024)) := by
  rw [arrAt0_out]
  exact embRow_apply V a hrow c j

end Cert.KernelIdeal.Hand

end
-- ==== Proof.KI.Reg1.lean ====
import proofs.«409304_j78383153152469_3_alg».proof.Proof.Gen.KernelIdeal.Launch
import proofs.«409304_j78383153152469_3_alg».proof.Proof.Gen.KernelIdeal.Skeleton
import proofs.«409304_j78383153152469_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Regions

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1x2048 := Rect.unit (s := S1x2048) ![0, 0] S1x2048.size inb_S1x2048_S1x2048_0_0
abbrev r1_1 : Rect S512x2048 := Rect.unit (s := S512x2048) ![0, 0] S512x2048.size inb_S512x2048_S512x2048_0_0
abbrev r1_2 : Rect S1x512 := Rect.unit (s := S1x512) ![0, 0] S1x512.size inb_S1x512_S1x512_0_0
abbrev r1_3 : Rect S1x512 := Rect.unit (s := S1x512) ![0, 0] S1x512.size inb_S1x512_S1x512_0_0

def out1_3 (x0 : Vec F S1x2048 .f32) (x1 : Vec F S512x2048 .f32) (x2 : Vec F S1x512 .f32) : Vec F S1x512 .f32 :=
  View.canon [⟨r1_3, k1_pay1 (View.ld x0 r1_0) (View.ld x1 r1_1) (View.ld x2 r1_2)⟩]

theorem cover1_3 (p0 : Vec F S1x512 .f32) (y : S1x512.Idx) :
    ∃ pc ∈ ([⟨r1_3, p0⟩] : List (View.Piece (Elt F) S1x512 .f32)), y ∈ pc.1.set :=
  View.cover_of_tiled [⟨r1_3, p0⟩] S1x512.size (by rfl) y

set_option maxHeartbeats 1000000 in

theorem sound_kernel1 (c : Dev nD) (E : Set ℕ) (i : grid1.Coords) (arg0 : Memref sig .tc .vmem S1x2048 .f32) (harg0 : arg0.IsWhole) (arg1 : Memref sig .tc .vmem S512x2048 .f32) (harg1 : arg1.IsWhole) (arg2 : Memref sig .tc .vmem S1x512 .f32) (harg2 : arg2.IsWhole) (arg3 : Memref sig .tc .vmem S1x512 .f32) (harg3 : arg3.IsWhole)
    (x0 : Vec F S1x2048 .f32) (x1 : Vec F S512x2048 .f32) (x2 : Vec F S1x512 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1_kernel i arg0 harg0 arg1 harg1 arg2 harg2 arg3 harg3) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

theorem hz1 : (![0, 0] : Fin 2 → Nat) = fun _ => 0 := funext fun a => by fin_cases a <;> rfl

theorem arrAt1_in (c : Dev nD) (w : Fin cfg1.W) (hw : (cfg1.win w).isOut = false) :
    (dat1 V c).arrAt w cfg1.N = V c (Pipeline.arrRef spec1 w) :=
  ((dat1 V c).arrAt_in w hw _).trans (A_eq1 V c w)

theorem idx_facts1 : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

theorem iblk1_0_eq (c : Dev nD) (t : Fin cfg1.N) : iblk1 V c 0 t = (V c main_v3 : Vec F S1x2048 .f32) := by
  obtain ⟨e0, e1, -⟩ := idx_facts1 t
  unfold iblk1
  funext j
  show V c main_v3 (((cfg1.win 0).blk t).view.emb j) = V c main_v3 j
  congr 1
  funext a; apply Fin.ext
  match a with
  | ⟨0, _⟩ => show win1_0.index t (0 : Fin 2) * 1 + 1 * (j 0).val = (j 0).val; omega
  | ⟨1, _⟩ => show win1_0.index t (1 : Fin 2) * 2048 + 1 * (j 1).val = (j 1).val; omega

theorem iblk1_1_eq (c : Dev nD) (t : Fin cfg1.N) : iblk1 V c 1 t = (V c main_arg4 : Vec F S512x2048 .f32) := by
  obtain ⟨-, -, e0, e1, -⟩ := idx_facts1 t
  unfold iblk1
  funext j
  show V c main_arg4 (((cfg1.win 1).blk t).view.emb j) = V c main_arg4 j
  congr 1
  funext a; apply Fin.ext
  match a with
  | ⟨0, _⟩ => show win1_1.index t (0 : Fin 2) * 512 + 1 * (j 0).val = (j 0).val; omega
  | ⟨1, _⟩ => show win1_1.index t (1 : Fin 2) * 2048 + 1 * (j 1).val = (j 1).val; omega

theorem iblk1_2_eq (c : Dev nD) (t : Fin cfg1.N) : iblk1 V c 2 t = (V c main_v4 : Vec F S1x512 .f32) := by
  obtain ⟨-, -, -, -, e0, e1, -⟩ := idx_facts1 t
  unfold iblk1
  funext j
  show V c main_v4 (((cfg1.win 2).blk t).view.emb j) = V c main_v4 j
  congr 1
  funext a; apply Fin.ext
  match a with
  | ⟨0, _⟩ => show win1_2.index t (0 : Fin 2) * 1 + 1 * (j 0).val = (j 0).val; omega
  | ⟨1, _⟩ => show win1_2.index t (1 : Fin 2) * 512 + 1 * (j 1).val = (j 1).val; omega

abbrev G1 (c : Dev nD) : Vec F S1x512 .f32 := k1_pay1 (V c main_v3) (V c main_arg4) (V c main_v4)

theorem flushed1_eq (c : Dev nD) (t : Fin cfg1.N) :
    (dat1 V c).flushed 3 t = ((cfg1.win 3).blk t).view.read (Elt F) (G1 V c) := by
  show (cfg1.win 3).cut (grid1.coords t) ((dat1 V c).after 3 t) = _
  rw [after1_3]
  unfold out1_3
  rw [View.canon_unit_zero hz1]
  simp only [View.ld_unit_zero (S := S1x2048) hz1, View.ld_unit_zero (S := S512x2048) hz1, View.ld_unit_zero (S := S1x512) hz1]
  rw [iblk1_0_eq, iblk1_1_eq, iblk1_2_eq]
  obtain ⟨-, -, -, -, -, -, e0, e1⟩ := idx_facts1 t
  funext j
  show G1 V c j = G1 V c (((cfg1.win 3).blk t).view.emb j)
  congr 1
  funext a; apply Fin.ext
  match a with
  | ⟨0, _⟩ => show (j 0).val = win1_3.index t (0 : Fin 2) * 1 + 1 * (j 0).val; omega
  | ⟨1, _⟩ => show (j 1).val = win1_3.index t (1 : Fin 2) * 512 + 1 * (j 1).val; omega

theorem mem_blk1 (t : Fin cfg1.N) (i : S1x512.Idx) :
    i ∈ ((cfg1.win 3).blk t).view.set ↔ ∀ a : Fin 2, win1_3.index t a * S1x512.size a ≤ (i a).val ∧ (i a).val < win1_3.index t a * S1x512.size a + S1x512.size a := by
  show i ∈ ((View.whole main_v5).slice (win1_3.rect t)).set ↔ _
  rw [View.set_slice_whole, Rect.mem_set_unit]
  exact Iff.rfl

theorem cover1 (i : S1x512.Idx) : ∃ t : Fin cfg1.N, (cfg1.win 3).flush t = true ∧ i ∈ ((cfg1.win 3).blk t).view.set := by
  refine ⟨t1_0, flush1_3 t1_0, ?_⟩
  obtain ⟨-, -, -, -, -, -, e0, e1⟩ := idx_facts1 t1_0
  rw [mem_blk1]
  intro a
  match a with
  | ⟨0, _⟩ => show win1_3.index t1_0 (0 : Fin 2) * 1 ≤ (i 0).val ∧ (i 0).val < win1_3.index t1_0 (0 : Fin 2) * 1 + 1; have hi : (i 0).val < 1 := (i 0).isLt; omega
  | ⟨1, _⟩ => show win1_3.index t1_0 (1 : Fin 2) * 512 ≤ (i 1).val ∧ (i 1).val < win1_3.index t1_0 (1 : Fin 2) * 512 + 512; have hi : (i 1).val < 512 := (i 1).isLt; omega

theorem arrAt1_out (c : Dev nD) : (dat1 V c).arrAt 3 cfg1.N = k1_pay1 (V c main_v3) (V c main_arg4) (V c main_v4) :=
  (dat1 V c).arrAt_eq_of_cover 3 (G1 V c) (fun t _ => flushed1_eq V c t) cover1

end Regions

end Cert.KernelIdeal.Hand

end
-- ==== Proof.KI.Reg2.lean ====
import proofs.«409304_j78383153152469_3_alg».proof.Proof.Gen.KernelIdeal.Launch
import proofs.«409304_j78383153152469_3_alg».proof.Proof.Gen.KernelIdeal.Skeleton
import proofs.«409304_j78383153152469_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Regions

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1x512 := Rect.unit (s := S1x512) ![0, 0] S1x512.size inb_S1x512_S1x512_0_0
abbrev r2_1 : Rect S512x1024 := Rect.unit (s := S512x1024) ![0, 0] S512x1024.size inb_S512x1024_S512x1024_0_0
abbrev r2_2 : Rect S1x1024 := Rect.unit (s := S1x1024) ![0, 0] S1x1024.size inb_S1x1024_S1x1024_0_0

def out2_2 (x0 : Vec F S1x512 .f32) (x1 : Vec F S512x1024 .f32) : Vec F S1x1024 .f32 :=
  View.canon [⟨r2_2, k2_pay1 (View.ld x0 r2_0) (View.ld x1 r2_1)⟩]

theorem cover2_2 (p0 : Vec F S1x1024 .f32) (y : S1x1024.Idx) :
    ∃ pc ∈ ([⟨r2_2, p0⟩] : List (View.Piece (Elt F) S1x1024 .f32)), y ∈ pc.1.set :=
  View.cover_of_tiled [⟨r2_2, p0⟩] S1x1024.size (by rfl) y

set_option maxHeartbeats 1000000 in

theorem sound_kernel2 (c : Dev nD) (E : Set ℕ) (i : grid2.Coords) (arg0 : Memref sig .tc .vmem S1x512 .f32) (harg0 : arg0.IsWhole) (arg1 : Memref sig .tc .vmem S512x1024 .f32) (harg1 : arg1.IsWhole) (arg2 : Memref sig .tc .vmem S1x1024 .f32) (harg2 : arg2.IsWhole)
    (x0 : Vec F S1x512 .f32) (x1 : Vec F S512x1024 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2_kernel i arg0 harg0 arg1 harg1 arg2 harg2) K := by
  simp only [cc2_kernel_eq_skeleton]; unfold cc2_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

theorem hz2 : (![0, 0] : Fin 2 → Nat) = fun _ => 0 := funext fun a => by fin_cases a <;> rfl

theorem arrAt2_in (c : Dev nD) (w : Fin cfg2.W) (hw : (cfg2.win w).isOut = false) :
    (dat2 V c).arrAt w cfg2.N = V c (Pipeline.arrRef spec2 w) :=
  ((dat2 V c).arrAt_in w hw _).trans (A_eq2 V c w)

theorem idx_facts2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

theorem iblk2_0_eq (c : Dev nD) (t : Fin cfg2.N) : iblk2 V c 0 t = (V c main_v16 : Vec F S1x512 .f32) := by
  obtain ⟨e0, e1, -⟩ := idx_facts2 t
  unfold iblk2
  funext j
  show V c main_v16 (((cfg2.win 0).blk t).view.emb j) = V c main_v16 j
  congr 1
  funext a; apply Fin.ext
  match a with
  | ⟨0, _⟩ => show win2_0.index t (0 : Fin 2) * 1 + 1 * (j 0).val = (j 0).val; omega
  | ⟨1, _⟩ => show win2_0.index t (1 : Fin 2) * 512 + 1 * (j 1).val = (j 1).val; omega

theorem iblk2_1_eq (c : Dev nD) (t : Fin cfg2.N) : iblk2 V c 1 t = (V c main_arg2 : Vec F S512x1024 .f32) := by
  obtain ⟨-, -, e0, e1, -⟩ := idx_facts2 t
  unfold iblk2
  funext j
  show V c main_arg2 (((cfg2.win 1).blk t).view.emb j) = V c main_arg2 j
  congr 1
  funext a; apply Fin.ext
  match a with
  | ⟨0, _⟩ => show win2_1.index t (0 : Fin 2) * 512 + 1 * (j 0).val = (j 0).val; omega
  | ⟨1, _⟩ => show win2_1.index t (1 : Fin 2) * 1024 + 1 * (j 1).val = (j 1).val; omega

abbrev G2 (c : Dev nD) : Vec F S1x1024 .f32 := k2_pay1 (V c main_v16) (V c main_arg2)

theorem flushed2_eq (c : Dev nD) (t : Fin cfg2.N) :
    (dat2 V c).flushed 2 t = ((cfg2.win 2).blk t).view.read (Elt F) (G2 V c) := by
  show (cfg2.win 2).cut (grid2.coords t) ((dat2 V c).after 2 t) = _
  rw [after2_2]
  unfold out2_2
  rw [View.canon_unit_zero hz2]
  simp only [View.ld_unit_zero (S := S1x512) hz2, View.ld_unit_zero (S := S512x1024) hz2]
  rw [iblk2_0_eq, iblk2_1_eq]
  obtain ⟨-, -, -, -, e0, e1⟩ := idx_facts2 t
  funext j
  show G2 V c j = G2 V c (((cfg2.win 2).blk t).view.emb j)
  congr 1
  funext a; apply Fin.ext
  match a with
  | ⟨0, _⟩ => show (j 0).val = win2_2.index t (0 : Fin 2) * 1 + 1 * (j 0).val; omega
  | ⟨1, _⟩ => show (j 1).val = win2_2.index t (1 : Fin 2) * 1024 + 1 * (j 1).val; omega

theorem mem_blk2 (t : Fin cfg2.N) (i : S1x1024.Idx) :
    i ∈ ((cfg2.win 2).blk t).view.set ↔ ∀ a : Fin 2, win2_2.index t a * S1x1024.size a ≤ (i a).val ∧ (i a).val < win2_2.index t a * S1x1024.size a + S1x1024.size a := by
  show i ∈ ((View.whole main_v17).slice (win2_2.rect t)).set ↔ _
  rw [View.set_slice_whole, Rect.mem_set_unit]
  exact Iff.rfl

theorem cover2 (i : S1x1024.Idx) : ∃ t : Fin cfg2.N, (cfg2.win 2).flush t = true ∧ i ∈ ((cfg2.win 2).blk t).view.set := by
  refine ⟨t2_0, flush2_2 t2_0, ?_⟩
  obtain ⟨-, -, -, -, e0, e1⟩ := idx_facts2 t2_0
  rw [mem_blk2]
  intro a
  match a with
  | ⟨0, _⟩ => show win2_2.index t2_0 (0 : Fin 2) * 1 ≤ (i 0).val ∧ (i 0).val < win2_2.index t2_0 (0 : Fin 2) * 1 + 1; have hi : (i 0).val < 1 := (i 0).isLt; omega
  | ⟨1, _⟩ => show win2_2.index t2_0 (1 : Fin 2) * 1024 ≤ (i 1).val ∧ (i 1).val < win2_2.index t2_0 (1 : Fin 2) * 1024 + 1024; have hi : (i 1).val < 1024 := (i 1).isLt; omega

theorem arrAt2_out (c : Dev nD) : (dat2 V c).arrAt 2 cfg2.N = k2_pay1 (V c main_v16) (V c main_arg2) :=
  (dat2 V c).arrAt_eq_of_cover 2 (G2 V c) (fun t _ => flushed2_eq V c t) cover2

end Regions

end Cert.KernelIdeal.Hand

end
-- ==== Proof.KI.Reg3.lean ====
import proofs.«409304_j78383153152469_3_alg».proof.Proof.Gen.KernelIdeal.Launch
import proofs.«409304_j78383153152469_3_alg».proof.Proof.Gen.KernelIdeal.Skeleton
import proofs.«409304_j78383153152469_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Regions

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S1x2048 := Rect.unit (s := S1x2048) ![0, 0] S1x2048.size inb_S1x2048_S1x2048_0_0
abbrev r3_1 : Rect S1024x2048 := Rect.unit (s := S1024x2048) ![0, 0] S1024x2048.size inb_S1024x2048_S1024x2048_0_0
abbrev r3_2 : Rect S1x1024 := Rect.unit (s := S1x1024) ![0, 0] S1x1024.size inb_S1x1024_S1x1024_0_0
abbrev r3_3 : Rect S1x1024 := Rect.unit (s := S1x1024) ![0, 0] S1x1024.size inb_S1x1024_S1x1024_0_0

def out3_3 (x0 : Vec F S1x2048 .f32) (x1 : Vec F S1024x2048 .f32) (x2 : Vec F S1x1024 .f32) : Vec F S1x1024 .f32 :=
  View.canon [⟨r3_3, k3_pay1 (View.ld x0 r3_0) (View.ld x1 r3_1) (View.ld x2 r3_2)⟩]

theorem cover3_3 (p0 : Vec F S1x1024 .f32) (y : S1x1024.Idx) :
    ∃ pc ∈ ([⟨r3_3, p0⟩] : List (View.Piece (Elt F) S1x1024 .f32)), y ∈ pc.1.set :=
  View.cover_of_tiled [⟨r3_3, p0⟩] S1x1024.size (by rfl) y

set_option maxHeartbeats 1000000 in

theorem sound_kernel3 (c : Dev nD) (E : Set ℕ) (i : grid3.Coords) (arg0 : Memref sig .tc .vmem S1x2048 .f32) (harg0 : arg0.IsWhole) (arg1 : Memref sig .tc .vmem S1024x2048 .f32) (harg1 : arg1.IsWhole) (arg2 : Memref sig .tc .vmem S1x1024 .f32) (harg2 : arg2.IsWhole) (arg3 : Memref sig .tc .vmem S1x1024 .f32) (harg3 : arg3.IsWhole)
    (x0 : Vec F S1x2048 .f32) (x1 : Vec F S1024x2048 .f32) (x2 : Vec F S1x1024 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out3_3 x0 x1 x2)) -∗ K ⟨⟩))
      ⊢ wp frame (wpE (defs₀ (F := F)) Variants.none c none) E (cc3_kernel i arg0 harg0 arg1 harg1 arg2 harg2 arg3 harg3) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

theorem hz3 : (![0, 0] : Fin 2 → Nat) = fun _ => 0 := funext fun a => by fin_cases a <;> rfl

theorem arrAt3_in (c : Dev nD) (w : Fin cfg3.W) (hw : (cfg3.win w).isOut = false) :
    (dat3 V c).arrAt w cfg3.N = V c (Pipeline.arrRef spec3 w) :=
  ((dat3 V c).arrAt_in w hw _).trans (A_eq3 V c w)

theorem idx_facts3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

theorem iblk3_0_eq (c : Dev nD) (t : Fin cfg3.N) : iblk3 V c 0 t = (V c main_v18 : Vec F S1x2048 .f32) := by
  obtain ⟨e0, e1, -⟩ := idx_facts3 t
  unfold iblk3
  funext j
  show V c main_v18 (((cfg3.win 0).blk t).view.emb j) = V c main_v18 j
  congr 1
  funext a; apply Fin.ext
  match a with
  | ⟨0, _⟩ => show win3_0.index t (0 : Fin 2) * 1 + 1 * (j 0).val = (j 0).val; omega
  | ⟨1, _⟩ => show win3_0.index t (1 : Fin 2) * 2048 + 1 * (j 1).val = (j 1).val; omega

theorem iblk3_1_eq (c : Dev nD) (t : Fin cfg3.N) : iblk3 V c 1 t = (V c main_arg6 : Vec F S1024x2048 .f32) := by
  obtain ⟨-, -, e0, e1, -⟩ := idx_facts3 t
  unfold iblk3
  funext j
  show V c main_arg6 (((cfg3.win 1).blk t).view.emb j) = V c main_arg6 j
  congr 1
  funext a; apply Fin.ext
  match a with
  | ⟨0, _⟩ => show win3_1.index t (0 : Fin 2) * 1024 + 1 * (j 0).val = (j 0).val; omega
  | ⟨1, _⟩ => show win3_1.index t (1 : Fin 2) * 2048 + 1 * (j 1).val = (j 1).val; omega

theorem iblk3_2_eq (c : Dev nD) (t : Fin cfg3.N) : iblk3 V c 2 t = (V c main_v19 : Vec F S1x1024 .f32) := by
  obtain ⟨-, -, -, -, e0, e1, -⟩ := idx_facts3 t
  unfold iblk3
  funext j
  show V c main_v19 (((cfg3.win 2).blk t).view.emb j) = V c main_v19 j
  congr 1
  funext a; apply Fin.ext
  match a with
  | ⟨0, _⟩ => show win3_2.index t (0 : Fin 2) * 1 + 1 * (j 0).val = (j 0).val; omega
  | ⟨1, _⟩ => show win3_2.index t (1 : Fin 2) * 1024 + 1 * (j 1).val = (j 1).val; omega

abbrev G3 (c : Dev nD) : Vec F S1x1024 .f32 := k3_pay1 (V c main_v18) (V c main_arg6) (V c main_v19)

theorem flushed3_eq (c : Dev nD) (t : Fin cfg3.N) :
    (dat3 V c).flushed 3 t = ((cfg3.win 3).blk t).view.read (Elt F) (G3 V c) := by
  show (cfg3.win 3).cut (grid3.coords t) ((dat3 V c).after 3 t) = _
  rw [after3_3]
  unfold out3_3
  rw [View.canon_unit_zero hz3]
  simp only [View.ld_unit_zero (S := S1x2048) hz3, View.ld_unit_zero (S := S1024x2048) hz3, View.ld_unit_zero (S := S1x1024) hz3]
  rw [iblk3_0_eq, iblk3_1_eq, iblk3_2_eq]
  obtain ⟨-, -, -, -, -, -, e0, e1⟩ := idx_facts3 t
  funext j
  show G3 V c j = G3 V c (((cfg3.win 3).blk t).view.emb j)
  congr 1
  funext a; apply Fin.ext
  match a with
  | ⟨0, _⟩ => show (j 0).val = win3_3.index t (0 : Fin 2) * 1 + 1 * (j 0).val; omega
  | ⟨1, _⟩ => show (j 1).val = win3_3.index t (1 : Fin 2) * 1024 + 1 * (j 1).val; omega

theorem mem_blk3 (t : Fin cfg3.N) (i : S1x1024.Idx) :
    i ∈ ((cfg3.win 3).blk t).view.set ↔ ∀ a : Fin 2, win3_3.index t a * S1x1024.size a ≤ (i a).val ∧ (i a).val < win3_3.index t a * S1x1024.size a + S1x1024.size a := by
  show i ∈ ((View.whole main_v20).slice (win3_3.rect t)).set ↔ _
  rw [View.set_slice_whole, Rect.mem_set_unit]
  exact Iff.rfl

theorem cover3 (i : S1x1024.Idx) : ∃ t : Fin cfg3.N, (cfg3.win 3).flush t = true ∧ i ∈ ((cfg3.win 3).blk t).view.set := by
  refine ⟨t3_0, flush3_3 t3_0, ?_⟩
  obtain ⟨-, -, -, -, -, -, e0, e1⟩ := idx_facts3 t3_0
  rw [mem_blk3]
  intro a
  match a with
  | ⟨0, _⟩ => show win3_3.index t3_0 (0 : Fin 2) * 1 ≤ (i 0).val ∧ (i 0).val < win3_3.index t3_0 (0 : Fin 2) * 1 + 1; have hi : (i 0).val < 1 := (i 0).isLt; omega
  | ⟨1, _⟩ => show win3_3.index t3_0 (1 : Fin 2) * 1024 ≤ (i 1).val ∧ (i 1).val < win3_3.index t3_0 (1 : Fin 2) * 1024 + 1024; have hi : (i 1).val < 1024 := (i 1).isLt; omega

theorem arrAt3_out (c : Dev nD) : (dat3 V c).arrAt 3 cfg3.N = k3_pay1 (V c main_v18) (V c main_arg6) (V c main_v19) :=
  (dat3 V c).arrAt_eq_of_cover 3 (G3 V c) (fun t _ => flushed3_eq V c t) cover3

end Regions

end Cert.KernelIdeal.Hand

end
-- ==== Proof.KI.Reg4.lean ====
import proofs.«409304_j78383153152469_3_alg».proof.Proof.Gen.KernelIdeal.Launch
import proofs.«409304_j78383153152469_3_alg».proof.Proof.Gen.KernelIdeal.Skeleton
import proofs.«409304_j78383153152469_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Regions

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S1x1024 := Rect.unit (s := S1x1024) ![0, 0] S1x1024.size inb_S1x1024_S1x1024_0_0
abbrev r4_1 : Rect S3072x1024 := Rect.unit (s := S3072x1024) ![0, 0] S3072x1024.size inb_S3072x1024_S3072x1024_0_0
abbrev r4_2 : Rect S1x3072 := Rect.unit (s := S1x3072) ![0, 0] S1x3072.size inb_S1x3072_S1x3072_0_0
abbrev r4_3 : Rect S1x3072 := Rect.unit (s := S1x3072) ![0, 0] S1x3072.size inb_S1x3072_S1x3072_0_0

def out4_3 (x0 : Vec F S1x1024 .f32) (x1 : Vec F S3072x1024 .f32) (x2 : Vec F S1x3072 .f32) : Vec F S1x3072 .f32 :=
  View.canon [⟨r4_3, k4_pay1 (View.ld x0 r4_0) (View.ld x1 r4_1) (View.ld x2 r4_2)⟩]

theorem cover4_3 (p0 : Vec F S1x3072 .f32) (y : S1x3072.Idx) :
    ∃ pc ∈ ([⟨r4_3, p0⟩] : List (View.Piece (Elt F) S1x3072 .f32)), y ∈ pc.1.set :=
  View.cover_of_tiled [⟨r4_3, p0⟩] S1x3072.size (by rfl) y

set_option maxHeartbeats 1000000 in

theorem sound_kernel4 (c : Dev nD) (E : Set ℕ) (i : grid4.Coords) (arg0 : Memref sig .tc .vmem S1x1024 .f32) (harg0 : arg0.IsWhole) (arg1 : Memref sig .tc .vmem S3072x1024 .f32) (harg1 : arg1.IsWhole) (arg2 : Memref sig .tc .vmem S1x3072 .f32) (harg2 : arg2.IsWhole) (arg3 : Memref sig .tc .vmem S1x3072 .f32) (harg3 : arg3.IsWhole)
    (x0 : Vec F S1x1024 .f32) (x1 : Vec F S3072x1024 .f32) (x2 : Vec F S1x3072 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out4_3 x0 x1 x2)) -∗ K ⟨⟩))
      ⊢ wp frame (wpE (defs₀ (F := F)) Variants.none c none) E (cc4_kernel i arg0 harg0 arg1 harg1 arg2 harg2 arg3 harg3) K := by
  simp only [cc4_kernel_eq_skeleton]; unfold cc4_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation4 (c : Dev nD) : BodyObligation (dat4 (F := F) V c) (defs₀ (F := F)) Variants.none () Set.univ := fun t => by
  rw [bigSep_W4, bigSep_W4]
  exact sound_body4 V c t

theorem hz4 : (![0, 0] : Fin 2 → Nat) = fun _ => 0 := funext fun a => by fin_cases a <;> rfl

theorem arrAt4_in (c : Dev nD) (w : Fin cfg4.W) (hw : (cfg4.win w).isOut = false) :
    (dat4 V c).arrAt w cfg4.N = V c (Pipeline.arrRef spec4 w) :=
  ((dat4 V c).arrAt_in w hw _).trans (A_eq4 V c w)

theorem idx_facts4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

theorem iblk4_0_eq (c : Dev nD) (t : Fin cfg4.N) : iblk4 V c 0 t = (V c main_v21 : Vec F S1x1024 .f32) := by
  obtain ⟨e0, e1, -⟩ := idx_facts4 t
  unfold iblk4
  funext j
  show V c main_v21 (((cfg4.win 0).blk t).view.emb j) = V c main_v21 j
  congr 1
  funext a; apply Fin.ext
  match a with
  | ⟨0, _⟩ => show win4_0.index t (0 : Fin 2) * 1 + 1 * (j 0).val = (j 0).val; omega
  | ⟨1, _⟩ => show win4_0.index t (1 : Fin 2) * 1024 + 1 * (j 1).val = (j 1).val; omega

theorem iblk4_1_eq (c : Dev nD) (t : Fin cfg4.N) : iblk4 V c 1 t = (V c main_arg8 : Vec F S3072x1024 .f32) := by
  obtain ⟨-, -, e0, e1, -⟩ := idx_facts4 t
  unfold iblk4
  funext j
  show V c main_arg8 (((cfg4.win 1).blk t).view.emb j) = V c main_arg8 j
  congr 1
  funext a; apply Fin.ext
  match a with
  | ⟨0, _⟩ => show win4_1.index t (0 : Fin 2) * 3072 + 1 * (j 0).val = (j 0).val; omega
  | ⟨1, _⟩ => show win4_1.index t (1 : Fin 2) * 1024 + 1 * (j 1).val = (j 1).val; omega

theorem iblk4_2_eq (c : Dev nD) (t : Fin cfg4.N) : iblk4 V c 2 t = (V c main_v22 : Vec F S1x3072 .f32) := by
  obtain ⟨-, -, -, -, e0, e1, -⟩ := idx_facts4 t
  unfold iblk4
  funext j
  show V c main_v22 (((cfg4.win 2).blk t).view.emb j) = V c main_v22 j
  congr 1
  funext a; apply Fin.ext
  match a with
  | ⟨0, _⟩ => show win4_2.index t (0 : Fin 2) * 1 + 1 * (j 0).val = (j 0).val; omega
  | ⟨1, _⟩ => show win4_2.index t (1 : Fin 2) * 3072 + 1 * (j 1).val = (j 1).val; omega

abbrev G4 (c : Dev nD) : Vec F S1x3072 .f32 := k4_pay1 (V c main_v21) (V c main_arg8) (V c main_v22)

theorem flushed4_eq (c : Dev nD) (t : Fin cfg4.N) :
    (dat4 V c).flushed 3 t = ((cfg4.win 3).blk t).view.read (Elt F) (G4 V c) := by
  show (cfg4.win 3).cut (grid4.coords t) ((dat4 V c).after 3 t) = _
  rw [after4_3]
  unfold out4_3
  rw [View.canon_unit_zero hz4]
  simp only [View.ld_unit_zero (S := S1x1024) hz4, View.ld_unit_zero (S := S3072x1024) hz4, View.ld_unit_zero (S := S1x3072) hz4]
  rw [iblk4_0_eq, iblk4_1_eq, iblk4_2_eq]
  obtain ⟨-, -, -, -, -, -, e0, e1⟩ := idx_facts4 t
  funext j
  show G4 V c j = G4 V c (((cfg4.win 3).blk t).view.emb j)
  congr 1
  funext a; apply Fin.ext
  match a with
  | ⟨0, _⟩ => show (j 0).val = win4_3.index t (0 : Fin 2) * 1 + 1 * (j 0).val; omega
  | ⟨1, _⟩ => show (j 1).val = win4_3.index t (1 : Fin 2) * 3072 + 1 * (j 1).val; omega

theorem mem_blk4 (t : Fin cfg4.N) (i : S1x3072.Idx) :
    i ∈ ((cfg4.win 3).blk t).view.set ↔ ∀ a : Fin 2, win4_3.index t a * S1x3072.size a ≤ (i a).val ∧ (i a).val < win4_3.index t a * S1x3072.size a + S1x3072.size a := by
  show i ∈ ((View.whole main_v24).slice (win4_3.rect t)).set ↔ _
  rw [View.set_slice_whole, Rect.mem_set_unit]
  exact Iff.rfl

theorem cover4 (i : S1x3072.Idx) : ∃ t : Fin cfg4.N, (cfg4.win 3).flush t = true ∧ i ∈ ((cfg4.win 3).blk t).view.set := by
  refine ⟨t4_0, flush4_3 t4_0, ?_⟩
  obtain ⟨-, -, -, -, -, -, e0, e1⟩ := idx_facts4 t4_0
  rw [mem_blk4]
  intro a
  match a with
  | ⟨0, _⟩ => show win4_3.index t4_0 (0 : Fin 2) * 1 ≤ (i 0).val ∧ (i 0).val < win4_3.index t4_0 (0 : Fin 2) * 1 + 1; have hi : (i 0).val < 1 := (i 0).isLt; omega
  | ⟨1, _⟩ => show win4_3.index t4_0 (1 : Fin 2) * 3072 ≤ (i 1).val ∧ (i 1).val < win4_3.index t4_0 (1 : Fin 2) * 3072 + 3072; have hi : (i 1).val < 3072 := (i 1).isLt; omega

theorem arrAt4_out (c : Dev nD) : (dat4 V c).arrAt 3 cfg4.N = k4_pay1 (V c main_v21) (V c main_arg8) (V c main_v22) :=
  (dat4 V c).arrAt_eq_of_cover 3 (G4 V c) (fun t _ => flushed4_eq V c t) cover4

end Regions

end Cert.KernelIdeal.Hand

end
-- ==== Proof.KI.Reg5.lean ====
import proofs.«409304_j78383153152469_3_alg».proof.Proof.Gen.KernelIdeal.Launch
import proofs.«409304_j78383153152469_3_alg».proof.Proof.Gen.KernelIdeal.Skeleton
import proofs.«409304_j78383153152469_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Regions

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S1x1024 := Rect.unit (s := S1x1024) ![0, 0] S1x1024.size inb_S1x1024_S1x1024_0_0
abbrev r5_1 : Rect S3072x1024 := Rect.unit (s := S3072x1024) ![0, 0] S3072x1024.size inb_S3072x1024_S3072x1024_0_0
abbrev r5_2 : Rect S1x3072 := Rect.unit (s := S1x3072) ![0, 0] S1x3072.size inb_S1x3072_S1x3072_0_0
abbrev r5_3 : Rect S1x3072 := Rect.unit (s := S1x3072) ![0, 0] S1x3072.size inb_S1x3072_S1x3072_0_0

def out5_3 (x0 : Vec F S1x1024 .f32) (x1 : Vec F S3072x1024 .f32) (x2 : Vec F S1x3072 .f32) : Vec F S1x3072 .f32 :=
  View.canon [⟨r5_3, k5_pay1 (View.ld x0 r5_0) (View.ld x1 r5_1) (View.ld x2 r5_2)⟩]

theorem cover5_3 (p0 : Vec F S1x3072 .f32) (y : S1x3072.Idx) :
    ∃ pc ∈ ([⟨r5_3, p0⟩] : List (View.Piece (Elt F) S1x3072 .f32)), y ∈ pc.1.set :=
  View.cover_of_tiled [⟨r5_3, p0⟩] S1x3072.size (by rfl) y

set_option maxHeartbeats 1000000 in

theorem sound_kernel5 (c : Dev nD) (E : Set ℕ) (i : grid5.Coords) (arg0 : Memref sig .tc .vmem S1x1024 .f32) (harg0 : arg0.IsWhole) (arg1 : Memref sig .tc .vmem S3072x1024 .f32) (harg1 : arg1.IsWhole) (arg2 : Memref sig .tc .vmem S1x3072 .f32) (harg2 : arg2.IsWhole) (arg3 : Memref sig .tc .vmem S1x3072 .f32) (harg3 : arg3.IsWhole)
    (x0 : Vec F S1x1024 .f32) (x1 : Vec F S3072x1024 .f32) (x2 : Vec F S1x3072 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out5_3 x0 x1 x2)) -∗ K ⟨⟩))
      ⊢ wp frame (wpE (defs₀ (F := F)) Variants.none c none) E (cc5_kernel i arg0 harg0 arg1 harg1 arg2 harg2 arg3 harg3) K := by
  simp only [cc5_kernel_eq_skeleton]; unfold cc5_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

theorem hz5 : (![0, 0] : Fin 2 → Nat) = fun _ => 0 := funext fun a => by fin_cases a <;> rfl

theorem arrAt5_in (c : Dev nD) (w : Fin cfg5.W) (hw : (cfg5.win w).isOut = false) :
    (dat5 V c).arrAt w cfg5.N = V c (Pipeline.arrRef spec5 w) :=
  ((dat5 V c).arrAt_in w hw _).trans (A_eq5 V c w)

theorem idx_facts5 : ∀ t : Fin cfg5.N, win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0 :=
  (by decide +kernel : ∀ t : Fin grid5.N, _)

theorem iblk5_0_eq (c : Dev nD) (t : Fin cfg5.N) : iblk5 V c 0 t = (V c main_v2 : Vec F S1x1024 .f32) := by
  obtain ⟨e0, e1, -⟩ := idx_facts5 t
  unfold iblk5
  funext j
  show V c main_v2 (((cfg5.win 0).blk t).view.emb j) = V c main_v2 j
  congr 1
  funext a; apply Fin.ext
  match a with
  | ⟨0, _⟩ => show win5_0.index t (0 : Fin 2) * 1 + 1 * (j 0).val = (j 0).val; omega
  | ⟨1, _⟩ => show win5_0.index t (1 : Fin 2) * 1024 + 1 * (j 1).val = (j 1).val; omega

theorem iblk5_1_eq (c : Dev nD) (t : Fin cfg5.N) : iblk5 V c 1 t = (V c main_arg9 : Vec F S3072x1024 .f32) := by
  obtain ⟨-, -, e0, e1, -⟩ := idx_facts5 t
  unfold iblk5
  funext j
  show V c main_arg9 (((cfg5.win 1).blk t).view.emb j) = V c main_arg9 j
  congr 1
  funext a; apply Fin.ext
  match a with
  | ⟨0, _⟩ => show win5_1.index t (0 : Fin 2) * 3072 + 1 * (j 0).val = (j 0).val; omega
  | ⟨1, _⟩ => show win5_1.index t (1 : Fin 2) * 1024 + 1 * (j 1).val = (j 1).val; omega

theorem iblk5_2_eq (c : Dev nD) (t : Fin cfg5.N) : iblk5 V c 2 t = (V c main_v23 : Vec F S1x3072 .f32) := by
  obtain ⟨-, -, -, -, e0, e1, -⟩ := idx_facts5 t
  unfold iblk5
  funext j
  show V c main_v23 (((cfg5.win 2).blk t).view.emb j) = V c main_v23 j
  congr 1
  funext a; apply Fin.ext
  match a with
  | ⟨0, _⟩ => show win5_2.index t (0 : Fin 2) * 1 + 1 * (j 0).val = (j 0).val; omega
  | ⟨1, _⟩ => show win5_2.index t (1 : Fin 2) * 3072 + 1 * (j 1).val = (j 1).val; omega

abbrev G5 (c : Dev nD) : Vec F S1x3072 .f32 := k5_pay1 (V c main_v2) (V c main_arg9) (V c main_v23)

theorem flushed5_eq (c : Dev nD) (t : Fin cfg5.N) :
    (dat5 V c).flushed 3 t = ((cfg5.win 3).blk t).view.read (Elt F) (G5 V c) := by
  show (cfg5.win 3).cut (grid5.coords t) ((dat5 V c).after 3 t) = _
  rw [after5_3]
  unfold out5_3
  rw [View.canon_unit_zero hz5]
  simp only [View.ld_unit_zero (S := S1x1024) hz5, View.ld_unit_zero (S := S3072x1024) hz5, View.ld_unit_zero (S := S1x3072) hz5]
  rw [iblk5_0_eq, iblk5_1_eq, iblk5_2_eq]
  obtain ⟨-, -, -, -, -, -, e0, e1⟩ := idx_facts5 t
  funext j
  show G5 V c j = G5 V c (((cfg5.win 3).blk t).view.emb j)
  congr 1
  funext a; apply Fin.ext
  match a with
  | ⟨0, _⟩ => show (j 0).val = win5_3.index t (0 : Fin 2) * 1 + 1 * (j 0).val; omega
  | ⟨1, _⟩ => show (j 1).val = win5_3.index t (1 : Fin 2) * 3072 + 1 * (j 1).val; omega

theorem mem_blk5 (t : Fin cfg5.N) (i : S1x3072.Idx) :
    i ∈ ((cfg5.win 3).blk t).view.set ↔ ∀ a : Fin 2, win5_3.index t a * S1x3072.size a ≤ (i a).val ∧ (i a).val < win5_3.index t a * S1x3072.size a + S1x3072.size a := by
  show i ∈ ((View.whole main_v25).slice (win5_3.rect t)).set ↔ _
  rw [View.set_slice_whole, Rect.mem_set_unit]
  exact Iff.rfl

theorem cover5 (i : S1x3072.Idx) : ∃ t : Fin cfg5.N, (cfg5.win 3).flush t = true ∧ i ∈ ((cfg5.win 3).blk t).view.set := by
  refine ⟨t5_0, flush5_3 t5_0, ?_⟩
  obtain ⟨-, -, -, -, -, -, e0, e1⟩ := idx_facts5 t5_0
  rw [mem_blk5]
  intro a
  match a with
  | ⟨0, _⟩ => show win5_3.index t5_0 (0 : Fin 2) * 1 ≤ (i 0).val ∧ (i 0).val < win5_3.index t5_0 (0 : Fin 2) * 1 + 1; have hi : (i 0).val < 1 := (i 0).isLt; omega
  | ⟨1, _⟩ => show win5_3.index t5_0 (1 : Fin 2) * 3072 ≤ (i 1).val ∧ (i 1).val < win5_3.index t5_0 (1 : Fin 2) * 3072 + 3072; have hi : (i 1).val < 3072 := (i 1).isLt; omega

theorem arrAt5_out (c : Dev nD) : (dat5 V c).arrAt 3 cfg5.N = k5_pay1 (V c main_v2) (V c main_arg9) (V c main_v23) :=
  (dat5 V c).arrAt_eq_of_cover 3 (G5 V c) (fun t _ => flushed5_eq V c t) cover5

end Regions

end Cert.KernelIdeal.Hand

end
-- ==== Proof.KI.HostVals.lean ====
import proofs.«409304_j78383153152469_3_alg».proof.Proof.Gen.KernelIdeal.Launch
import proofs.«409304_j78383153152469_3_alg».proof.Proof.Gen.KernelIdeal.Regions
import Idealize.ShloMosaic.Lib.StableHlo.Run
import Idealize.ShloMosaic.Lib.ValueIdx

set_option maxRecDepth 1032

noncomputable section

namespace Cert.KernelIdeal.Hand

open Idealize.ShloMosaic Idealize.ShloMosaic.TcCoe
open Cert.KernelIdeal Cert.KernelIdeal.Gen

variable {F : FTy → Type} [FloatOps F]

abbrev mainArgs : List (Ref sig .tc) :=
  [main_arg0, main_arg1, main_arg2, main_arg3, main_arg4, main_arg5, main_arg6, main_arg7, main_arg8, main_arg9, main_arg10, main_arg11, main_arg12, main_arg13]

def flat1x1x1024 (x : FVec F S1x1x1024 .f32) : FVec F S1x1024 .f32 :=
  shapeCast S1x1024 x shapeCasts_S1x1x1024_S1x1024

def row512 (x : FVec F S512 .f32) : FVec F S1x512 .f32 :=
  shapeCast S1x512 x shapeCasts_S512_S1x512

def row1024 (x : FVec F S1024 .f32) : FVec F S1x1024 .f32 :=
  shapeCast S1x1024 x shapeCasts_S1024_S1x1024

def row3072 (x : FVec F S3072 .f32) : FVec F S1x3072 .f32 :=
  shapeCast S1x3072 x shapeCasts_S3072_S1x3072

def row50257 (x : FVec F S50257 .f32) : FVec F S1x50257 .f32 :=
  shapeCast S1x50257 x shapeCasts_S50257_S1x50257

def cat2 (a b : FVec F S1x1024 .f32) : FVec F S1x2048 .f32 :=
  concatenate S1x2048 1 [⟨S1x1024, a⟩, ⟨S1x1024, b⟩] concatenates_S1x1024_S1x1024_S1x2048_d1

def reluOps (x : FVec F S1x1024 .f32) : FVec F S1x1024 .f32 :=
  maximumf x (broadcastInDim S1x1024 ![] bcast_S_S1x1024 (constant (F := F) S_ .f32 0x00000000#32))

def lift1x1024 (x : FVec F S1x1024 .f32) : FVec F S1x1x1024 .f32 :=
  broadcastInDim S1x1x1024 ![1, 2] bcast_S1x1024_S1x1x1024_1_2 x

theorem after1_v2 (W : Valuation τ sig (Elt F)) :
    StableHlo.after hostOps1 W (Proc.devRef .tc main_v2) = flat1x1x1024 (F := F) (W (Proc.devRef .tc main_arg1)) := by
  after_results; rfl

theorem after1_v3 (W : Valuation τ sig (Elt F)) :
    StableHlo.after hostOps1 W (Proc.devRef .tc main_v3)
      = cat2 (F := F) (W (Proc.devRef .tc main_v1)) (flat1x1x1024 (F := F) (W (Proc.devRef .tc main_arg1))) := by
  after_results; rfl

theorem after1_v4 (W : Valuation τ sig (Elt F)) :
    StableHlo.after hostOps1 W (Proc.devRef .tc main_v4) = row512 (F := F) (W (Proc.devRef .tc main_arg5)) := by
  after_results; rfl

theorem after3_v18 (W : Valuation τ sig (Elt F)) :
    StableHlo.after hostOps3 W (Proc.devRef .tc main_v18)
      = cat2 (F := F) (W (Proc.devRef .tc main_v1)) (W (Proc.devRef .tc main_v17)) := by
  after_results; rfl

theorem after3_v19 (W : Valuation τ sig (Elt F)) :
    StableHlo.after hostOps3 W (Proc.devRef .tc main_v19) = row1024 (F := F) (W (Proc.devRef .tc main_arg7)) := by
  after_results; rfl

theorem after4_v21 (W : Valuation τ sig (Elt F)) :
    StableHlo.after hostOps4 W (Proc.devRef .tc main_v21) = reluOps (F := F) (W (Proc.devRef .tc main_v20)) := by
  after_results; rfl

theorem after4_1_v22 (W : Valuation τ sig (Elt F)) :
    StableHlo.after hostOps4_1 W (Proc.devRef .tc main_v22) = row3072 (F := F) (W (Proc.devRef .tc main_arg10)) := by
  after_results; rfl

theorem after4_1_v23 (W : Valuation τ sig (Elt F)) :
    StableHlo.after hostOps4_1 W (Proc.devRef .tc main_v23) = row3072 (F := F) (W (Proc.devRef .tc main_arg11)) := by
  after_results; rfl

theorem after7_1_v57 (W : Valuation τ sig (Elt F)) :
    StableHlo.after hostOps7_1 W (Proc.devRef .tc main_v57) = lift1x1024 (F := F) (W (Proc.devRef .tc main_v53)) := by
  after_results; rfl

def clipOps (t : IVec S1 32) : IVec S1 32 :=
  minsi (broadcastInDim S1 ![] bcast_S_S1 (constantI S_ 32 50256#32))
    (maxsi (broadcastInDim S1 ![] bcast_S_S1 (constantI S_ 32 0#32)) t)

theorem after01_v0 (W : Valuation τ sig (Elt F)) :
    StableHlo.after hostOps0_1 (StableHlo.after (hostOps0 (F := F)) W) (Proc.devRef .tc main_v0)
      = clipOps (W (Proc.devRef .tc main_arg0)) := by
  after_results; rfl

theorem clipOps_apply (t : IVec S1 32) (i : S1.Idx) :
    clipOps t i = IntOp.minsi 50256#32 (IntOp.maxsi 0#32 (t i)) := rfl

theorem clampWord_cases (x : BitVec 32) :
    IntOp.minsi 50256#32 (IntOp.maxsi 0#32 x)
      = if x.toInt < 0 then 0#32 else if 50256 < x.toInt then 50256#32 else x := by
  have h0 : (0#32 : BitVec 32).toInt = 0 := by decide
  have h1 : (50256#32 : BitVec 32).toInt = 50256 := by decide
  unfold IntOp.minsi IntOp.maxsi
  simp only [BitVec.slt, h0, h1]
  by_cases hx : x.toInt < 0
  · simp only [hx, decide_true, if_true, h0]
    rw [if_neg (by decide)]
  · simp only [hx, decide_false, if_false, Bool.false_eq_true]
    by_cases hy : (50256 : Int) < x.toInt
    · simp only [hy, decide_true, if_true]
    · simp only [hy, decide_false, if_false, Bool.false_eq_true]

theorem clipOps_toNat_succ_le (t : IVec S1 32) (i : S1.Idx) : (clipOps t i).toNat + 1 ≤ 50257 := by
  rw [clipOps_apply, clampWord_cases]
  split_ifs with h1 h2
  · decide
  · decide
  · have hx := BitVec.toInt_eq_toNat_cond (t i)
    have hlt := (t i).isLt
    split_ifs at hx <;> omega

theorem clipOps_eq_self (t : IVec S1 32) (i : S1.Idx) (h0 : 0 ≤ (t i).toInt) (h1 : (t i).toInt < 50257) :
    clipOps t i = t i := by
  rw [clipOps_apply, clampWord_cases, if_neg (by omega), if_neg (by omega)]

theorem clipOps_ix_succ_le (t : IVec S1 32) : (clipOps t (ValueIdx.ix1 0)).toNat + 1 ≤ 50257 :=
  clipOps_toNat_succ_le t _

theorem clipOps_ix_eq_self (t : IVec S1 32) (h0 : 0 ≤ (t (ValueIdx.ix1 0)).toInt) (h1 : (t (ValueIdx.ix1 0)).toInt < 50257) :
    clipOps t (ValueIdx.ix1 0) = t (ValueIdx.ix1 0) :=
  clipOps_eq_self t _ h0 h1

def softmaxOps (x : FVec F S1x512 .f32) : FVec F S1x512 .f32 :=
  let v6 : FVec F S1 .f32 :=
    Host.reduce FloatOps.maximumf x (constant (F := F) S_ .f32 0xFF800000#32) reducesTo_S1x512_S1_d1 h_S_
  let v7 : FVec F S1 .f32 := broadcastInDim S1 ![] bcast_S_S1 (constant (F := F) S_ .f32 0xFF800000#32)
  let v8 : FVec F S1 .f32 := maximumf v7 v6
  let v9 : FVec F S1x1 .f32 := broadcastInDim S1x1 ![0] bcast_S1_S1x1_0 v8
  let v10 : FVec F S1x512 .f32 := broadcastInDim S1x512 ![0, 1] bcast_S1x1_S1x512_0_1 v9
  let v11 : FVec F S1x512 .f32 := subf x v10
  let v12 : FVec F S1x512 .f32 := Host.exp v11
  let v13 : FVec F S1 .f32 :=
    Host.reduceAdd v12 (constant (F := F) S_ .f32 0x00000000#32) reducesTo_S1x512_S1_d1 h_S_
  let v14 : FVec F S1x1 .f32 := broadcastInDim S1x1 ![0] bcast_S1_S1x1_0 v13
  let v15 : FVec F S1x512 .f32 := broadcastInDim S1x512 ![0, 1] bcast_S1x1_S1x512_0_1 v14
  Host.divf v12 v15

theorem after2_v16 (W : Valuation τ sig (Elt F)) :
    StableHlo.after hostOps2 W (Proc.devRef .tc main_v16) = softmaxOps (F := F) (W (Proc.devRef .tc main_v5)) := by
  after_results; rfl

def logSoftmaxOps (x : FVec F S1x50257 .f32) : FVec F S1x50257 .f32 :=
  let v0 : FVec F S1 .f32 :=
    Host.reduce FloatOps.maximumf x (constant (F := F) S_ .f32 0xFF800000#32) reducesTo_S1x50257_S1_d1 h_S_
  let v1 : FVec F S1 .f32 := broadcastInDim S1 ![] bcast_S_S1 (constant (F := F) S_ .f32 0xFF800000#32)
  let v2 : FVec F S1 .f32 := maximumf v1 v0
  let v3 : FVec F S1x1 .f32 := broadcastInDim S1x1 ![0] bcast_S1_S1x1_0 v2
  let v4 : FVec F S1x50257 .f32 := broadcastInDim S1x50257 ![0, 1] bcast_S1x1_S1x50257_0_1 v3
  let v5 : FVec F S1x50257 .f32 := subf x v4
  let v6 : FVec F S1x50257 .f32 := Host.exp v5
  let v7 : FVec F S1 .f32 :=
    Host.reduceAdd v6 (constant (F := F) S_ .f32 0x00000000#32) reducesTo_S1x50257_S1_d1 h_S_
  let v8 : FVec F S1x1 .f32 := broadcastInDim S1x1 ![0] bcast_S1_S1x1_0 v7
  let v9 : FVec F S1x1 .f32 := Host.log v8
  let v10 : FVec F S1x50257 .f32 := broadcastInDim S1x50257 ![0, 1] bcast_S1x1_S1x50257_0_1 v9
  subf v5 v10

theorem ofBuf_toBuf {T : BufTy} (x : StableHlo.TRef sig T) (v : T.Contents (Elt F)) :
    x.ofBuf (Val := Elt F) (x.toBuf v) = v := by
  obtain ⟨r, h, h1, h2⟩ := x; subst h; rfl

theorem after7_v56 (W : Valuation τ sig (Elt F)) :
    StableHlo.after hostOps7 W (Proc.devRef .tc main_v56) = logSoftmaxOps (F := F) (W (Proc.devRef .tc main_v55)) := by
  after_results
  simp only [ofBuf_toBuf]
  rfl

def gruOps (gi gh : FVec F S1x3072 .f32) (h0 : FVec F S1x1024 .f32) : FVec F S1x1024 .f32 :=
  let one : FVec F S1x1024 .f32 :=
    broadcastInDim S1x1024 ![] bcast_S_S1x1024 (constant (F := F) S_ .f32 0x3F800000#32)
  let v26 : FVec F S1x1024 .f32 := extractStridedSlice S1x1024 ![0, 0] gi slices_S1x3072_S1x1024_0_0
  let v27 : FVec F S1x1024 .f32 := extractStridedSlice S1x1024 ![0, 1024] gi slices_S1x3072_S1x1024_0_1024
  let v28 : FVec F S1x1024 .f32 := extractStridedSlice S1x1024 ![0, 2048] gi slices_S1x3072_S1x1024_0_2048
  let v29 : FVec F S1x1024 .f32 := extractStridedSlice S1x1024 ![0, 0] gh slices_S1x3072_S1x1024_0_0
  let v30 : FVec F S1x1024 .f32 := extractStridedSlice S1x1024 ![0, 1024] gh slices_S1x3072_S1x1024_0_1024
  let v31 : FVec F S1x1024 .f32 := extractStridedSlice S1x1024 ![0, 2048] gh slices_S1x3072_S1x1024_0_2048
  let v32 : FVec F S1x1024 .f32 := addf v26 v29
  let v33 : FVec F S1x1024 .f32 := Host.negf v32
  let v34 : FVec F S1x1024 .f32 := Host.exp v33
  let v36 : FVec F S1x1024 .f32 := addf one v34
  let v38 : FVec F S1x1024 .f32 := Host.divf one v36
  let v39 : FVec F S1x1024 .f32 := addf v27 v30
  let v40 : FVec F S1x1024 .f32 := Host.negf v39
  let v41 : FVec F S1x1024 .f32 := Host.exp v40
  let v43 : FVec F S1x1024 .f32 := addf one v41
  let v45 : FVec F S1x1024 .f32 := Host.divf one v43
  let v46 : FVec F S1x1024 .f32 := mulf v38 v31
  let v47 : FVec F S1x1024 .f32 := addf v28 v46
  let v48 : FVec F S1x1024 .f32 := Host.tanh v47
  let v50 : FVec F S1x1024 .f32 := subf one v45
  let v51 : FVec F S1x1024 .f32 := mulf v50 v48
  let v52 : FVec F S1x1024 .f32 := mulf v45 h0
  addf v51 v52

theorem after6_v53 (W : Valuation τ sig (Elt F)) :
    StableHlo.after hostOps6 W (Proc.devRef .tc main_v53)
      = gruOps (F := F) (W (Proc.devRef .tc main_v24)) (W (Proc.devRef .tc main_v25)) (W (Proc.devRef .tc main_v2)) := by
  after_results_simp; rfl

theorem after6_v54 (W : Valuation τ sig (Elt F)) :
    StableHlo.after hostOps6 W (Proc.devRef .tc main_v54) = row50257 (F := F) (W (Proc.devRef .tc main_arg13)) := by
  after_results_simp; rfl

end Cert.KernelIdeal.Hand

end
-- ==== Proof.KI.Fold.lean ====
import proofs.«409304_j78383153152469_3_alg».proof.Proof.Gen.KernelIdeal.Launch
import proofs.«409304_j78383153152469_3_alg».proof.Proof.Gen.KernelIdeal.Skeleton
import proofs.«409304_j78383153152469_3_alg».proof.Proof.Gen.KernelIdeal.Points
import proofs.«409304_j78383153152469_3_alg».proof.Proof.Gen.KernelIdeal.Regions
import proofs.«409304_j78383153152469_3_alg».proof.Proof.KI.Reg0
import proofs.«409304_j78383153152469_3_alg».proof.Proof.KI.Reg1
import proofs.«409304_j78383153152469_3_alg».proof.Proof.KI.Reg2
import proofs.«409304_j78383153152469_3_alg».proof.Proof.KI.Reg3
import proofs.«409304_j78383153152469_3_alg».proof.Proof.KI.Reg4
import proofs.«409304_j78383153152469_3_alg».proof.Proof.KI.Reg5
import proofs.«409304_j78383153152469_3_alg».proof.Proof.KI.Reg6
import proofs.«409304_j78383153152469_3_alg».proof.Proof.KI.HostVals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev W2 : Dev nD → Valuation τ sig (Elt F) := fun c => StableHlo.after hostOps0_1 (W1 m ρ c)

abbrev V2 : (c : Dev nD) → (b : Ref sig .tc) → Buf (Elt F) ((c : Thread nD τ).loc b) := fun c b => W2 m ρ c b

def tbl : pre0.Contents (Elt F) := fun j => match j, ρ with
  | ⟨0, _⟩, _ => (clipOps (m (((0 : Dev nD) : Thread nD τ).loc main_arg0)) : IVec S1 32)

theorem tbl_V2 (j : Fin 1) : V2 m ρ (0 : Dev nD) (pre0.ref j) = tbl m ρ j := by
  match j with
  | ⟨0, _⟩ => exact after01_v0 (W0 m ρ (0 : Dev nD))

abbrev adm0 : (pcfg0 (F := F)).Adm := ⟨tbl m ρ, trivial⟩

def W3 (c : Dev nD) : Valuation τ sig (Elt F) :=
  Pipeline.withArrays spec0 c (W2 m ρ c) fun w => (dat0 (V2 m ρ) (adm0 m ρ) c).arrAt w (cfg0 (adm0 m ρ)).N
theorem W3_arr (c : Dev nD) (w : Fin 1) :
    W3 m ρ c (Proc.devRef .tc (Pipeline.arrRef spec0 w)) = (dat0 (V2 m ρ) (adm0 m ρ) c).arrAt w (cfg0 (adm0 m ρ)).N := by
  unfold W3; exact Pipeline.withArrays_arr spec0 (launch0 (F := F)).win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb

abbrev V3 : (c : Dev nD) → (b : Ref sig .tc) → Buf (Elt F) ((c : Thread nD τ).loc b) := fun c b => W3 m ρ c b
theorem hF0 (c : Dev nD) (w : Fin 1) : (dat0 (V2 m ρ) (adm0 m ρ) c).arrAt w (cfg0 (adm0 m ρ)).N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

abbrev W4 : Dev nD → Valuation τ sig (Elt F) := fun c => StableHlo.after hostOps1 (W3 m ρ c)

abbrev V4 : (c : Dev nD) → (b : Ref sig .tc) → Buf (Elt F) ((c : Thread nD τ).loc b) := fun c b => W4 m ρ c b

def W5 (c : Dev nD) : Valuation τ sig (Elt F) :=
  Pipeline.withArrays spec1 c (W4 m ρ c) fun w => (dat1 (V4 m ρ) c).arrAt w cfg1.N
theorem W5_arr (c : Dev nD) (w : Fin 4) :
    W5 m ρ c (Proc.devRef .tc (Pipeline.arrRef spec1 w)) = (dat1 (V4 m ρ) c).arrAt w cfg1.N := by
  unfold W5; exact Pipeline.withArrays_arr spec1 (launch1 (F := F)).win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb

abbrev V5 : (c : Dev nD) → (b : Ref sig .tc) → Buf (Elt F) ((c : Thread nD τ).loc b) := fun c b => W5 m ρ c b
theorem hF1 (c : Dev nD) (w : Fin 4) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

abbrev W6 : Dev nD → Valuation τ sig (Elt F) := fun c => StableHlo.after hostOps2 (W5 m ρ c)

abbrev V6 : (c : Dev nD) → (b : Ref sig .tc) → Buf (Elt F) ((c : Thread nD τ).loc b) := fun c b => W6 m ρ c b

def W7 (c : Dev nD) : Valuation τ sig (Elt F) :=
  Pipeline.withArrays spec2 c (W6 m ρ c) fun w => (dat2 (V6 m ρ) c).arrAt w cfg2.N
theorem W7_arr (c : Dev nD) (w : Fin 3) :
    W7 m ρ c (Proc.devRef .tc (Pipeline.arrRef spec2 w)) = (dat2 (V6 m ρ) c).arrAt w cfg2.N := by
  unfold W7; exact Pipeline.withArrays_arr spec2 (launch2 (F := F)).win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb

abbrev V7 : (c : Dev nD) → (b : Ref sig .tc) → Buf (Elt F) ((c : Thread nD τ).loc b) := fun c b => W7 m ρ c b
theorem hF2 (c : Dev nD) (w : Fin 3) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

abbrev W8 : Dev nD → Valuation τ sig (Elt F) := fun c => StableHlo.after hostOps3 (W7 m ρ c)

abbrev V8 : (c : Dev nD) → (b : Ref sig .tc) → Buf (Elt F) ((c : Thread nD τ).loc b) := fun c b => W8 m ρ c b

def W9 (c : Dev nD) : Valuation τ sig (Elt F) :=
  Pipeline.withArrays spec3 c (W8 m ρ c) fun w => (dat3 (V8 m ρ) c).arrAt w cfg3.N
theorem W9_arr (c : Dev nD) (w : Fin 4) :
    W9 m ρ c (Proc.devRef .tc (Pipeline.arrRef spec3 w)) = (dat3 (V8 m ρ) c).arrAt w cfg3.N := by
  unfold W9; exact Pipeline.withArrays_arr spec3 (launch3 (F := F)).win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb

abbrev V9 : (c : Dev nD) → (b : Ref sig .tc) → Buf (Elt F) ((c : Thread nD τ).loc b) := fun c b => W9 m ρ c b
theorem hF3 (c : Dev nD) (w : Fin 4) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)

abbrev W10 : Dev nD → Valuation τ sig (Elt F) := fun c => StableHlo.after hostOps4 (W9 m ρ c)

abbrev W11 : Dev nD → Valuation τ sig (Elt F) := fun c => StableHlo.after hostOps4_1 (W10 m ρ c)

abbrev V11 : (c : Dev nD) → (b : Ref sig .tc) → Buf (Elt F) ((c : Thread nD τ).loc b) := fun c b => W11 m ρ c b

def W12 (c : Dev nD) : Valuation τ sig (Elt F) :=
  Pipeline.withArrays spec4 c (W11 m ρ c) fun w => (dat4 (V11 m ρ) c).arrAt w cfg4.N
theorem W12_arr (c : Dev nD) (w : Fin 4) :
    W12 m ρ c (Proc.devRef .tc (Pipeline.arrRef spec4 w)) = (dat4 (V11 m ρ) c).arrAt w cfg4.N := by
  unfold W12; exact Pipeline.withArrays_arr spec4 (launch4 (F := F)).win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb

abbrev V12 : (c : Dev nD) → (b : Ref sig .tc) → Buf (Elt F) ((c : Thread nD τ).loc b) := fun c b => W12 m ρ c b
theorem hF4 (c : Dev nD) (w : Fin 4) : (dat4 (V11 m ρ) c).arrAt w cfg4.N = V12 m ρ c (Pipeline.arrRef spec4 w) :=
  (W12_arr m ρ c w).symm
theorem hrest4 (c : Dev nD) : ∀ b, b ∉ Finset.univ.image (Pipeline.arrRef spec4) → V12 m ρ c b = V11 m ρ c b :=
  fun b hb => W12_of_ne m ρ c b fun w e => hb (Finset.mem_image.mpr ⟨w, Finset.mem_univ _, e⟩)

def W13 (c : Dev nD) : Valuation τ sig (Elt F) :=
  Pipeline.withArrays spec5 c (W12 m ρ c) fun w => (dat5 (V12 m ρ) c).arrAt w cfg5.N
theorem W13_arr (c : Dev nD) (w : Fin 4) :
    W13 m ρ c (Proc.devRef .tc (Pipeline.arrRef spec5 w)) = (dat5 (V12 m ρ) c).arrAt w cfg5.N := by
  unfold W13; exact Pipeline.withArrays_arr spec5 (launch5 (F := F)).win.arr_inj c _ _ w
theorem W13_of_ne (c : Dev nD) (b : Ref sig .tc) (hb : ∀ w, Pipeline.arrRef spec5 w ≠ b) :
    W13 m ρ c (Proc.devRef .tc b) = W12 m ρ c (Proc.devRef .tc b) := by
  unfold W13; exact Pipeline.withArrays_of_ne spec5 c _ _ b hb

abbrev V13 : (c : Dev nD) → (b : Ref sig .tc) → Buf (Elt F) ((c : Thread nD τ).loc b) := fun c b => W13 m ρ c b
theorem hF5 (c : Dev nD) (w : Fin 4) : (dat5 (V12 m ρ) c).arrAt w cfg5.N = V13 m ρ c (Pipeline.arrRef spec5 w) :=
  (W13_arr m ρ c w).symm
theorem hrest5 (c : Dev nD) : ∀ b, b ∉ Finset.univ.image (Pipeline.arrRef spec5) → V13 m ρ c b = V12 m ρ c b :=
  fun b hb => W13_of_ne m ρ c b fun w e => hb (Finset.mem_image.mpr ⟨w, Finset.mem_univ _, e⟩)

abbrev W14 : Dev nD → Valuation τ sig (Elt F) := fun c => StableHlo.after hostOps6 (W13 m ρ c)

abbrev V14 : (c : Dev nD) → (b : Ref sig .tc) → Buf (Elt F) ((c : Thread nD τ).loc b) := fun c b => W14 m ρ c b

def W15 (c : Dev nD) : Valuation τ sig (Elt F) :=
  Pipeline.withArrays spec6 c (W14 m ρ c) fun w => (dat6 (V14 m ρ) c).arrAt w cfg6.N
theorem W15_arr (c : Dev nD) (w : Fin 4) :
    W15 m ρ c (Proc.devRef .tc (Pipeline.arrRef spec6 w)) = (dat6 (V14 m ρ) c).arrAt w cfg6.N := by
  unfold W15; exact Pipeline.withArrays_arr spec6 (launch6 (F := F)).win.arr_inj c _ _ w
theorem W15_of_ne (c : Dev nD) (b : Ref sig .tc) (hb : ∀ w, Pipeline.arrRef spec6 w ≠ b) :
    W15 m ρ c (Proc.devRef .tc b) = W14 m ρ c (Proc.devRef .tc b) := by
  unfold W15; exact Pipeline.withArrays_of_ne spec6 c _ _ b hb

abbrev V15 : (c : Dev nD) → (b : Ref sig .tc) → Buf (Elt F) ((c : Thread nD τ).loc b) := fun c b => W15 m ρ c b
theorem hF6 (c : Dev nD) (w : Fin 4) : (dat6 (V14 m ρ) c).arrAt w cfg6.N = V15 m ρ c (Pipeline.arrRef spec6 w) :=
  (W15_arr m ρ c w).symm
theorem hrest6 (c : Dev nD) : ∀ b, b ∉ Finset.univ.image (Pipeline.arrRef spec6) → V15 m ρ c b = V14 m ρ c b :=
  fun b hb => W15_of_ne m ρ c b fun w e => hb (Finset.mem_image.mpr ⟨w, Finset.mem_univ _, e⟩)

abbrev W16 : Dev nD → Valuation τ sig (Elt F) := fun c => StableHlo.after hostOps7 (W15 m ρ c)

abbrev W17 : Dev nD → Valuation τ sig (Elt F) := fun c => StableHlo.after hostOps7_1 (W16 m ρ c)

theorem arr6_in (V : (c : Dev nD) → (b : Ref sig .tc) → Buf (Elt F) ((c : Thread nD τ).loc b)) (c : Dev nD) (w : Fin cfg6.W)
    (hw : (cfg6.win w).isOut = false) : (dat6 V c).arrAt w cfg6.N = V c (Pipeline.arrRef spec6 w) :=
  ((dat6 V c).arrAt_in w hw _).trans (A_eq6 V c w)

theorem keep1 (c : Dev nD) (r : Ref sig .tc) (h : r ∉ hostOps0_W) : W1 m ρ c (Proc.devRef .tc r) = W0 m ρ c (Proc.devRef .tc r) :=
  StableHlo.after_of_writes_sub hostOps0 _ hostOps0_writes h
theorem keep2 (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem keep3 (c : Dev nD) (r : Ref sig .tc) (h : r ≠ main_v1) : W3 m ρ c (Proc.devRef .tc r) = W2 m ρ c (Proc.devRef .tc r) := by
  by_cases hw : ∃ w, Pipeline.arrRef spec0 w = r
  · obtain ⟨w, rfl⟩ := hw
    fin_cases w
    · exact absurd rfl h
  · exact W3_of_ne m ρ c r fun w e => hw ⟨w, e⟩
theorem keep4 (c : Dev nD) (r : Ref sig .tc) (h : r ∉ hostOps1_W) : W4 m ρ c (Proc.devRef .tc r) = W3 m ρ c (Proc.devRef .tc r) :=
  StableHlo.after_of_writes_sub hostOps1 _ hostOps1_writes h
theorem keep5 (c : Dev nD) (r : Ref sig .tc) (h : r ≠ main_v5) : W5 m ρ c (Proc.devRef .tc r) = W4 m ρ c (Proc.devRef .tc r) := by
  by_cases hw : ∃ w, Pipeline.arrRef spec1 w = r
  · obtain ⟨w, rfl⟩ := hw
    fin_cases w
    · exact (W5_arr m ρ c 0).trans (arrAt1_in (V4 m ρ) c 0 rfl)
    · exact (W5_arr m ρ c 1).trans (arrAt1_in (V4 m ρ) c 1 rfl)
    · exact (W5_arr m ρ c 2).trans (arrAt1_in (V4 m ρ) c 2 rfl)
    · exact absurd rfl h
  · exact W5_of_ne m ρ c r fun w e => hw ⟨w, e⟩
theorem keep6 (c : Dev nD) (r : Ref sig .tc) (h : r ∉ hostOps2_W) : W6 m ρ c (Proc.devRef .tc r) = W5 m ρ c (Proc.devRef .tc r) :=
  StableHlo.after_of_writes_sub hostOps2 _ hostOps2_writes h
theorem keep7 (c : Dev nD) (r : Ref sig .tc) (h : r ≠ main_v17) : W7 m ρ c (Proc.devRef .tc r) = W6 m ρ c (Proc.devRef .tc r) := by
  by_cases hw : ∃ w, Pipeline.arrRef spec2 w = r
  · obtain ⟨w, rfl⟩ := hw
    fin_cases w
    · exact (W7_arr m ρ c 0).trans (arrAt2_in (V6 m ρ) c 0 rfl)
    · exact (W7_arr m ρ c 1).trans (arrAt2_in (V6 m ρ) c 1 rfl)
    · exact absurd rfl h
  · exact W7_of_ne m ρ c r fun w e => hw ⟨w, e⟩
theorem keep8 (c : Dev nD) (r : Ref sig .tc) (h : r ∉ hostOps3_W) : W8 m ρ c (Proc.devRef .tc r) = W7 m ρ c (Proc.devRef .tc r) :=
  StableHlo.after_of_writes_sub hostOps3 _ hostOps3_writes h
theorem keep9 (c : Dev nD) (r : Ref sig .tc) (h : r ≠ main_v20) : W9 m ρ c (Proc.devRef .tc r) = W8 m ρ c (Proc.devRef .tc r) := by
  by_cases hw : ∃ w, Pipeline.arrRef spec3 w = r
  · obtain ⟨w, rfl⟩ := hw
    fin_cases w
    · exact (W9_arr m ρ c 0).trans (arrAt3_in (V8 m ρ) c 0 rfl)
    · exact (W9_arr m ρ c 1).trans (arrAt3_in (V8 m ρ) c 1 rfl)
    · exact (W9_arr m ρ c 2).trans (arrAt3_in (V8 m ρ) c 2 rfl)
    · exact absurd rfl h
  · exact W9_of_ne m ρ c r fun w e => hw ⟨w, e⟩
theorem keep10 (c : Dev nD) (r : Ref sig .tc) (h : r ∉ hostOps4_W) : W10 m ρ c (Proc.devRef .tc r) = W9 m ρ c (Proc.devRef .tc r) :=
  StableHlo.after_of_writes_sub hostOps4 _ hostOps4_writes h
theorem keep11 (c : Dev nD) (r : Ref sig .tc) (h : r ∉ hostOps4_1_W) : W11 m ρ c (Proc.devRef .tc r) = W10 m ρ c (Proc.devRef .tc r) :=
  StableHlo.after_of_writes_sub hostOps4_1 _ hostOps4_1_writes h
theorem keep12 (c : Dev nD) (r : Ref sig .tc) (h : r ≠ main_v24) : W12 m ρ c (Proc.devRef .tc r) = W11 m ρ c (Proc.devRef .tc r) := by
  by_cases hw : ∃ w, Pipeline.arrRef spec4 w = r
  · obtain ⟨w, rfl⟩ := hw
    fin_cases w
    · exact (W12_arr m ρ c 0).trans (arrAt4_in (V11 m ρ) c 0 rfl)
    · exact (W12_arr m ρ c 1).trans (arrAt4_in (V11 m ρ) c 1 rfl)
    · exact (W12_arr m ρ c 2).trans (arrAt4_in (V11 m ρ) c 2 rfl)
    · exact absurd rfl h
  · exact W12_of_ne m ρ c r fun w e => hw ⟨w, e⟩
theorem keep13 (c : Dev nD) (r : Ref sig .tc) (h : r ≠ main_v25) : W13 m ρ c (Proc.devRef .tc r) = W12 m ρ c (Proc.devRef .tc r) := by
  by_cases hw : ∃ w, Pipeline.arrRef spec5 w = r
  · obtain ⟨w, rfl⟩ := hw
    fin_cases w
    · exact (W13_arr m ρ c 0).trans (arrAt5_in (V12 m ρ) c 0 rfl)
    · exact (W13_arr m ρ c 1).trans (arrAt5_in (V12 m ρ) c 1 rfl)
    · exact (W13_arr m ρ c 2).trans (arrAt5_in (V12 m ρ) c 2 rfl)
    · exact absurd rfl h
  · exact W13_of_ne m ρ c r fun w e => hw ⟨w, e⟩
theorem keep14 (c : Dev nD) (r : Ref sig .tc) (h : r ∉ hostOps6_W) : W14 m ρ c (Proc.devRef .tc r) = W13 m ρ c (Proc.devRef .tc r) :=
  StableHlo.after_of_writes_sub hostOps6 _ hostOps6_writes h
theorem keep15 (c : Dev nD) (r : Ref sig .tc) (h : r ≠ main_v55) : W15 m ρ c (Proc.devRef .tc r) = W14 m ρ c (Proc.devRef .tc r) := by
  by_cases hw : ∃ w, Pipeline.arrRef spec6 w = r
  · obtain ⟨w, rfl⟩ := hw
    fin_cases w
    · exact (W15_arr m ρ c 0).trans (arr6_in (V14 m ρ) c 0 rfl)
    · exact (W15_arr m ρ c 1).trans (arr6_in (V14 m ρ) c 1 rfl)
    · exact (W15_arr m ρ c 2).trans (arr6_in (V14 m ρ) c 2 rfl)
    · exact absurd rfl h
  · exact W15_of_ne m ρ c r fun w e => hw ⟨w, e⟩
theorem keep16 (c : Dev nD) (r : Ref sig .tc) (h : r ∉ hostOps7_W) : W16 m ρ c (Proc.devRef .tc r) = W15 m ρ c (Proc.devRef .tc r) :=
  StableHlo.after_of_writes_sub hostOps7 _ hostOps7_writes h
theorem keep17 (c : Dev nD) (r : Ref sig .tc) (h : r ∉ hostOps7_1_W) : W17 m ρ c (Proc.devRef .tc r) = W16 m ρ c (Proc.devRef .tc r) :=
  StableHlo.after_of_writes_sub hostOps7_1 _ hostOps7_1_writes h

/-- No stage up to the last region's entry writes an argument array. -/
theorem W14_arg (c : Dev nD) (r : Ref sig .tc) (hr : r ∈ mainArgs) : W14 m ρ c (Proc.devRef .tc r) = m ((c : Thread nD τ).loc r) :=
  (keep14 m ρ c r ((by decide : ∀ r ∈ mainArgs, r ∉ hostOps6_W) r hr)).trans <| (keep13 m ρ c r ((by decide : ∀ r ∈ mainArgs, r ≠ main_v25) r hr)).trans <|
  (keep12 m ρ c r ((by decide : ∀ r ∈ mainArgs, r ≠ main_v24) r hr)).trans <| (keep11 m ρ c r ((by decide : ∀ r ∈ mainArgs, r ∉ hostOps4_1_W) r hr)).trans <|
  (keep10 m ρ c r ((by decide : ∀ r ∈ mainArgs, r ∉ hostOps4_W) r hr)).trans <| (keep9 m ρ c r ((by decide : ∀ r ∈ mainArgs, r ≠ main_v20) r hr)).trans <|
  (keep8 m ρ c r ((by decide : ∀ r ∈ mainArgs, r ∉ hostOps3_W) r hr)).trans <| (keep7 m ρ c r ((by decide : ∀ r ∈ mainArgs, r ≠ main_v17) r hr)).trans <|
  (keep6 m ρ c r ((by decide : ∀ r ∈ mainArgs, r ∉ hostOps2_W) r hr)).trans <| (keep5 m ρ c r ((by decide : ∀ r ∈ mainArgs, r ≠ main_v5) r hr)).trans <|
  (keep4 m ρ c r ((by decide : ∀ r ∈ mainArgs, r ∉ hostOps1_W) r hr)).trans <| (keep3 m ρ c r ((by decide : ∀ r ∈ mainArgs, r ≠ main_v1) r hr)).trans <|
  (keep2 m ρ c r ((by decide : ∀ r ∈ mainArgs, r ∉ hostOps0_1_W) r hr)).trans <| (keep1 m ρ c r ((by decide : ∀ r ∈ mainArgs, r ∉ hostOps0_W) r hr)).trans rfl

/-- Nor does any later stage. -/
theorem W17_arg (c : Dev nD) (r : Ref sig .tc) (hr : r ∈ mainArgs) : W17 m ρ c (Proc.devRef .tc r) = m ((c : Thread nD τ).loc r) :=
  (keep17 m ρ c r ((by decide : ∀ r ∈ mainArgs, r ∉ hostOps7_1_W) r hr)).trans <| (keep16 m ρ c r ((by decide : ∀ r ∈ mainArgs, r ∉ hostOps7_W) r hr)).trans <|
  (keep15 m ρ c r ((by decide : ∀ r ∈ mainArgs, r ≠ main_v55) r hr)).trans (W14_arg m ρ c r hr)

theorem tokRow_of (a : (pcfg0 (F := F)).Adm) (t : IVec S1 32) (h : (a.1 0 : S1.Idx → BitVec 32) = clipOps t) :
    tokRow a + 1 ≤ 50257 := by
  unfold tokRow
  rw [tokWordA_eq a (ValueIdx.ix1 (0 : Fin 1)), h]
  exact clipOps_ix_succ_le _

theorem tokRow_le : tokRow (adm0 m ρ) + 1 ≤ 50257 :=
  tokRow_of (adm0 m ρ) (m (((0 : Dev nD) : Thread nD τ).loc main_arg0)) rfl

end Cert.KernelIdeal.Hand

end
-- ==== Proof.KI.Run.lean ====
import proofs.«409304_j78383153152469_3_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev adm : (p : Fin 7) → (pcfgs (F := F) p).Adm
  | ⟨0, _⟩ => adm0 m ρ
  | ⟨1, _⟩ => cfg1.toPCfg_adm
  | ⟨2, _⟩ => cfg2.toPCfg_adm
  | ⟨3, _⟩ => cfg3.toPCfg_adm
  | ⟨4, _⟩ => cfg4.toPCfg_adm
  | ⟨5, _⟩ => cfg5.toPCfg_adm
  | ⟨6, _⟩ => cfg6.toPCfg_adm

def pdats : (p : Fin 7) → (c : Dev nD) → Dat τ (Elt F) Unit ℕ (Pipeline.UD sig nD τ) ℕ (Pipeline.pin (pcfgs (F := F)) (adm m ρ) p) c
  | ⟨0, _⟩ => fun c => dat0 (V2 m ρ) (adm0 m ρ) c
  | ⟨1, _⟩ => fun c => dat1 (V4 m ρ) c
  | ⟨2, _⟩ => fun c => dat2 (V6 m ρ) c
  | ⟨3, _⟩ => fun c => dat3 (V8 m ρ) c
  | ⟨4, _⟩ => fun c => dat4 (V11 m ρ) c
  | ⟨5, _⟩ => fun c => dat5 (V12 m ρ) c
  | ⟨6, _⟩ => fun c => dat6 (V14 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
theorem hostOps0_fresh' : (hostOps0 : List (HloOp τ sig (Elt F))).Forall fun op => op.fresh = ∅ := by
  simp only [List.Forall]; repeat' constructor
theorem hostOps0_1_fresh' : (hostOps0_1 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem hostOps4_fresh' : (hostOps4 : List (HloOp τ sig (Elt F))).Forall fun op => op.fresh = ∅ := by
  simp only [List.Forall]; repeat' constructor
theorem hostOps4_1_fresh' : (hostOps4_1 : List (HloOp τ sig (Elt F))).Forall fun op => op.fresh = ∅ := by
  simp only [List.Forall]; repeat' constructor
theorem hostOps6_fresh' : (hostOps6 : List (HloOp τ sig (Elt F))).Forall fun op => op.fresh = ∅ := by
  simp only [List.Forall]; repeat' constructor
theorem hostOps7_fresh' : (hostOps7 : List (HloOp τ sig (Elt F))).Forall fun op => op.fresh = ∅ := by
  simp only [List.Forall]; repeat' constructor
theorem hostOps7_1_fresh' : (hostOps7_1 : List (HloOp τ sig (Elt F))).Forall fun op => op.fresh = ∅ := by
  simp only [List.Forall]; repeat' constructor

set_option backward.isDefEq.respectTransparency.types false in

def reg0 : Pipeline.RegionSeg (pcfgs (F := F)) (adm m ρ) (pdats m ρ) () defs₀ 𝒱₀ L lv 0 where
  win := (launch0 (F := F)).win.to₀
  block_pos := (launch0 (F := F)).block_pos
  stage_whole := (launch0 (F := F)).stage_whole
  K := Fin 1
  osem := osem0
  ho := ownSemFacts0
  hbody c := (body_obligation0 (V2 m ρ) (adm0 m ρ) (tokRow_le m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop((∃ r, prngReg c r) ∗ Pipeline.ownSems0 (Ix := Unit) (Name := ℕ) (U := Pipeline.UD sig nD τ) (Lvl := ℕ) (Val := Elt F) (τ := τ) osem0 c ∗ (bigSep H0 fun b => (((c : Thread nD τ)).loc b) ↦{fullShare} V2 m ρ c b))
  Y c := iprop((∃ r, prngReg c r) ∗ (bigSep H0 fun b => (((c : Thread nD τ)).loc b) ↦{fullShare} V2 m ρ c b)
    ∗ Pipeline.prefHeld (Ix := Unit) (Name := ℕ) (U := Pipeline.UD sig nD τ) (Lvl := ℕ) pre0 c (fun _ => fullShare) (tbl m ρ))
  Z c := bigSep (Pipeline.restRefsP sig pre0 spec0 \ H0) fun b => (((c : Thread nD τ)).loc b) ↦{fullShare} V2 m ρ c b
  hentry c := by
    have hsplit := Pipeline.arrays_of_unscopedBufs (p := 0) (pcfgs (F := F)) (adm m ρ) (pdats m ρ) (launch0 (F := F)).win (launch0 (F := F)).arr_whole c
      ((pdats m ρ 0 c).share_full fun _ => rfl) (V2 m ρ c) fun _ => rfl
    rw [Pipeline.unscopedBufs_held] at hsplit
    have hT : (Pipeline.unscopedRest (Ix := Unit) (Name := ℕ) (U := Pipeline.UD sig nD τ) (Lvl := ℕ) spec0 c (V2 m ρ c) : sProp 𝕄)
        = iprop(Pipeline.prefHeld pre0 c (fun _ => fullShare) (tbl m ρ) ∗ Pipeline.unscopedRestP pre0 spec0 c (V2 m ρ c)) := by
      have hc : c = (0 : Dev nD) := Subsingleton.elim _ _
      subst hc
      rw [← show (fun k => V2 m ρ (0 : Dev nD) (pre0.ref k)) = tbl m ρ from funext (tbl_V2 m ρ)]
      exact Pipeline.unscopedRest_split (Ix := Unit) (Name := ℕ) (U := Pipeline.UD sig nD τ) (Lvl := ℕ) preFacts0 (0 : Dev nD) (V2 m ρ (0 : Dev nD))
    have hH := Pipeline.unscopedRestP_sdiff (Val := Elt F) pre0 spec0 H0 H0_subP c (V2 m ρ c)
    iintro ⟨⟨Hub, Hp, HO⟩, Hos, -⟩
    ihave H := hsplit $$ Hub
    icases H with ⟨Ha, Hrest⟩
    ihave H1 := (Entails.of_eq hT) $$ Hrest
    icases H1 with ⟨Ht, HrestP⟩
    ihave H2 := (Entails.of_eq hH) $$ HrestP
    icases H2 with ⟨HH, HR⟩
    imodintro
    isplitl [Ha]; · iexact Ha
    isplitl [Ht]
    · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m ρ 0 c).Φ 0 = iprop(Pipeline.ΦD osem0 spec0 H0 (V2 m ρ) c
      ∗ Pipeline.prefHeld (Ix := Unit) (Name := ℕ) (U := Pipeline.UD sig nD τ) (Lvl := ℕ) pre0 c (fun _ => fullShare) (tbl m ρ)) from rfl, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    iexact Ht
  hout c := by
    rw [show (pdats m ρ 0 c).Φ (Fin.last _) = iprop(Pipeline.ΦD osem0 spec0 H0 (V2 m ρ) c
      ∗ Pipeline.prefHeld (Ix := Unit) (Name := ℕ) (U := Pipeline.UD sig nD τ) (Lvl := ℕ) pre0 c (fun _ => fullShare) (tbl m ρ)) from rfl, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 0) (pcfgs (F := F)) (adm m ρ) (Ix := Unit) (Name := ℕ) (U := Pipeline.UD sig nD τ) (Lvl := ℕ)
      (launch0 (F := F)).win (launch0 (F := F)).arr_whole c (pdats m ρ) ((pdats m ρ 0 c).share_full fun _ => rfl)
      (V2 m ρ c) (V3 m ρ c) ((pdats m ρ 0 c).arrAt · (cfg0 (adm0 m ρ)).N) (hF0 m ρ c) (hrest0 m ρ c)
    rw [Pipeline.unscopedBufs_held] at hjoin
    have hT : (Pipeline.unscopedRest (Ix := Unit) (Name := ℕ) (U := Pipeline.UD sig nD τ) (Lvl := ℕ) spec0 c (V2 m ρ c) : sProp 𝕄)
        = iprop(Pipeline.prefHeld pre0 c (fun _ => fullShare) (tbl m ρ) ∗ Pipeline.unscopedRestP pre0 spec0 c (V2 m ρ c)) := by
      have hc : c = (0 : Dev nD) := Subsingleton.elim _ _
      subst hc
      rw [← show (fun k => V2 m ρ (0 : Dev nD) (pre0.ref k)) = tbl m ρ from funext (tbl_V2 m ρ)]
      exact Pipeline.unscopedRest_split (Ix := Unit) (Name := ℕ) (U := Pipeline.UD sig nD τ) (Lvl := ℕ) preFacts0 (0 : Dev nD) (V2 m ρ (0 : Dev nD))
    have hH := Pipeline.unscopedRestP_sdiff (Val := Elt F) pre0 spec0 H0 H0_subP c (V2 m ρ c)
    iintro ⟨Ha, HO, ⟨HY, HH, Ht⟩, HR⟩
    ihave HrestP := (Entails.of_eq hH.symm) $$ [HH HR]
    · isplitl [HH]; · iexact HH
      iexact HR
    ihave Hrest := (Entails.of_eq hT.symm) $$ [Ht HrestP]
    · isplitl [Ht]
      · iexact Ht
      iexact HrestP
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) (adm m ρ) (pdats m ρ) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V4 m ρ c)
  hentry c := by
    rw [Pipeline.ownSems0_none]
    have hsplit := Pipeline.arrays_of_unscopedBufs (p := 1) (pcfgs (F := F)) (adm m ρ) (pdats m ρ) (launch1 (F := F)).win (launch1 (F := F)).arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m ρ) (Ix := Unit) (Name := ℕ) (U := Pipeline.UD sig nD τ) (Lvl := ℕ)
      (launch1 (F := F)).win (launch1 (F := F)).arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) (adm m ρ) (pdats m ρ) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V6 m ρ c)
  hentry c := by
    rw [Pipeline.ownSems0_none]
    have hsplit := Pipeline.arrays_of_unscopedBufs (p := 2) (pcfgs (F := F)) (adm m ρ) (pdats m ρ) (launch2 (F := F)).win (launch2 (F := F)).arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm m ρ) (Ix := Unit) (Name := ℕ) (U := Pipeline.UD sig nD τ) (Lvl := ℕ)
      (launch2 (F := F)).win (launch2 (F := F)).arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) (adm m ρ) (pdats m ρ) () defs₀ 𝒱₀ L lv 3 where
  win := (launch3 (F := F)).win.to₀
  block_pos := (launch3 (F := F)).block_pos
  stage_whole := (launch3 (F := F)).stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (V8 m ρ c)
  hentry c := by
    rw [Pipeline.ownSems0_none]
    have hsplit := Pipeline.arrays_of_unscopedBufs (p := 3) (pcfgs (F := F)) (adm m ρ) (pdats m ρ) (launch3 (F := F)).win (launch3 (F := F)).arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) (adm m ρ) (Ix := Unit) (Name := ℕ) (U := Pipeline.UD sig nD τ) (Lvl := ℕ)
      (launch3 (F := F)).win (launch3 (F := F)).arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg4 : Pipeline.RegionSeg (pcfgs (F := F)) (adm m ρ) (pdats m ρ) () defs₀ 𝒱₀ L lv 4 where
  win := (launch4 (F := F)).win.to₀
  block_pos := (launch4 (F := F)).block_pos
  stage_whole := (launch4 (F := F)).stage_whole
  K := PEmpty
  osem k := k.elim
  ho := Pipeline.OwnSemFacts.none _
  hbody c := (body_obligation4 (V11 m ρ) c).loose
  hwaits := Pipeline.hwaits_of_owed_zero _ _ _ _ L lv 4 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := Pipeline.UD sig nD τ) (Lvl := ℕ) spec4 c (V11 m ρ c)
  hentry c := by
    rw [Pipeline.ownSems0_none]
    have hsplit := Pipeline.arrays_of_unscopedBufs (p := 4) (pcfgs (F := F)) (adm m ρ) (pdats m ρ) (launch4 (F := F)).win (launch4 (F := F)).arr_whole c
      ((pdats m ρ 4 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) (adm m ρ) (Ix := Unit) (Name := ℕ) (U := Pipeline.UD sig nD τ) (Lvl := ℕ)
      (launch4 (F := F)).win (launch4 (F := F)).arr_whole c (pdats m ρ) ((pdats m ρ 4 c).share_full fun _ => rfl)
      (V11 m ρ c) (V12 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg5 : Pipeline.RegionSeg (pcfgs (F := F)) (adm m ρ) (pdats m ρ) () defs₀ 𝒱₀ L lv 5 where
  win := (launch5 (F := F)).win.to₀
  block_pos := (launch5 (F := F)).block_pos
  stage_whole := (launch5 (F := F)).stage_whole
  K := PEmpty
  osem k := k.elim
  ho := Pipeline.OwnSemFacts.none _
  hbody c := (body_obligation5 (V12 m ρ) c).loose
  hwaits := Pipeline.hwaits_of_owed_zero _ _ _ _ L lv 5 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := Pipeline.UD sig nD τ) (Lvl := ℕ) spec5 c (V12 m ρ c)
  hentry c := by
    rw [Pipeline.ownSems0_none]
    have hsplit := Pipeline.arrays_of_unscopedBufs (p := 5) (pcfgs (F := F)) (adm m ρ) (pdats m ρ) (launch5 (F := F)).win (launch5 (F := F)).arr_whole c
      ((pdats m ρ 5 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) (adm m ρ) (Ix := Unit) (Name := ℕ) (U := Pipeline.UD sig nD τ) (Lvl := ℕ)
      (launch5 (F := F)).win (launch5 (F := F)).arr_whole c (pdats m ρ) ((pdats m ρ 5 c).share_full fun _ => rfl)
      (V12 m ρ c) (V13 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

variable (hloc : K6Local F)

set_option backward.isDefEq.respectTransparency.types false in

def reg6 : Pipeline.RegionSeg (pcfgs (F := F)) (adm m ρ) (pdats m ρ) () defs₀ 𝒱₀ L lv 6 where
  win := (launch6 (F := F)).win.to₀
  block_pos := (launch6 (F := F)).block_pos
  stage_whole := (launch6 (F := F)).stage_whole
  K := PEmpty
  osem k := k.elim
  ho := Pipeline.OwnSemFacts.none _
  hbody c := body_obligation6_of (V14 m ρ) hloc c
  hwaits := Pipeline.hwaits_of_owed_zero _ _ _ _ L lv 6 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := Pipeline.UD sig nD τ) (Lvl := ℕ) spec6 c (V14 m ρ c)
  hentry c := by
    rw [Pipeline.ownSems0_none]
    have hsplit := Pipeline.arrays_of_unscopedBufs (p := 6) (pcfgs (F := F)) (adm m ρ) (pdats m ρ) (launch6 (F := F)).win (launch6 (F := F)).arr_whole c
      ((pdats m ρ 6 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) (adm m ρ) (Ix := Unit) (Name := ℕ) (U := Pipeline.UD sig nD τ) (Lvl := ℕ)
      (launch6 (F := F)).win (launch6 (F := F)).arr_whole c (pdats m ρ) ((pdats m ρ 6 c).share_full fun _ => rfl)
      (V14 m ρ c) (V15 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) (adm m ρ) (pdats m ρ) () defs₀ 𝒱₀ L lv) :=
  [ .host (hseg hostOps0 hostOps0_sub hostOps0_fresh' (W0 m ρ)),
    .host (hseg hostOps0_1 hostOps0_1_sub hostOps0_1_fresh' (W1 m ρ)),
    .region (reg0 m ρ),
    .host (hseg hostOps1 hostOps1_sub hostOps1_fresh' (W3 m ρ)),
    .region (reg1 m ρ),
    .host (hseg hostOps2 hostOps2_sub hostOps2_fresh' (W5 m ρ)),
    .region (reg2 m ρ),
    .host (hseg hostOps3 hostOps3_sub hostOps3_fresh' (W7 m ρ)),
    .region (reg3 m ρ),
    .host (hseg hostOps4 hostOps4_sub hostOps4_fresh' (W9 m ρ)),
    .host (hseg hostOps4_1 hostOps4_1_sub hostOps4_1_fresh' (W10 m ρ)),
    .region (reg4 m ρ),
    .region (reg5 m ρ),
    .host (hseg hostOps6 hostOps6_sub hostOps6_fresh' (W13 m ρ)),
    .region (reg6 m ρ hloc),
    .host (hseg hostOps7 hostOps7_sub hostOps7_fresh' (W15 m ρ)),
    .host (hseg hostOps7_1 hostOps7_1_sub hostOps7_1_fresh' (W16 m ρ)) ]

theorem main_run (c : Dev nD) : main (F := F) c = Pipeline.Seg.run (segs m ρ hloc) := (main_chain c).trans (by chain_rfl)

abbrev Tₙ (c : Dev nD) : sProp 𝕄 := iprop(StableHlo.held (c : Thread nD τ) (Pipeline.ucRefs τ sig) (W17 m ρ c) ∗ ∃ r, prngReg c r)

include hloc in
set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W17 m ρ c b) :=
  Pipeline.θ_run_regions_kit (pcfgs (F := F)) (adm m ρ) (pdats m ρ) () (cellOf_inj (adm m ρ)) embL defs₀ 𝒱₀ L lv m ρ main (segs m ρ hloc)
    (fun c Q => by rw [main_run m ρ hloc c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m ρ)) (cellOf_inj (adm m ρ))) (Pipeline.launchToks (Pipeline.pin (pcfgs (F := F)) (adm m ρ)) (cellOf_inj (adm m ρ))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W17 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c => h c)

end Cert.KernelIdeal.Hand

end
-- ==== Proof.KI.HostEx.lean ====
import proofs.«409304_j78383153152469_3_alg».proof.Proof.Gen.KernelIdeal.Launch
import proofs.«409304_j78383153152469_3_alg».proof.Proof.Gen.KernelIdeal.Regions
import proofs.«409304_j78383153152469_3_alg».proof.Proof.KI.HostVals
import Idealize.ShloMosaic.Lib.Pipeline.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The valuation holds every argument array as launched. -/
def ArgsAt (m : (ℓ : Loc nD τ sig) → Buf (Elt F) ℓ) (c : Dev nD) (W : Valuation τ sig (Elt F)) : Prop :=
  ∀ r ∈ mainArgs, W (Proc.devRef .tc r) = m ((c : Thread nD τ).loc r)

/-- The memory holds every argument array as launched. -/
def ArgsMem (m : (ℓ : Loc nD τ sig) → Buf (Elt F) ℓ) (c : Dev nD) (s : MemSt nD τ sig (Elt F)) : Prop :=
  ∀ r ∈ mainArgs, s.mem ((c : Thread nD τ).loc r) = m ((c : Thread nD τ).loc r)

/-- The same, one argument array after the other. -/
def ArgsMem14 (m : (ℓ : Loc nD τ sig) → Buf (Elt F) ℓ) (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)
    ∧ s.mem ((c : Thread nD τ).loc main_arg7) = m ((c : Thread nD τ).loc main_arg7)
    ∧ s.mem ((c : Thread nD τ).loc main_arg8) = m ((c : Thread nD τ).loc main_arg8)
    ∧ s.mem ((c : Thread nD τ).loc main_arg9) = m ((c : Thread nD τ).loc main_arg9)
    ∧ s.mem ((c : Thread nD τ).loc main_arg10) = m ((c : Thread nD τ).loc main_arg10)
    ∧ s.mem ((c : Thread nD τ).loc main_arg11) = m ((c : Thread nD τ).loc main_arg11)
    ∧ s.mem ((c : Thread nD τ).loc main_arg12) = m ((c : Thread nD τ).loc main_arg12)
    ∧ s.mem ((c : Thread nD τ).loc main_arg13) = m ((c : Thread nD τ).loc main_arg13)

theorem ArgsMem.conj {m : (ℓ : Loc nD τ sig) → Buf (Elt F) ℓ} {c : Dev nD} {s : MemSt nD τ sig (Elt F)} (h : ArgsMem m c s) :
    ArgsMem14 m c s :=
  ⟨h _ (by decide), h _ (by decide), h _ (by decide), h _ (by decide), h _ (by decide), h _ (by decide), h _ (by decide), h _ (by decide), h _ (by decide), h _ (by decide), h _ (by decide), h _ (by decide), h _ (by decide), h _ (by decide)⟩

theorem ArgsAt.of_eq {m : (ℓ : Loc nD τ sig) → Buf (Elt F) ℓ} {c : Dev nD} {W W' : Valuation τ sig (Elt F)} (h : ArgsAt m c W)
    (e : ∀ r ∈ mainArgs, W' (Proc.devRef .tc r) = W (Proc.devRef .tc r)) : ArgsAt m c W' :=
  fun r hr => (e r hr).trans (h r hr)

abbrev LEx : GSem nD τ sig → Finset Unit := fun _ => ∅
abbrev lvEx : GSem nD τ sig → Unit → ℕ := fun _ _ => 0

set_option backward.isDefEq.respectTransparency.types false in

def hsegEx (ops : List (HloOp τ sig (Elt F))) (hsub : ops.Forall fun op => op.bufs ⊆ StableHlo.tcRefs τ sig)
    (hfresh : ops.Forall fun op => op.fresh = ∅) (P Q : Dev nD → Valuation τ sig (Elt F) → Prop)
    (hPQ : ∀ c W, P c W → Q c (StableHlo.after ops W)) (R : Dev nD → sProp 𝕄) :
    Pipeline.HostSeg (Name := ℕ) (U := Pipeline.UD sig nD τ) (pcfgs (F := F)) defs₀ Variants.none LEx lvEx where
  prog := StableHlo.seq ops
  pre c := iprop(∃ W, ⌜P c W⌝ ∗ StableHlo.held (c : Thread nD τ) (Pipeline.ucRefs τ sig) W ∗ R c)
  post c := iprop(∃ W, ⌜Q c W⌝ ∗ StableHlo.held (c : Thread nD τ) (Pipeline.ucRefs τ sig) W ∗ R c)
  run c {β} k K := by
    iintro ⟨Hk, Hbd, ⟨%W, %hP, Hh, HR⟩, -⟩
    have hseq := StableHlo.wp_seq (defs := Pipeline.defs (pcfgs (F := F)) defs₀) (Variants.lift Variants.none) none Set.univ c
      (Pipeline.ucRefs τ sig) k (K := K) ops
      (fun op h => Pipeline.sub_ucRefs op ((List.forall_iff_forall_mem.mp hsub) op h))
      (fun op h => (List.forall_iff_forall_mem.mp hfresh) op h) W
    iapply hseq $$ [Hbd Hh]
    · isplitl [Hbd] <;> iassumption
    iintro ⟨Hbd, Hh⟩
    iapply Hk
    isplitl [Hbd]; · iexact Hbd
    iexists (StableHlo.after ops W)
    isplitr; · ipureintro; exact hPQ c W hP
    isplitl [Hh] <;> iassumption

theorem argsAt_after7 (m : (ℓ : Loc nD τ sig) → Buf (Elt F) ℓ) (c : Dev nD) (W : Valuation τ sig (Elt F)) (h : ArgsAt m c W) :
    ArgsAt m c (StableHlo.after hostOps7 W) :=
  h.of_eq fun r hr => StableHlo.after_of_writes_sub hostOps7 W hostOps7_writes ((by decide : ∀ r ∈ mainArgs, r ∉ hostOps7_W) r hr)

theorem argsAt_after7_1 (m : (ℓ : Loc nD τ sig) → Buf (Elt F) ℓ) (c : Dev nD) (W : Valuation τ sig (Elt F)) (h : ArgsAt m c W) :
    ArgsAt m c (StableHlo.after hostOps7_1 W) :=
  h.of_eq fun r hr => StableHlo.after_of_writes_sub hostOps7_1 W hostOps7_1_writes ((by decide : ∀ r ∈ mainArgs, r ∉ hostOps7_1_W) r hr)

theorem mem_ucEx (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem argsAt_read (m : (ℓ : Loc nD τ sig) → Buf (Elt F) ℓ) (c : Dev nD) (s' : Phys nD τ sig (Elt F)) :
    iprop((∃ W, ⌜ArgsAt m c W⌝ ∗ StableHlo.held (c : Thread nD τ) (Pipeline.ucRefs τ sig) W) ∗ SI s')
      ⊢ (iprop(⌜ArgsMem m c s'.mem⌝ ∗ SI s') : sProp 𝕄) := by
  iintro ⟨⟨%W, %hA, Hh⟩, HSI⟩
  unfold StableHlo.held
  ihave H := (pointsTo_read_all (Pipeline.ucRefs τ sig) (fun b => (((c : Thread nD τ)).1, b)) W s') $$ [Hh HSI]
  · isplitl [Hh] <;> iassumption
  icases H with ⟨%h, HSI⟩
  isplitr
  · ipureintro
    exact fun r hr => (h _ (mem_ucEx r ((by decide : ∀ r ∈ mainArgs, ¬ (Proc.devRef .tc r : DevRef τ sig).isScoped) r hr))).trans (hA r hr)
  iexact HSI

end Cert.KernelIdeal.Hand

end
-- ==== Proof.KI.RunR.lean ====
import proofs.«409304_j78383153152469_3_alg».proof.Proof.KI.Run
import proofs.«409304_j78383153152469_3_alg».proof.Proof.KI.HostEx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

def rdats : (p : Fin 7) → (c : Dev nD) → Pipeline.RDat τ (Elt F) Unit ℕ (Pipeline.UD sig nD τ) ℕ (Pipeline.pin (pcfgs (F := F)) (adm m ρ) p) c
  | ⟨0, _⟩ => fun c => (dat0 (V2 m ρ) (adm0 m ρ) c).toR
  | ⟨1, _⟩ => fun c => (dat1 (V4 m ρ) c).toR
  | ⟨2, _⟩ => fun c => (dat2 (V6 m ρ) c).toR
  | ⟨3, _⟩ => fun c => (dat3 (V8 m ρ) c).toR
  | ⟨4, _⟩ => fun c => (dat4 (V11 m ρ) c).toR
  | ⟨5, _⟩ => fun c => (dat5 (V12 m ρ) c).toR
  | ⟨6, _⟩ => fun c => rdat6 (V14 m ρ) c

section Exit6

variable (V : (c : Dev nD) → (b : Ref sig .tc) → Buf (Elt F) ((c : Thread nD τ).loc b))

theorem arraysAt6_elim (c : Dev nD) :
    ((rdat6 V c).arraysAt cfg6.N : sProp 𝕄)
      ⊢ iprop(∃ A : (w : Fin cfg6.W) → Buf (Elt F) ((cfg6.win w).arr.view.loc (c : Thread nD τ)),
          ⌜A 0 = V c (Pipeline.arrRef spec6 0) ∧ A 1 = V c (Pipeline.arrRef spec6 1) ∧ A 2 = V c (Pipeline.arrRef spec6 2)⌝
            ∗ (dat6 V c).arrays A) := by
  unfold Pipeline.RDat.arraysAt
  iintro Ha
  ihave Ha' := (BI.bigSep_exists_pi Finset.univ (fun w F => iprop(⌜(rdat6 V c).ArrAt w cfg6.N F⌝
      ∗ (cfg6.win w).arr.view.loc (c : Thread nD τ) ↦[(cfg6.win w).arr.view.set]{(rdat6 V c).share w} F))) $$ Ha
  icases Ha' with ⟨%A, Ha⟩
  ihave Ha2 := (BI.bigSep_pure_sep Finset.univ (fun w => (rdat6 V c).ArrAt w cfg6.N (A w))
      (fun w => (cfg6.win w).arr.view.loc (c : Thread nD τ) ↦[(cfg6.win w).arr.view.set]{(rdat6 V c).share w} A w)) $$ Ha
  icases Ha2 with ⟨%hA', Ha⟩
  iexists A
  isplitr
  · ipureintro
    have h0 := hA' 0 (Finset.mem_univ _)
    have h1 := hA' 1 (Finset.mem_univ _)
    have h2 := hA' 2 (Finset.mem_univ _)
    rw [(rdat6 V c).ArrAt_in 0 rfl] at h0
    rw [(rdat6 V c).ArrAt_in 1 rfl] at h1
    rw [(rdat6 V c).ArrAt_in 2 rfl] at h2
    exact ⟨h0.trans (rA_eq6 V c 0), h1.trans (rA_eq6 V c 1), h2.trans (rA_eq6 V c 2)⟩
  iapply (show (bigSep Finset.univ fun w : Fin cfg6.W => ((cfg6.win w).arr.view.loc (c : Thread nD τ) ↦[(cfg6.win w).arr.view.set]{(rdat6 V c).share w} A w : sProp 𝕄))
      ⊢ (dat6 V c).arrays A from Entails.of_eq rfl)
  iexact Ha

end Exit6

set_option backward.isDefEq.respectTransparency.types false in

def regR0 : Pipeline.RDat.RegionSeg (pcfgs (F := F)) (adm m ρ) (rdats m ρ) () defs₀ 𝒱₀ L lv 0 where
  win := (reg0 m ρ).win
  block_pos := (reg0 m ρ).block_pos
  stage_whole := (reg0 m ρ).stage_whole
  K := (reg0 m ρ).K
  fK := (reg0 m ρ).fK
  osem := (reg0 m ρ).osem
  ho := (reg0 m ρ).ho
  hbody c := ((reg0 m ρ).hbody c).toR
  hwaits := Pipeline.RDat.hwaits_of_owed_zero _ _ (rdats m ρ) _ L lv 0 fun _ _ => rfl
  pre := (reg0 m ρ).pre
  post := (reg0 m ρ).post
  X := (reg0 m ρ).X
  Y := (reg0 m ρ).Y
  Z := (reg0 m ρ).Z
  hentry := (reg0 m ρ).hentry
  hin := (reg0 m ρ).hin
  hout := (reg0 m ρ).hout
  hexit c := (sep_mono (Entails.of_eq ((pdats m ρ 0 c).toR_arraysAt_eq (Pipeline.pin (pcfgs (F := F)) (adm m ρ) 0).N)) .rfl).trans ((reg0 m ρ).hexit c)

set_option backward.isDefEq.respectTransparency.types false in

def regR1 : Pipeline.RDat.RegionSeg (pcfgs (F := F)) (adm m ρ) (rdats m ρ) () defs₀ 𝒱₀ L lv 1 where
  win := (reg1 m ρ).win
  block_pos := (reg1 m ρ).block_pos
  stage_whole := (reg1 m ρ).stage_whole
  K := (reg1 m ρ).K
  fK := (reg1 m ρ).fK
  osem := (reg1 m ρ).osem
  ho := (reg1 m ρ).ho
  hbody c := ((reg1 m ρ).hbody c).toR
  hwaits := Pipeline.RDat.hwaits_of_owed_zero _ _ (rdats m ρ) _ L lv 1 fun _ _ => rfl
  pre := (reg1 m ρ).pre
  post := (reg1 m ρ).post
  X := (reg1 m ρ).X
  Y := (reg1 m ρ).Y
  Z := (reg1 m ρ).Z
  hentry := (reg1 m ρ).hentry
  hin := (reg1 m ρ).hin
  hout := (reg1 m ρ).hout
  hexit c := (sep_mono (Entails.of_eq ((pdats m ρ 1 c).toR_arraysAt_eq (Pipeline.pin (pcfgs (F := F)) (adm m ρ) 1).N)) .rfl).trans ((reg1 m ρ).hexit c)

set_option backward.isDefEq.respectTransparency.types false in

def regR2 : Pipeline.RDat.RegionSeg (pcfgs (F := F)) (adm m ρ) (rdats m ρ) () defs₀ 𝒱₀ L lv 2 where
  win := (reg2 m ρ).win
  block_pos := (reg2 m ρ).block_pos
  stage_whole := (reg2 m ρ).stage_whole
  K := (reg2 m ρ).K
  fK := (reg2 m ρ).fK
  osem := (reg2 m ρ).osem
  ho := (reg2 m ρ).ho
  hbody c := ((reg2 m ρ).hbody c).toR
  hwaits := Pipeline.RDat.hwaits_of_owed_zero _ _ (rdats m ρ) _ L lv 2 fun _ _ => rfl
  pre := (reg2 m ρ).pre
  post := (reg2 m ρ).post
  X := (reg2 m ρ).X
  Y := (reg2 m ρ).Y
  Z := (reg2 m ρ).Z
  hentry := (reg2 m ρ).hentry
  hin := (reg2 m ρ).hin
  hout := (reg2 m ρ).hout
  hexit c := (sep_mono (Entails.of_eq ((pdats m ρ 2 c).toR_arraysAt_eq (Pipeline.pin (pcfgs (F := F)) (adm m ρ) 2).N)) .rfl).trans ((reg2 m ρ).hexit c)

set_option backward.isDefEq.respectTransparency.types false in

def regR3 : Pipeline.RDat.RegionSeg (pcfgs (F := F)) (adm m ρ) (rdats m ρ) () defs₀ 𝒱₀ L lv 3 where
  win := (reg3 m ρ).win
  block_pos := (reg3 m ρ).block_pos
  stage_whole := (reg3 m ρ).stage_whole
  K := (reg3 m ρ).K
  fK := (reg3 m ρ).fK
  osem := (reg3 m ρ).osem
  ho := (reg3 m ρ).ho
  hbody c := ((reg3 m ρ).hbody c).toR
  hwaits := Pipeline.RDat.hwaits_of_owed_zero _ _ (rdats m ρ) _ L lv 3 fun _ _ => rfl
  pre := (reg3 m ρ).pre
  post := (reg3 m ρ).post
  X := (reg3 m ρ).X
  Y := (reg3 m ρ).Y
  Z := (reg3 m ρ).Z
  hentry := (reg3 m ρ).hentry
  hin := (reg3 m ρ).hin
  hout := (reg3 m ρ).hout
  hexit c := (sep_mono (Entails.of_eq ((pdats m ρ 3 c).toR_arraysAt_eq (Pipeline.pin (pcfgs (F := F)) (adm m ρ) 3).N)) .rfl).trans ((reg3 m ρ).hexit c)

set_option backward.isDefEq.respectTransparency.types false in

def regR4 : Pipeline.RDat.RegionSeg (pcfgs (F := F)) (adm m ρ) (rdats m ρ) () defs₀ 𝒱₀ L lv 4 where
  win := (reg4 m ρ).win
  block_pos := (reg4 m ρ).block_pos
  stage_whole := (reg4 m ρ).stage_whole
  K := (reg4 m ρ).K
  fK := (reg4 m ρ).fK
  osem := (reg4 m ρ).osem
  ho := (reg4 m ρ).ho
  hbody c := ((reg4 m ρ).hbody c).toR
  hwaits := Pipeline.RDat.hwaits_of_owed_zero _ _ (rdats m ρ) _ L lv 4 fun _ _ => rfl
  pre := (reg4 m ρ).pre
  post := (reg4 m ρ).post
  X := (reg4 m ρ).X
  Y := (reg4 m ρ).Y
  Z := (reg4 m ρ).Z
  hentry := (reg4 m ρ).hentry
  hin := (reg4 m ρ).hin
  hout := (reg4 m ρ).hout
  hexit c := (sep_mono (Entails.of_eq ((pdats m ρ 4 c).toR_arraysAt_eq (Pipeline.pin (pcfgs (F := F)) (adm m ρ) 4).N)) .rfl).trans ((reg4 m ρ).hexit c)

set_option backward.isDefEq.respectTransparency.types false in

def regR5 : Pipeline.RDat.RegionSeg (pcfgs (F := F)) (adm m ρ) (rdats m ρ) () defs₀ 𝒱₀ L lv 5 where
  win := (reg5 m ρ).win
  block_pos := (reg5 m ρ).block_pos
  stage_whole := (reg5 m ρ).stage_whole
  K := (reg5 m ρ).K
  fK := (reg5 m ρ).fK
  osem := (reg5 m ρ).osem
  ho := (reg5 m ρ).ho
  hbody c := ((reg5 m ρ).hbody c).toR
  hwaits := Pipeline.RDat.hwaits_of_owed_zero _ _ (rdats m ρ) _ L lv 5 fun _ _ => rfl
  pre := (reg5 m ρ).pre
  post := (reg5 m ρ).post
  X := (reg5 m ρ).X
  Y := (reg5 m ρ).Y
  Z := (reg5 m ρ).Z
  hentry := (reg5 m ρ).hentry
  hin := (reg5 m ρ).hin
  hout := (reg5 m ρ).hout
  hexit c := (sep_mono (Entails.of_eq ((pdats m ρ 5 c).toR_arraysAt_eq (Pipeline.pin (pcfgs (F := F)) (adm m ρ) 5).N)) .rfl).trans ((reg5 m ρ).hexit c)

theorem argsAt_exit6 (c : Dev nD) (A : (w : Fin cfg6.W) → Buf (Elt F) ((cfg6.win w).arr.view.loc (c : Thread nD τ)))
    (hA : A 0 = V14 m ρ c (Pipeline.arrRef spec6 0) ∧ A 1 = V14 m ρ c (Pipeline.arrRef spec6 1) ∧ A 2 = V14 m ρ c (Pipeline.arrRef spec6 2)) :
    ArgsAt m c (Pipeline.withArrays spec6 c (W14 m ρ c) A) :=
  ArgsAt.of_eq (W := W14 m ρ c) (W14_arg m ρ c) fun r hr => by
    by_cases hw : ∃ w, Pipeline.arrRef spec6 w = r
    · obtain ⟨w, rfl⟩ := hw
      fin_cases w
      · exact absurd hr (by decide)
      · exact (Pipeline.withArrays_arr spec6 (launch6 (F := F)).win.arr_inj c _ _ 1).trans hA.2.1
      · exact absurd hr (by decide)
      · exact absurd hr (by decide)
    · exact Pipeline.withArrays_of_ne spec6 c _ _ r fun w e => hw ⟨w, e⟩

set_option backward.isDefEq.respectTransparency.types false in

def regR6 : Pipeline.RDat.RegionSeg (pcfgs (F := F)) (adm m ρ) (rdats m ρ) () defs₀ 𝒱₀ L lv 6 where
  win := (launch6 (F := F)).win.to₀
  block_pos := (launch6 (F := F)).block_pos
  stage_whole := (launch6 (F := F)).stage_whole
  K := PEmpty
  osem k := k.elim
  ho := Pipeline.OwnSemFacts.none _
  hbody c := rbody_obligation6 (V14 m ρ) c
  hwaits := Pipeline.RDat.hwaits_of_owed_zero _ _ (rdats m ρ) _ L lv 6 fun _ _ => rfl
  pre c := iprop(StableHlo.held (c : Thread nD τ) (Pipeline.ucRefs τ sig) (W14 m ρ c) ∗ R c)
  post c := iprop(∃ W, ⌜ArgsAt m c W⌝ ∗ StableHlo.held (c : Thread nD τ) (Pipeline.ucRefs τ sig) W ∗ R c)
  X c := iprop(∃ r, prngReg c r)
  Y c := iprop(∃ r, prngReg c r)
  Z c := Pipeline.unscopedRest (Ix := Unit) (Name := ℕ) (U := Pipeline.UD sig nD τ) (Lvl := ℕ) spec6 c (V14 m ρ c)
  hentry c := by
    rw [Pipeline.ownSems0_none]
    have hsplit := Pipeline.RDat.arrays_of_unscopedBufs (p := 6) (pcfgs (F := F)) (adm m ρ) (rdats m ρ) (launch6 (F := F)).win (launch6 (F := F)).arr_whole c
      ((dat6 (V14 m ρ) c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (rdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    iintro ⟨Ha, HO, HY, Hrest⟩
    have h6 : ((rdats m ρ 6 c).arraysAt (Pipeline.pin (pcfgs (F := F)) (adm m ρ) 6).N : sProp 𝕄)
        ⊢ iprop(∃ A : (w : Fin cfg6.W) → Buf (Elt F) ((cfg6.win w).arr.view.loc (c : Thread nD τ)),
          ⌜A 0 = V14 m ρ c (Pipeline.arrRef spec6 0) ∧ A 1 = V14 m ρ c (Pipeline.arrRef spec6 1) ∧ A 2 = V14 m ρ c (Pipeline.arrRef spec6 2)⌝
            ∗ (pdats m ρ 6 c).arrays A) := arraysAt6_elim (V14 m ρ) c
    ihave Ha' := h6 $$ Ha
    icases Ha' with ⟨%A, %hA, Ha⟩
    have hjoin := Pipeline.unscopedBufs_of_arrays (p := 6) (pcfgs (F := F)) (adm m ρ) (Ix := Unit) (Name := ℕ) (U := Pipeline.UD sig nD τ) (Lvl := ℕ)
      (launch6 (F := F)).win (launch6 (F := F)).arr_whole c (pdats m ρ) ((pdats m ρ 6 c).share_full fun _ => rfl)
      (V14 m ρ c) (fun b => Pipeline.withArrays spec6 c (W14 m ρ c) A (Proc.devRef .tc b)) A
      (fun w => (Pipeline.withArrays_arr spec6 (launch6 (F := F)).win.arr_inj c _ _ w).symm)
      (fun b hb => Pipeline.withArrays_of_ne spec6 c _ _ b fun w e => hb (Finset.mem_image.mpr ⟨w, Finset.mem_univ _, e⟩))
    rw [Pipeline.unscopedBufs_held] at hjoin
    imodintro
    iexists (Pipeline.withArrays spec6 c (W14 m ρ c) A)
    isplitr; · ipureintro; exact argsAt_exit6 m ρ c A hA
    isplitl [Ha Hrest]
    · iapply hjoin; isplitl [Ha] <;> iassumption
    isplitl [HY]; · iexact HY
    unfold Pipeline.RDat.owesAt Pipeline.owesWithin
    icases HO with ⟨%W, -, HO⟩; iexists W; iexact HO

abbrev segsR : List (Pipeline.RDat.Seg (pcfgs (F := F)) (adm m ρ) (rdats m ρ) () defs₀ 𝒱₀ L lv) :=
  [ .host (hseg hostOps0 hostOps0_sub hostOps0_fresh' (W0 m ρ)),
    .host (hseg hostOps0_1 hostOps0_1_sub hostOps0_1_fresh' (W1 m ρ)),
    .region (regR0 m ρ),
    .host (hseg hostOps1 hostOps1_sub hostOps1_fresh' (W3 m ρ)),
    .region (regR1 m ρ),
    .host (hseg hostOps2 hostOps2_sub hostOps2_fresh' (W5 m ρ)),
    .region (regR2 m ρ),
    .host (hseg hostOps3 hostOps3_sub hostOps3_fresh' (W7 m ρ)),
    .region (regR3 m ρ),
    .host (hseg hostOps4 hostOps4_sub hostOps4_fresh' (W9 m ρ)),
    .host (hseg hostOps4_1 hostOps4_1_sub hostOps4_1_fresh' (W10 m ρ)),
    .region (regR4 m ρ),
    .region (regR5 m ρ),
    .host (hseg hostOps6 hostOps6_sub hostOps6_fresh' (W13 m ρ)),
    .region (regR6 m ρ),
    .host (hsegEx hostOps7 hostOps7_sub hostOps7_fresh' (fun c W => ArgsAt m c W) (fun c W => ArgsAt m c W) (fun c W h => argsAt_after7 m c W h) R),
    .host (hsegEx hostOps7_1 hostOps7_1_sub hostOps7_1_fresh' (fun c W => ArgsAt m c W) (fun c W => ArgsAt m c W) (fun c W h => argsAt_after7_1 m c W h) R) ]

theorem main_runR (c : Dev nD) : main (F := F) c = Pipeline.RDat.Seg.run (segsR m ρ) := (main_chain c).trans (by chain_rfl)

abbrev TₙR (c : Dev nD) : sProp 𝕄 :=
  iprop((∃ W, ⌜ArgsAt m c W⌝ ∗ StableHlo.held (c : Thread nD τ) (Pipeline.ucRefs τ sig) W) ∗ ∃ r, prngReg c r)

set_option backward.isDefEq.respectTransparency.types false in

theorem frame_anyMem : θ_run defs (onTc (τ := τ) (main (F := F))) ⟨m, fun _ => 0, ρ⟩ (fun r => ∀ c : Dev nD, ArgsMem m c r.2) :=
  Pipeline.RDat.θ_run_regions_kit (pcfgs (F := F)) (adm m ρ) (rdats m ρ) () (cellOf_inj (adm m ρ)) embL defs₀ 𝒱₀ L lv m ρ main (segsR m ρ)
    (fun c Q => by rw [main_runR m ρ c])
    (by simp only [segsR, Pipeline.RDat.Seg.pipes_host, Pipeline.RDat.Seg.pipes_region, Pipeline.RDat.Seg.pipes_nil]; decide)
    (O₀ := 0) (hL := fun _ _ => rfl) (G := fun _ => iprop(emp))
    (u₀ := (initOf (Pipeline.cells (Pipeline.pin (pcfgs (F := F)) (adm m ρ)) (cellOf_inj (adm m ρ))) (Pipeline.launchToks (Pipeline.pin (pcfgs (F := F)) (adm m ρ)) (cellOf_inj (adm m ρ))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := TₙR m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(∃ W, ⌜ArgsAt m c W⌝ ∗ StableHlo.held (c : Thread nD τ) (Pipeline.ucRefs τ sig) W ∗ R c)
        ⊢ iprop(TₙR m c ∗ ∃ W, owes (c : Thread nD τ) (0 : CellTallies nD τ sig Unit) W)
      iintro ⟨%W, %hW, Hh, Hp, HO⟩
      isplitl [Hh Hp]
      · isplitl [Hh]
        · iexists W; isplitr; · ipureintro; exact hW
          iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ArgsMem m c s)
    (hfin := fun c s' => by
      iintro ⟨⟨Hh, -⟩, HSI⟩
      imodintro
      iapply (argsAt_read m c s')
      isplitl [Hh] <;> iassumption)
    (hQ := fun s h c => h c)

theorem frame_any : θ_run defs (onTc (τ := τ) (main (F := F))) ⟨m, fun _ => 0, ρ⟩ (fun r => ∀ c : Dev nD, ArgsMem14 m c r.2) :=
  (θ_run defs _ _).mono (fun _ h c => (h c).conj) (frame_anyMem m ρ)

end Cert.KernelIdeal.Hand

end
-- ==== Proof.KI.LinSpec.lean ====
import Mathlib.Data.EReal.Basic
import Mathlib.Data.Fintype.Basic
import Mathlib.Algebra.BigOperators.Group.Finset.Basic

noncomputable section

open scoped BigOperators

namespace Cert.KernelIdeal.Hand

def linRow {K N : ℕ} (x : Fin K → EReal) (w : Fin N → Fin K → EReal) (b : Fin N → EReal) (n : Fin N) : EReal :=
  (∑ k : Fin K, x k * w n k) + b n

def dotRow {K N : ℕ} (x : Fin K → EReal) (e : Fin K → Fin N → EReal) (n : Fin N) : EReal :=
  ∑ k : Fin K, x k * e k n

end Cert.KernelIdeal.Hand
-- ==== Proof.KI.PayIdeal.lean ====
import proofs.«409304_j78383153152469_3_alg».proof.Proof.Gen.KernelIdeal.Skeleton
import proofs.«409304_j78383153152469_3_alg».proof.Proof.KI.LinSpec
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx
open Cert.KernelIdeal Cert.KernelIdeal.Gen

namespace Cert.KernelIdeal.Hand

theorem lhs_k1_0 (i : S1x512.Idx) (q : dot_S1x2048_S512x2048_S1x512_1_1_0_0_n_n.contr.Idx) :
    (dot_S1x2048_S512x2048_S1x512_1_1_0_0_n_n.lhsIdx i q 0).val = (i 0).val := by
  unfold DotDims.lhsIdx
  rw [dif_neg (show ¬(0 : Fin S1x2048.rank) ∈ dot_S1x2048_S512x2048_S1x512_1_1_0_0_n_n.lhsBatch by decide), dif_pos (show (0 : Fin S1x2048.rank) ∈ dot_S1x2048_S512x2048_S1x512_1_1_0_0_n_n.lhsNonContracting by decide)]
  rfl

theorem lhs_k1_1 (i : S1x512.Idx) (q : dot_S1x2048_S512x2048_S1x512_1_1_0_0_n_n.contr.Idx) :
    (dot_S1x2048_S512x2048_S1x512_1_1_0_0_n_n.lhsIdx i q 1).val = (q ⟨0, by decide⟩).val :=
  dot_S1x2048_S512x2048_S1x512_1_1_0_0_n_n.lhsIdx_val_of_single rfl i q

theorem rhs_k1_0 (i : S1x512.Idx) (q : dot_S1x2048_S512x2048_S1x512_1_1_0_0_n_n.contr.Idx) :
    (dot_S1x2048_S512x2048_S1x512_1_1_0_0_n_n.rhsIdx i q 0).val = (i 1).val := by
  unfold DotDims.rhsIdx
  rw [dif_neg (show ¬(0 : Fin S512x2048.rank) ∈ dot_S1x2048_S512x2048_S1x512_1_1_0_0_n_n.rhsBatch by decide), dif_pos (show (0 : Fin S512x2048.rank) ∈ dot_S1x2048_S512x2048_S1x512_1_1_0_0_n_n.rhsNonContracting by decide)]
  rfl

theorem rhs_k1_1 (i : S1x512.Idx) (q : dot_S1x2048_S512x2048_S1x512_1_1_0_0_n_n.contr.Idx) :
    (dot_S1x2048_S512x2048_S1x512_1_1_0_0_n_n.rhsIdx i q 1).val = (q ⟨0, by decide⟩).val :=
  dot_S1x2048_S512x2048_S1x512_1_1_0_0_n_n.rhsIdx_val_of_single rfl i q

theorem mm_k1_apply (x : FVec Ideal S1x2048 .bf16) (w : FVec Ideal S512x2048 .bf16) (p : Fin 1) (n : Fin 512) :
    FloatOps.matmul dot_S1x2048_S512x2048_S1x512_1_1_0_0_n_n none x w (constant (F := Ideal) S1x512 .f32 0x00000000#32) (ix2 p n)
      = ∑ k : Fin 2048, x (ix2 p k) * w (ix2 n k) := by
  rw [Ideal.matmul_constant_zero_apply, ← Equiv.sum_comp (contrEquiv1 dot_S1x2048_S512x2048_S1x512_1_1_0_0_n_n 2048 rfl rfl).symm]
  refine Finset.sum_congr rfl fun k _ => ?_
  have hk := contrEquiv1_symm_val dot_S1x2048_S512x2048_S1x512_1_1_0_0_n_n 2048 rfl rfl k
  have el : dot_S1x2048_S512x2048_S1x512_1_1_0_0_n_n.lhsIdx (ix2 p n) ((contrEquiv1 dot_S1x2048_S512x2048_S1x512_1_1_0_0_n_n 2048 rfl rfl).symm k) = ix2 p k := funext fun a => Fin.ext (by
    match a with
    | ⟨0, _⟩ => exact lhs_k1_0 _ _
    | ⟨1, _⟩ => exact (lhs_k1_1 _ _).trans hk)
  have er : dot_S1x2048_S512x2048_S1x512_1_1_0_0_n_n.rhsIdx (ix2 p n) ((contrEquiv1 dot_S1x2048_S512x2048_S1x512_1_1_0_0_n_n 2048 rfl rfl).symm k) = ix2 n k := funext fun a => Fin.ext (by
    match a with
    | ⟨0, _⟩ => exact rhs_k1_0 _ _
    | ⟨1, _⟩ => exact (rhs_k1_1 _ _).trans hk)
  rw [el, er]

theorem k1_pay1_ideal (x : Vec Ideal S1x2048 .f32) (w : Vec Ideal S512x2048 .f32) (b : Vec Ideal S1x512 .f32) (n : Fin 512) :
    k1_pay1 (F := Ideal) x w b (ix2 (0 : Fin 1) n)
      = linRow (fun k : Fin 2048 => x (ix2 (0 : Fin 1) k)) (fun n' k => w (ix2 n' k)) (fun n' : Fin 512 => b (ix2 (0 : Fin 1) n')) n := by
  unfold k1_pay1 linRow
  rw [addf_apply, shapeCast_self, shapeCast_self]
  exact congrArg (· + b (ix2 (0 : Fin 1) n)) (mm_k1_apply _ _ 0 n)

theorem lhs_k2_0 (i : S1x1024.Idx) (q : dot_S1x512_S512x1024_S1x1024_1_0_0_1_n_n.contr.Idx) :
    (dot_S1x512_S512x1024_S1x1024_1_0_0_1_n_n.lhsIdx i q 0).val = (i 0).val := by
  unfold DotDims.lhsIdx
  rw [dif_neg (show ¬(0 : Fin S1x512.rank) ∈ dot_S1x512_S512x1024_S1x1024_1_0_0_1_n_n.lhsBatch by decide), dif_pos (show (0 : Fin S1x512.rank) ∈ dot_S1x512_S512x1024_S1x1024_1_0_0_1_n_n.lhsNonContracting by decide)]
  rfl

theorem lhs_k2_1 (i : S1x1024.Idx) (q : dot_S1x512_S512x1024_S1x1024_1_0_0_1_n_n.contr.Idx) :
    (dot_S1x512_S512x1024_S1x1024_1_0_0_1_n_n.lhsIdx i q 1).val = (q ⟨0, by decide⟩).val :=
  dot_S1x512_S512x1024_S1x1024_1_0_0_1_n_n.lhsIdx_val_of_single rfl i q

theorem rhs_k2_0 (i : S1x1024.Idx) (q : dot_S1x512_S512x1024_S1x1024_1_0_0_1_n_n.contr.Idx) :
    (dot_S1x512_S512x1024_S1x1024_1_0_0_1_n_n.rhsIdx i q 0).val = (q ⟨0, by decide⟩).val :=
  dot_S1x512_S512x1024_S1x1024_1_0_0_1_n_n.rhsIdx_val_of_single rfl i q

theorem rhs_k2_1 (i : S1x1024.Idx) (q : dot_S1x512_S512x1024_S1x1024_1_0_0_1_n_n.contr.Idx) :
    (dot_S1x512_S512x1024_S1x1024_1_0_0_1_n_n.rhsIdx i q 1).val = (i 1).val := by
  unfold DotDims.rhsIdx
  rw [dif_neg (show ¬(1 : Fin S512x1024.rank) ∈ dot_S1x512_S512x1024_S1x1024_1_0_0_1_n_n.rhsBatch by decide), dif_pos (show (1 : Fin S512x1024.rank) ∈ dot_S1x512_S512x1024_S1x1024_1_0_0_1_n_n.rhsNonContracting by decide)]
  rfl

theorem mm_k2_apply (x : FVec Ideal S1x512 .bf16) (e : FVec Ideal S512x1024 .bf16) (p : Fin 1) (n : Fin 1024) :
    FloatOps.matmul dot_S1x512_S512x1024_S1x1024_1_0_0_1_n_n none x e (constant (F := Ideal) S1x1024 .f32 0x00000000#32) (ix2 p n)
      = ∑ k : Fin 512, x (ix2 p k) * e (ix2 k n) := by
  rw [Ideal.matmul_constant_zero_apply, ← Equiv.sum_comp (contrEquiv1 dot_S1x512_S512x1024_S1x1024_1_0_0_1_n_n 512 rfl rfl).symm]
  refine Finset.sum_congr rfl fun k _ => ?_
  have hk := contrEquiv1_symm_val dot_S1x512_S512x1024_S1x1024_1_0_0_1_n_n 512 rfl rfl k
  have el : dot_S1x512_S512x1024_S1x1024_1_0_0_1_n_n.lhsIdx (ix2 p n) ((contrEquiv1 dot_S1x512_S512x1024_S1x1024_1_0_0_1_n_n 512 rfl rfl).symm k) = ix2 p k := funext fun a => Fin.ext (by
    match a with
    | ⟨0, _⟩ => exact lhs_k2_0 _ _
    | ⟨1, _⟩ => exact (lhs_k2_1 _ _).trans hk)
  have er : dot_S1x512_S512x1024_S1x1024_1_0_0_1_n_n.rhsIdx (ix2 p n) ((contrEquiv1 dot_S1x512_S512x1024_S1x1024_1_0_0_1_n_n 512 rfl rfl).symm k) = ix2 k n := funext fun a => Fin.ext (by
    match a with
    | ⟨0, _⟩ => exact (rhs_k2_0 _ _).trans hk
    | ⟨1, _⟩ => exact rhs_k2_1 _ _)
  rw [el, er]

theorem k2_pay1_ideal (x : Vec Ideal S1x512 .f32) (e : Vec Ideal S512x1024 .f32) (n : Fin 1024) :
    k2_pay1 (F := Ideal) x e (ix2 (0 : Fin 1) n)
      = dotRow (fun k : Fin 512 => x (ix2 (0 : Fin 1) k)) (fun k n' => e (ix2 k n')) n := by
  unfold k2_pay1 dotRow
  rw [shapeCast_self]
  exact mm_k2_apply _ _ 0 n

theorem lhs_k3_0 (i : S1x1024.Idx) (q : dot_S1x2048_S1024x2048_S1x1024_1_1_0_0_n_n.contr.Idx) :
    (dot_S1x2048_S1024x2048_S1x1024_1_1_0_0_n_n.lhsIdx i q 0).val = (i 0).val := by
  unfold DotDims.lhsIdx
  rw [dif_neg (show ¬(0 : Fin S1x2048.rank) ∈ dot_S1x2048_S1024x2048_S1x1024_1_1_0_0_n_n.lhsBatch by decide), dif_pos (show (0 : Fin S1x2048.rank) ∈ dot_S1x2048_S1024x2048_S1x1024_1_1_0_0_n_n.lhsNonContracting by decide)]
  rfl

theorem lhs_k3_1 (i : S1x1024.Idx) (q : dot_S1x2048_S1024x2048_S1x1024_1_1_0_0_n_n.contr.Idx) :
    (dot_S1x2048_S1024x2048_S1x1024_1_1_0_0_n_n.lhsIdx i q 1).val = (q ⟨0, by decide⟩).val :=
  dot_S1x2048_S1024x2048_S1x1024_1_1_0_0_n_n.lhsIdx_val_of_single rfl i q

theorem rhs_k3_0 (i : S1x1024.Idx) (q : dot_S1x2048_S1024x2048_S1x1024_1_1_0_0_n_n.contr.Idx) :
    (dot_S1x2048_S1024x2048_S1x1024_1_1_0_0_n_n.rhsIdx i q 0).val = (i 1).val := by
  unfold DotDims.rhsIdx
  rw [dif_neg (show ¬(0 : Fin S1024x2048.rank) ∈ dot_S1x2048_S1024x2048_S1x1024_1_1_0_0_n_n.rhsBatch by decide), dif_pos (show (0 : Fin S1024x2048.rank) ∈ dot_S1x2048_S1024x2048_S1x1024_1_1_0_0_n_n.rhsNonContracting by decide)]
  rfl

theorem rhs_k3_1 (i : S1x1024.Idx) (q : dot_S1x2048_S1024x2048_S1x1024_1_1_0_0_n_n.contr.Idx) :
    (dot_S1x2048_S1024x2048_S1x1024_1_1_0_0_n_n.rhsIdx i q 1).val = (q ⟨0, by decide⟩).val :=
  dot_S1x2048_S1024x2048_S1x1024_1_1_0_0_n_n.rhsIdx_val_of_single rfl i q

theorem mm_k3_apply (x : FVec Ideal S1x2048 .bf16) (w : FVec Ideal S1024x2048 .bf16) (p : Fin 1) (n : Fin 1024) :
    FloatOps.matmul dot_S1x2048_S1024x2048_S1x1024_1_1_0_0_n_n none x w (constant (F := Ideal) S1x1024 .f32 0x00000000#32) (ix2 p n)
      = ∑ k : Fin 2048, x (ix2 p k) * w (ix2 n k) := by
  rw [Ideal.matmul_constant_zero_apply, ← Equiv.sum_comp (contrEquiv1 dot_S1x2048_S1024x2048_S1x1024_1_1_0_0_n_n 2048 rfl rfl).symm]
  refine Finset.sum_congr rfl fun k _ => ?_
  have hk := contrEquiv1_symm_val dot_S1x2048_S1024x2048_S1x1024_1_1_0_0_n_n 2048 rfl rfl k
  have el : dot_S1x2048_S1024x2048_S1x1024_1_1_0_0_n_n.lhsIdx (ix2 p n) ((contrEquiv1 dot_S1x2048_S1024x2048_S1x1024_1_1_0_0_n_n 2048 rfl rfl).symm k) = ix2 p k := funext fun a => Fin.ext (by
    match a with
    | ⟨0, _⟩ => exact lhs_k3_0 _ _
    | ⟨1, _⟩ => exact (lhs_k3_1 _ _).trans hk)
  have er : dot_S1x2048_S1024x2048_S1x1024_1_1_0_0_n_n.rhsIdx (ix2 p n) ((contrEquiv1 dot_S1x2048_S1024x2048_S1x1024_1_1_0_0_n_n 2048 rfl rfl).symm k) = ix2 n k := funext fun a => Fin.ext (by
    match a with
    | ⟨0, _⟩ => exact rhs_k3_0 _ _
    | ⟨1, _⟩ => exact (rhs_k3_1 _ _).trans hk)
  rw [el, er]

theorem k3_pay1_ideal (x : Vec Ideal S1x2048 .f32) (w : Vec Ideal S1024x2048 .f32) (b : Vec Ideal S1x1024 .f32) (n : Fin 1024) :
    k3_pay1 (F := Ideal) x w b (ix2 (0 : Fin 1) n)
      = linRow (fun k : Fin 2048 => x (ix2 (0 : Fin 1) k)) (fun n' k => w (ix2 n' k)) (fun n' : Fin 1024 => b (ix2 (0 : Fin 1) n')) n := by
  unfold k3_pay1 linRow
  rw [addf_apply, shapeCast_self, shapeCast_self]
  exact congrArg (· + b (ix2 (0 : Fin 1) n)) (mm_k3_apply _ _ 0 n)

theorem lhs_k4_0 (i : S1x3072.Idx) (q : dot_S1x1024_S3072x1024_S1x3072_1_1_0_0_n_n.contr.Idx) :
    (dot_S1x1024_S3072x1024_S1x3072_1_1_0_0_n_n.lhsIdx i q 0).val = (i 0).val := by
  unfold DotDims.lhsIdx
  rw [dif_neg (show ¬(0 : Fin S1x1024.rank) ∈ dot_S1x1024_S3072x1024_S1x3072_1_1_0_0_n_n.lhsBatch by decide), dif_pos (show (0 : Fin S1x1024.rank) ∈ dot_S1x1024_S3072x1024_S1x3072_1_1_0_0_n_n.lhsNonContracting by decide)]
  rfl

theorem lhs_k4_1 (i : S1x3072.Idx) (q : dot_S1x1024_S3072x1024_S1x3072_1_1_0_0_n_n.contr.Idx) :
    (dot_S1x1024_S3072x1024_S1x3072_1_1_0_0_n_n.lhsIdx i q 1).val = (q ⟨0, by decide⟩).val :=
  dot_S1x1024_S3072x1024_S1x3072_1_1_0_0_n_n.lhsIdx_val_of_single rfl i q

theorem rhs_k4_0 (i : S1x3072.Idx) (q : dot_S1x1024_S3072x1024_S1x3072_1_1_0_0_n_n.contr.Idx) :
    (dot_S1x1024_S3072x1024_S1x3072_1_1_0_0_n_n.rhsIdx i q 0).val = (i 1).val := by
  unfold DotDims.rhsIdx
  rw [dif_neg (show ¬(0 : Fin S3072x1024.rank) ∈ dot_S1x1024_S3072x1024_S1x3072_1_1_0_0_n_n.rhsBatch by decide), dif_pos (show (0 : Fin S3072x1024.rank) ∈ dot_S1x1024_S3072x1024_S1x3072_1_1_0_0_n_n.rhsNonContracting by decide)]
  rfl

theorem rhs_k4_1 (i : S1x3072.Idx) (q : dot_S1x1024_S3072x1024_S1x3072_1_1_0_0_n_n.contr.Idx) :
    (dot_S1x1024_S3072x1024_S1x3072_1_1_0_0_n_n.rhsIdx i q 1).val = (q ⟨0, by decide⟩).val :=
  dot_S1x1024_S3072x1024_S1x3072_1_1_0_0_n_n.rhsIdx_val_of_single rfl i q

theorem mm_k4_apply (x : FVec Ideal S1x1024 .bf16) (w : FVec Ideal S3072x1024 .bf16) (p : Fin 1) (n : Fin 3072) :
    FloatOps.matmul dot_S1x1024_S3072x1024_S1x3072_1_1_0_0_n_n none x w (constant (F := Ideal) S1x3072 .f32 0x00000000#32) (ix2 p n)
      = ∑ k : Fin 1024, x (ix2 p k) * w (ix2 n k) := by
  rw [Ideal.matmul_constant_zero_apply, ← Equiv.sum_comp (contrEquiv1 dot_S1x1024_S3072x1024_S1x3072_1_1_0_0_n_n 1024 rfl rfl).symm]
  refine Finset.sum_congr rfl fun k _ => ?_
  have hk := contrEquiv1_symm_val dot_S1x1024_S3072x1024_S1x3072_1_1_0_0_n_n 1024 rfl rfl k
  have el : dot_S1x1024_S3072x1024_S1x3072_1_1_0_0_n_n.lhsIdx (ix2 p n) ((contrEquiv1 dot_S1x1024_S3072x1024_S1x3072_1_1_0_0_n_n 1024 rfl rfl).symm k) = ix2 p k := funext fun a => Fin.ext (by
    match a with
    | ⟨0, _⟩ => exact lhs_k4_0 _ _
    | ⟨1, _⟩ => exact (lhs_k4_1 _ _).trans hk)
  have er : dot_S1x1024_S3072x1024_S1x3072_1_1_0_0_n_n.rhsIdx (ix2 p n) ((contrEquiv1 dot_S1x1024_S3072x1024_S1x3072_1_1_0_0_n_n 1024 rfl rfl).symm k) = ix2 n k := funext fun a => Fin.ext (by
    match a with
    | ⟨0, _⟩ => exact rhs_k4_0 _ _
    | ⟨1, _⟩ => exact (rhs_k4_1 _ _).trans hk)
  rw [el, er]

theorem k4_pay1_ideal (x : Vec Ideal S1x1024 .f32) (w : Vec Ideal S3072x1024 .f32) (b : Vec Ideal S1x3072 .f32) (n : Fin 3072) :
    k4_pay1 (F := Ideal) x w b (ix2 (0 : Fin 1) n)
      = linRow (fun k : Fin 1024 => x (ix2 (0 : Fin 1) k)) (fun n' k => w (ix2 n' k)) (fun n' : Fin 3072 => b (ix2 (0 : Fin 1) n')) n := by
  unfold k4_pay1 linRow
  rw [addf_apply, shapeCast_self, shapeCast_self]
  exact congrArg (· + b (ix2 (0 : Fin 1) n)) (mm_k4_apply _ _ 0 n)

theorem lhs_k5_0 (i : S1x3072.Idx) (q : dot_S1x1024_S3072x1024_S1x3072_1_1_0_0_n_n.contr.Idx) :
    (dot_S1x1024_S3072x1024_S1x3072_1_1_0_0_n_n.lhsIdx i q 0).val = (i 0).val := by
  unfold DotDims.lhsIdx
  rw [dif_neg (show ¬(0 : Fin S1x1024.rank) ∈ dot_S1x1024_S3072x1024_S1x3072_1_1_0_0_n_n.lhsBatch by decide), dif_pos (show (0 : Fin S1x1024.rank) ∈ dot_S1x1024_S3072x1024_S1x3072_1_1_0_0_n_n.lhsNonContracting by decide)]
  rfl

theorem lhs_k5_1 (i : S1x3072.Idx) (q : dot_S1x1024_S3072x1024_S1x3072_1_1_0_0_n_n.contr.Idx) :
    (dot_S1x1024_S3072x1024_S1x3072_1_1_0_0_n_n.lhsIdx i q 1).val = (q ⟨0, by decide⟩).val :=
  dot_S1x1024_S3072x1024_S1x3072_1_1_0_0_n_n.lhsIdx_val_of_single rfl i q

theorem rhs_k5_0 (i : S1x3072.Idx) (q : dot_S1x1024_S3072x1024_S1x3072_1_1_0_0_n_n.contr.Idx) :
    (dot_S1x1024_S3072x1024_S1x3072_1_1_0_0_n_n.rhsIdx i q 0).val = (i 1).val := by
  unfold DotDims.rhsIdx
  rw [dif_neg (show ¬(0 : Fin S3072x1024.rank) ∈ dot_S1x1024_S3072x1024_S1x3072_1_1_0_0_n_n.rhsBatch by decide), dif_pos (show (0 : Fin S3072x1024.rank) ∈ dot_S1x1024_S3072x1024_S1x3072_1_1_0_0_n_n.rhsNonContracting by decide)]
  rfl

theorem rhs_k5_1 (i : S1x3072.Idx) (q : dot_S1x1024_S3072x1024_S1x3072_1_1_0_0_n_n.contr.Idx) :
    (dot_S1x1024_S3072x1024_S1x3072_1_1_0_0_n_n.rhsIdx i q 1).val = (q ⟨0, by decide⟩).val :=
  dot_S1x1024_S3072x1024_S1x3072_1_1_0_0_n_n.rhsIdx_val_of_single rfl i q

theorem mm_k5_apply (x : FVec Ideal S1x1024 .bf16) (w : FVec Ideal S3072x1024 .bf16) (p : Fin 1) (n : Fin 3072) :
    FloatOps.matmul dot_S1x1024_S3072x1024_S1x3072_1_1_0_0_n_n none x w (constant (F := Ideal) S1x3072 .f32 0x00000000#32) (ix2 p n)
      = ∑ k : Fin 1024, x (ix2 p k) * w (ix2 n k) := by
  rw [Ideal.matmul_constant_zero_apply, ← Equiv.sum_comp (contrEquiv1 dot_S1x1024_S3072x1024_S1x3072_1_1_0_0_n_n 1024 rfl rfl).symm]
  refine Finset.sum_congr rfl fun k _ => ?_
  have hk := contrEquiv1_symm_val dot_S1x1024_S3072x1024_S1x3072_1_1_0_0_n_n 1024 rfl rfl k
  have el : dot_S1x1024_S3072x1024_S1x3072_1_1_0_0_n_n.lhsIdx (ix2 p n) ((contrEquiv1 dot_S1x1024_S3072x1024_S1x3072_1_1_0_0_n_n 1024 rfl rfl).symm k) = ix2 p k := funext fun a => Fin.ext (by
    match a with
    | ⟨0, _⟩ => exact lhs_k5_0 _ _
    | ⟨1, _⟩ => exact (lhs_k5_1 _ _).trans hk)
  have er : dot_S1x1024_S3072x1024_S1x3072_1_1_0_0_n_n.rhsIdx (ix2 p n) ((contrEquiv1 dot_S1x1024_S3072x1024_S1x3072_1_1_0_0_n_n 1024 rfl rfl).symm k) = ix2 n k := funext fun a => Fin.ext (by
    match a with
    | ⟨0, _⟩ => exact rhs_k5_0 _ _
    | ⟨1, _⟩ => exact (rhs_k5_1 _ _).trans hk)
  rw [el, er]

theorem k5_pay1_ideal (x : Vec Ideal S1x1024 .f32) (w : Vec Ideal S3072x1024 .f32) (b : Vec Ideal S1x3072 .f32) (n : Fin 3072) :
    k5_pay1 (F := Ideal) x w b (ix2 (0 : Fin 1) n)
      = linRow (fun k : Fin 1024 => x (ix2 (0 : Fin 1) k)) (fun n' k => w (ix2 n' k)) (fun n' : Fin 3072 => b (ix2 (0 : Fin 1) n')) n := by
  unfold k5_pay1 linRow
  rw [addf_apply, shapeCast_self, shapeCast_self]
  exact congrArg (· + b (ix2 (0 : Fin 1) n)) (mm_k5_apply _ _ 0 n)

theorem lhs_k6_0 (i : S1x4096.Idx) (q : dot_S1x1024_S4096x1024_S1x4096_1_1_0_0_n_n.contr.Idx) :
    (dot_S1x1024_S4096x1024_S1x4096_1_1_0_0_n_n.lhsIdx i q 0).val = (i 0).val := by
  unfold DotDims.lhsIdx
  rw [dif_neg (show ¬(0 : Fin S1x1024.rank) ∈ dot_S1x1024_S4096x1024_S1x4096_1_1_0_0_n_n.lhsBatch by decide), dif_pos (show (0 : Fin S1x1024.rank) ∈ dot_S1x1024_S4096x1024_S1x4096_1_1_0_0_n_n.lhsNonContracting by decide)]
  rfl

theorem lhs_k6_1 (i : S1x4096.Idx) (q : dot_S1x1024_S4096x1024_S1x4096_1_1_0_0_n_n.contr.Idx) :
    (dot_S1x1024_S4096x1024_S1x4096_1_1_0_0_n_n.lhsIdx i q 1).val = (q ⟨0, by decide⟩).val :=
  dot_S1x1024_S4096x1024_S1x4096_1_1_0_0_n_n.lhsIdx_val_of_single rfl i q

theorem rhs_k6_0 (i : S1x4096.Idx) (q : dot_S1x1024_S4096x1024_S1x4096_1_1_0_0_n_n.contr.Idx) :
    (dot_S1x1024_S4096x1024_S1x4096_1_1_0_0_n_n.rhsIdx i q 0).val = (i 1).val := by
  unfold DotDims.rhsIdx
  rw [dif_neg (show ¬(0 : Fin S4096x1024.rank) ∈ dot_S1x1024_S4096x1024_S1x4096_1_1_0_0_n_n.rhsBatch by decide), dif_pos (show (0 : Fin S4096x1024.rank) ∈ dot_S1x1024_S4096x1024_S1x4096_1_1_0_0_n_n.rhsNonContracting by decide)]
  rfl

theorem rhs_k6_1 (i : S1x4096.Idx) (q : dot_S1x1024_S4096x1024_S1x4096_1_1_0_0_n_n.contr.Idx) :
    (dot_S1x1024_S4096x1024_S1x4096_1_1_0_0_n_n.rhsIdx i q 1).val = (q ⟨0, by decide⟩).val :=
  dot_S1x1024_S4096x1024_S1x4096_1_1_0_0_n_n.rhsIdx_val_of_single rfl i q

theorem mm_k6_apply (x : FVec Ideal S1x1024 .bf16) (w : FVec Ideal S4096x1024 .bf16) (p : Fin 1) (n : Fin 4096) :
    FloatOps.matmul dot_S1x1024_S4096x1024_S1x4096_1_1_0_0_n_n none x w (constant (F := Ideal) S1x4096 .f32 0x00000000#32) (ix2 p n)
      = ∑ k : Fin 1024, x (ix2 p k) * w (ix2 n k) := by
  rw [Ideal.matmul_constant_zero_apply, ← Equiv.sum_comp (contrEquiv1 dot_S1x1024_S4096x1024_S1x4096_1_1_0_0_n_n 1024 rfl rfl).symm]
  refine Finset.sum_congr rfl fun k _ => ?_
  have hk := contrEquiv1_symm_val dot_S1x1024_S4096x1024_S1x4096_1_1_0_0_n_n 1024 rfl rfl k
  have el : dot_S1x1024_S4096x1024_S1x4096_1_1_0_0_n_n.lhsIdx (ix2 p n) ((contrEquiv1 dot_S1x1024_S4096x1024_S1x4096_1_1_0_0_n_n 1024 rfl rfl).symm k) = ix2 p k := funext fun a => Fin.ext (by
    match a with
    | ⟨0, _⟩ => exact lhs_k6_0 _ _
    | ⟨1, _⟩ => exact (lhs_k6_1 _ _).trans hk)
  have er : dot_S1x1024_S4096x1024_S1x4096_1_1_0_0_n_n.rhsIdx (ix2 p n) ((contrEquiv1 dot_S1x1024_S4096x1024_S1x4096_1_1_0_0_n_n 1024 rfl rfl).symm k) = ix2 n k := funext fun a => Fin.ext (by
    match a with
    | ⟨0, _⟩ => exact rhs_k6_0 _ _
    | ⟨1, _⟩ => exact (rhs_k6_1 _ _).trans hk)
  rw [el, er]

theorem k6_pay1_ideal (x : Vec Ideal S1x1024 .f32) (w : Vec Ideal S4096x1024 .f32) (b : Vec Ideal S1x4096 .f32) (n : Fin 4096) :
    k6_pay1 (F := Ideal) x w b (ix2 (0 : Fin 1) n)
      = linRow (fun k : Fin 1024 => x (ix2 (0 : Fin 1) k)) (fun n' k => w (ix2 n' k)) (fun n' : Fin 4096 => b (ix2 (0 : Fin 1) n')) n := by
  unfold k6_pay1 linRow
  rw [addf_apply, shapeCast_self, shapeCast_self]
  exact congrArg (· + b (ix2 (0 : Fin 1) n)) (mm_k6_apply _ _ 0 n)

end Cert.KernelIdeal.Hand
-- ==== Proof.RefChains.lean ====
import proofs.«409304_j78383153152469_3_alg».proof.Proof.Gen.ReferenceIdeal

noncomputable section

namespace Cert.RefStages

open Cert.ReferenceIdeal Cert.ReferenceIdeal.Gen
open Idealize.ShloMosaic Idealize.ShloMosaic.TcCoe Idealize.SL.Sem Idealize.ShloMosaic.StableHlo

variable {F : FTy → Type} [FloatOps F]

def joinRows (a b : (⟨S1x1024, .f32⟩ : BufTy).Contents (Elt F)) : (⟨S1x2048, .f32⟩ : BufTy).Contents (Elt F) :=
  concatenate S1x2048 1 [⟨S1x1024, a⟩, ⟨S1x1024, b⟩] concatenates_S1x1024_S1x1024_S1x2048_d1

def expShiftRow (z : (⟨S1x512, .f32⟩ : BufTy).Contents (Elt F)) : (⟨S1x512, .f32⟩ : BufTy).Contents (Elt F) :=
  Host.exp (subf z (broadcastInDim S1x512 ![0, 1] bcast_S1x1_S1x512_0_1 (broadcastInDim S1x1 ![0] bcast_S1_S1x1_0
    (maximumf (broadcastInDim S1 ![] bcast_S_S1 (constant (F := F) S_ .f32 0xFF800000#32))
      (Host.reduce FloatOps.maximumf z (constant (F := F) S_ .f32 0xFF800000#32) reducesTo_S1x512_S1_d1 h_S_)))))

def softmaxRow (z : (⟨S1x512, .f32⟩ : BufTy).Contents (Elt F)) : (⟨S1x512, .f32⟩ : BufTy).Contents (Elt F) :=
  Host.divf (expShiftRow z) (broadcastInDim S1x512 ![0, 1] bcast_S1x1_S1x512_0_1 (broadcastInDim S1x1 ![0] bcast_S1_S1x1_0
    (Host.reduceAdd (expShiftRow z) (constant (F := F) S_ .f32 0x00000000#32) reducesTo_S1x512_S1_d1 h_S_)))

def reluRow (z : (⟨S1x1024, .f32⟩ : BufTy).Contents (Elt F)) : (⟨S1x1024, .f32⟩ : BufTy).Contents (Elt F) :=
  maximumf z (broadcastInDim S1x1024 ![] bcast_S_S1x1024 (constant (F := F) S_ .f32 0x00000000#32))

def third0 (g : (⟨S1x3072, .f32⟩ : BufTy).Contents (Elt F)) : (⟨S1x1024, .f32⟩ : BufTy).Contents (Elt F) :=
  extractStridedSlice S1x1024 ![0, 0] g slices_S1x3072_S1x1024_0_0

def third1 (g : (⟨S1x3072, .f32⟩ : BufTy).Contents (Elt F)) : (⟨S1x1024, .f32⟩ : BufTy).Contents (Elt F) :=
  extractStridedSlice S1x1024 ![0, 1024] g slices_S1x3072_S1x1024_0_1024

def third2 (g : (⟨S1x3072, .f32⟩ : BufTy).Contents (Elt F)) : (⟨S1x1024, .f32⟩ : BufTy).Contents (Elt F) :=
  extractStridedSlice S1x1024 ![0, 2048] g slices_S1x3072_S1x1024_0_2048

def onesRow : (⟨S1x1024, .f32⟩ : BufTy).Contents (Elt F) :=
  broadcastInDim S1x1024 ![] bcast_S_S1x1024 (constant (F := F) S_ .f32 0x3F800000#32)

def sigmoidRow (a : (⟨S1x1024, .f32⟩ : BufTy).Contents (Elt F)) : (⟨S1x1024, .f32⟩ : BufTy).Contents (Elt F) :=
  Host.divf (onesRow (F := F)) (addf (onesRow (F := F)) (Host.exp (Host.negf a)))

def gruRow (gi gh : (⟨S1x3072, .f32⟩ : BufTy).Contents (Elt F)) (h : (⟨S1x1024, .f32⟩ : BufTy).Contents (Elt F)) :
    (⟨S1x1024, .f32⟩ : BufTy).Contents (Elt F) :=
  addf
    (mulf (subf (onesRow (F := F)) (sigmoidRow (addf (third1 gi) (third1 gh))))
      (Host.tanh (addf (third2 gi) (mulf (sigmoidRow (addf (third0 gi) (third0 gh))) (third2 gh)))))
    (mulf (sigmoidRow (addf (third1 gi) (third1 gh))) h)

def unitAxisRow (h : (⟨S1x1024, .f32⟩ : BufTy).Contents (Elt F)) : (⟨S1x1x1024, .f32⟩ : BufTy).Contents (Elt F) :=
  broadcastInDim S1x1x1024 ![1, 2] bcast_S1x1024_S1x1x1024_1_2 h

def shiftRow (z : (⟨S1x50257, .f32⟩ : BufTy).Contents (Elt F)) : (⟨S1x50257, .f32⟩ : BufTy).Contents (Elt F) :=
  subf z (broadcastInDim S1x50257 ![0, 1] bcast_S1x1_S1x50257_0_1 (broadcastInDim S1x1 ![0] bcast_S1_S1x1_0
    (maximumf (broadcastInDim S1 ![] bcast_S_S1 (constant (F := F) S_ .f32 0xFF800000#32))
      (Host.reduce FloatOps.maximumf z (constant (F := F) S_ .f32 0xFF800000#32) reducesTo_S1x50257_S1_d1 h_S_))))

def logSoftmaxRow (z : (⟨S1x50257, .f32⟩ : BufTy).Contents (Elt F)) : (⟨S1x50257, .f32⟩ : BufTy).Contents (Elt F) :=
  subf (shiftRow z) (broadcastInDim S1x50257 ![0, 1] bcast_S1x1_S1x50257_0_1 (Host.log (broadcastInDim S1x1 ![0] bcast_S1_S1x1_0
    (Host.reduceAdd (Host.exp (shiftRow z)) (constant (F := F) S_ .f32 0x00000000#32) reducesTo_S1x50257_S1_d1 h_S_))))

end Cert.RefStages

end
-- ==== Proof.MatchChains.lean ====
import proofs.«409304_j78383153152469_3_alg».proof.Proof.KI.HostVals
import proofs.«409304_j78383153152469_3_alg».proof.Proof.RefChains
import Idealize.ShloMosaic.Lib.ValueLayout

noncomputable section

namespace Cert.MatchChains

open Idealize.ShloMosaic Idealize.ShloMosaic.ValueIdx

variable {F : FTy → Type} [FloatOps F]

theorem cat2_eq (a b : FVec F Cert.KernelIdeal.S1x1024 .f32) :
    Cert.KernelIdeal.Hand.cat2 a b = Cert.RefStages.joinRows (F := F) a b := rfl

theorem softmaxOps_eq (z : FVec F Cert.KernelIdeal.S1x512 .f32) :
    Cert.KernelIdeal.Hand.softmaxOps z = Cert.RefStages.softmaxRow (F := F) z := rfl

theorem reluOps_eq (z : FVec F Cert.KernelIdeal.S1x1024 .f32) :
    Cert.KernelIdeal.Hand.reluOps z = Cert.RefStages.reluRow (F := F) z := rfl

theorem gruOps_eq (gi gh : FVec F Cert.KernelIdeal.S1x3072 .f32) (h : FVec F Cert.KernelIdeal.S1x1024 .f32) :
    Cert.KernelIdeal.Hand.gruOps gi gh h = Cert.RefStages.gruRow (F := F) gi gh h := rfl

theorem lift1x1024_eq (h : FVec F Cert.KernelIdeal.S1x1024 .f32) :
    Cert.KernelIdeal.Hand.lift1x1024 h = Cert.RefStages.unitAxisRow (F := F) h := rfl

theorem logSoftmaxOps_eq (z : FVec F Cert.KernelIdeal.S1x50257 .f32) :
    Cert.KernelIdeal.Hand.logSoftmaxOps z = Cert.RefStages.logSoftmaxRow (F := F) z := rfl

theorem flat1x1x1024_eq (h : FVec F Cert.KernelIdeal.S1x1x1024 .f32) :
    Cert.KernelIdeal.Hand.flat1x1x1024 h
      = shapeCast Cert.ReferenceIdeal.S1x1024 h Cert.ReferenceIdeal.Gen.shapeCasts_S1x1x1024_S1x1024 := rfl

theorem row512_apply (b : FVec F Cert.KernelIdeal.S512 .f32) (n : Fin 512) :
    Cert.KernelIdeal.Hand.row512 b (ix2 (0 : Fin 1) n) = b (ix1 n) :=
  shapeCast_a_1a_apply b _ 0 n

theorem row1024_apply (b : FVec F Cert.KernelIdeal.S1024 .f32) (n : Fin 1024) :
    Cert.KernelIdeal.Hand.row1024 b (ix2 (0 : Fin 1) n) = b (ix1 n) :=
  shapeCast_a_1a_apply b _ 0 n

theorem row3072_apply (b : FVec F Cert.KernelIdeal.S3072 .f32) (n : Fin 3072) :
    Cert.KernelIdeal.Hand.row3072 b (ix2 (0 : Fin 1) n) = b (ix1 n) :=
  shapeCast_a_1a_apply b _ 0 n

theorem row50257_apply (b : FVec F Cert.KernelIdeal.S50257 .f32) (n : Fin 50257) :
    Cert.KernelIdeal.Hand.row50257 b (ix2 (0 : Fin 1) n) = b (ix1 n) :=
  shapeCast_a_1a_apply b _ 0 n

end Cert.MatchChains

end
-- ==== Proof.RefStages.lean ====
import proofs.«409304_j78383153152469_3_alg».proof.Proof.RefRead
import proofs.«409304_j78383153152469_3_alg».proof.Proof.KI.LinSpec
import proofs.«409304_j78383153152469_3_alg».proof.Proof.RefChains
import Idealize.ShloMosaic.Lib.StableHlo.Predicate

noncomputable section

namespace Cert.RefStages

open Cert.ReferenceIdeal Cert.RefHand.Read Cert.KernelIdeal.Hand
open Idealize.ShloMosaic Idealize.ShloMosaic.ValueIdx

theorem eq_row {n : ℕ} (i : (⟨2, ![1, n]⟩ : Shape).Idx) : i = ix2 (0 : Fin 1) (i 1) := by
  funext a
  match a with
  | ⟨0, _⟩ => exact Fin.fin_one_eq_zero (i 0)
  | ⟨1, _⟩ => rfl

section Linear

variable (x0 : (⟨S1, .i32⟩ : BufTy).Contents (Elt Ideal)) (x1 : (⟨S1x1x1024, .f32⟩ : BufTy).Contents (Elt Ideal))
  (x2 : (⟨S512x1024, .f32⟩ : BufTy).Contents (Elt Ideal)) (x3 : (⟨S50257x1024, .f32⟩ : BufTy).Contents (Elt Ideal))
  (x4 : (⟨S512x2048, .f32⟩ : BufTy).Contents (Elt Ideal)) (x5 : (⟨S512, .f32⟩ : BufTy).Contents (Elt Ideal))
  (x6 : (⟨S1024x2048, .f32⟩ : BufTy).Contents (Elt Ideal)) (x7 : (⟨S1024, .f32⟩ : BufTy).Contents (Elt Ideal))
  (x8 x9 : (⟨S3072x1024, .f32⟩ : BufTy).Contents (Elt Ideal)) (x10 x11 : (⟨S3072, .f32⟩ : BufTy).Contents (Elt Ideal))
  (x12 : (⟨S50257x1024, .f32⟩ : BufTy).Contents (Elt Ideal)) (x13 : (⟨S50257, .f32⟩ : BufTy).Contents (Elt Ideal))

theorem ref_logits_apply (n : Fin 512) :
    val_main_v12 (F := Ideal) x0 x1 x3 x4 x5 (ix2 (0 : Fin 1) n)
      = linRow (fun k : Fin 2048 => val_main_v8 (F := Ideal) x0 x1 x3 (ix2 (0 : Fin 1) k))
          (fun n' k => x4 (ix2 n' k)) (fun n' => x5 (ix1 n')) n := by
  have el : ∀ k : Fin 2048, lidx_main_v10 (ix2 (0 : Fin 1) n) k = ix2 (0 : Fin 1) k := fun k =>
    funext fun a => Fin.ext (by match a with | ⟨0, _⟩ => rfl | ⟨1, _⟩ => rfl)
  have er : ∀ k : Fin 2048, idx_main_v9 (ridx_main_v10 (ix2 (0 : Fin 1) n) k) = ix2 n k := fun k =>
    funext fun a => Fin.ext (by match a with | ⟨0, _⟩ => rfl | ⟨1, _⟩ => rfl)
  have eb : idx_main_v11 (ix2 (0 : Fin 1) n) = ix1 n :=
    funext fun a => Fin.ext (by match a with | ⟨0, _⟩ => rfl)
  rw [val_main_v12_apply, val_main_v10_apply, val_main_v11_apply]
  simp only [val_main_v9_apply, el, er, eb, Ideal.addf_def]
  rfl

theorem ref_comb_apply (n : Fin 1024) :
    val_main_v29 (F := Ideal) x0 x1 x2 x3 x4 x5 x6 x7 (ix2 (0 : Fin 1) n)
      = linRow (fun k : Fin 2048 => val_main_v25 (F := Ideal) x0 x1 x2 x3 x4 x5 (ix2 (0 : Fin 1) k))
          (fun n' k => x6 (ix2 n' k)) (fun n' => x7 (ix1 n')) n := by
  have el : ∀ k : Fin 2048, lidx_main_v27 (ix2 (0 : Fin 1) n) k = ix2 (0 : Fin 1) k := fun k =>
    funext fun a => Fin.ext (by match a with | ⟨0, _⟩ => rfl | ⟨1, _⟩ => rfl)
  have er : ∀ k : Fin 2048, idx_main_v26 (ridx_main_v27 (ix2 (0 : Fin 1) n) k) = ix2 n k := fun k =>
    funext fun a => Fin.ext (by match a with | ⟨0, _⟩ => rfl | ⟨1, _⟩ => rfl)
  have eb : idx_main_v28 (ix2 (0 : Fin 1) n) = ix1 n :=
    funext fun a => Fin.ext (by match a with | ⟨0, _⟩ => rfl)
  rw [val_main_v29_apply, val_main_v27_apply, val_main_v28_apply]
  simp only [val_main_v26_apply, el, er, eb, Ideal.addf_def]
  rfl

theorem ref_gi_apply (n : Fin 3072) :
    val_main_v34 (F := Ideal) x0 x1 x2 x3 x4 x5 x6 x7 x8 x10 (ix2 (0 : Fin 1) n)
      = linRow (fun k : Fin 1024 => val_main_v30 (F := Ideal) x0 x1 x2 x3 x4 x5 x6 x7 (ix2 (0 : Fin 1) k))
          (fun n' k => x8 (ix2 n' k)) (fun n' => x10 (ix1 n')) n := by
  have el : ∀ k : Fin 1024, lidx_main_v32 (ix2 (0 : Fin 1) n) k = ix2 (0 : Fin 1) k := fun k =>
    funext fun a => Fin.ext (by match a with | ⟨0, _⟩ => rfl | ⟨1, _⟩ => rfl)
  have er : ∀ k : Fin 1024, idx_main_v31 (ridx_main_v32 (ix2 (0 : Fin 1) n) k) = ix2 n k := fun k =>
    funext fun a => Fin.ext (by match a with | ⟨0, _⟩ => rfl | ⟨1, _⟩ => rfl)
  have eb : idx_main_v33 (ix2 (0 : Fin 1) n) = ix1 n :=
    funext fun a => Fin.ext (by match a with | ⟨0, _⟩ => rfl)
  rw [val_main_v34_apply, val_main_v32_apply, val_main_v33_apply]
  simp only [val_main_v31_apply, el, er, eb, Ideal.addf_def]
  rfl

theorem ref_gh_apply (n : Fin 3072) :
    val_main_v38 (F := Ideal) x1 x9 x11 (ix2 (0 : Fin 1) n)
      = linRow (fun k : Fin 1024 => val_main_v7 (F := Ideal) x1 (ix2 (0 : Fin 1) k))
          (fun n' k => x9 (ix2 n' k)) (fun n' => x11 (ix1 n')) n := by
  have el : ∀ k : Fin 1024, lidx_main_v36 (ix2 (0 : Fin 1) n) k = ix2 (0 : Fin 1) k := fun k =>
    funext fun a => Fin.ext (by match a with | ⟨0, _⟩ => rfl | ⟨1, _⟩ => rfl)
  have er : ∀ k : Fin 1024, idx_main_v35 (ridx_main_v36 (ix2 (0 : Fin 1) n) k) = ix2 n k := fun k =>
    funext fun a => Fin.ext (by match a with | ⟨0, _⟩ => rfl | ⟨1, _⟩ => rfl)
  have eb : idx_main_v37 (ix2 (0 : Fin 1) n) = ix1 n :=
    funext fun a => Fin.ext (by match a with | ⟨0, _⟩ => rfl)
  rw [val_main_v38_apply, val_main_v36_apply, val_main_v37_apply]
  simp only [val_main_v35_apply, el, er, eb, Ideal.addf_def]
  rfl

theorem ref_out_apply (n : Fin 50257) :
    val_main_v70 (F := Ideal) x0 x1 x2 x3 x4 x5 x6 x7 x8 x9 x10 x11 x12 x13 (ix2 (0 : Fin 1) n)
      = linRow (fun k : Fin 1024 => val_main_v66 (F := Ideal) x0 x1 x2 x3 x4 x5 x6 x7 x8 x9 x10 x11 (ix2 (0 : Fin 1) k))
          (fun n' k => x12 (ix2 n' k)) (fun n' => x13 (ix1 n')) n := by
  have el : ∀ k : Fin 1024, lidx_main_v68 (ix2 (0 : Fin 1) n) k = ix2 (0 : Fin 1) k := fun k =>
    funext fun a => Fin.ext (by match a with | ⟨0, _⟩ => rfl | ⟨1, _⟩ => rfl)
  have er : ∀ k : Fin 1024, idx_main_v67 (ridx_main_v68 (ix2 (0 : Fin 1) n) k) = ix2 n k := fun k =>
    funext fun a => Fin.ext (by match a with | ⟨0, _⟩ => rfl | ⟨1, _⟩ => rfl)
  have eb : idx_main_v69 (ix2 (0 : Fin 1) n) = ix1 n :=
    funext fun a => Fin.ext (by match a with | ⟨0, _⟩ => rfl)
  rw [val_main_v70_apply, val_main_v68_apply, val_main_v69_apply]
  simp only [val_main_v67_apply, el, er, eb, Ideal.addf_def]
  rfl

theorem ref_attn_apply (n : Fin 1024) :
    val_main_v24 (F := Ideal) x0 x1 x2 x3 x4 x5 (ix2 (0 : Fin 1) n)
      = dotRow (fun k : Fin 512 => val_main_v23 (F := Ideal) x0 x1 x3 x4 x5 (ix2 (0 : Fin 1) k))
          (fun k n' => x2 (ix2 k n')) n := by
  have el : ∀ k : Fin 512, lidx_main_v24 (ix2 (0 : Fin 1) n) k = ix2 (0 : Fin 1) k := fun k =>
    funext fun a => Fin.ext (by match a with | ⟨0, _⟩ => rfl | ⟨1, _⟩ => rfl)
  have er : ∀ k : Fin 512, ridx_main_v24 (ix2 (0 : Fin 1) n) k = ix2 k n := fun k =>
    funext fun a => Fin.ext (by match a with | ⟨0, _⟩ => rfl | ⟨1, _⟩ => rfl)
  rw [val_main_v24_apply]
  simp only [el, er]
  rfl

end Linear

section Gather
variable {F : FTy → Type} [FloatOps F]

theorem gather_row {w : ℕ} (j : Fin 1024) (idx : IVec S1x1 w) :
    (gather_S50257x1024_S1x1_S1x1024_1_0_n_n_0_1_11024.operandIdx (ix2 (0 : Fin 1) j) idx 0).val
      = min (idx (ix2 (0 : Fin 1) (0 : Fin 1))).toInt.toNat 50256 := by
  show gather_S50257x1024_S1x1_S1x1024_1_0_n_n_0_1_11024.start (ix2 (0 : Fin 1) j) idx 0
      + gather_S50257x1024_S1x1_S1x1024_1_0_n_n_0_1_11024.batchCoord (ix2 (0 : Fin 1) j) 0
      + gather_S50257x1024_S1x1_S1x1024_1_0_n_n_0_1_11024.offCoord (ix2 (0 : Fin 1) j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S50257x1024_S1x1_S1x1024_1_0_n_n_0_1_11024.startIndexMap from List.mem_singleton.mpr rfl)]
  have hsi : gather_S50257x1024_S1x1_S1x1024_1_0_n_n_0_1_11024.siIdx (ix2 (0 : Fin 1) j)
      ⟨List.idxOf (0 : Fin 2) gather_S50257x1024_S1x1_S1x1024_1_0_n_n_0_1_11024.startIndexMap,
        List.idxOf_lt_length_iff.2 (List.mem_singleton.mpr rfl)⟩ = ix2 (0 : Fin 1) (0 : Fin 1) := by
    funext b; refine Fin.ext ?_
    match b with
    | ⟨0, _⟩ => rfl
    | ⟨1, _⟩ => rfl
  rw [hsi]
  rfl

theorem gather_col {w : ℕ} (j : Fin 1024) (idx : IVec S1x1 w) :
    (gather_S50257x1024_S1x1_S1x1024_1_0_n_n_0_1_11024.operandIdx (ix2 (0 : Fin 1) j) idx 1).val = j.val := by
  show gather_S50257x1024_S1x1_S1x1024_1_0_n_n_0_1_11024.start (ix2 (0 : Fin 1) j) idx 1
      + gather_S50257x1024_S1x1_S1x1024_1_0_n_n_0_1_11024.batchCoord (ix2 (0 : Fin 1) j) 1
      + gather_S50257x1024_S1x1_S1x1024_1_0_n_n_0_1_11024.offCoord (ix2 (0 : Fin 1) j) 1 = _
  rw [GatherDims.batchCoord_eq_zero _ _ _ List.not_mem_nil]
  unfold GatherDims.start
  rw [dif_neg (show (1 : Fin 2) ∉ gather_S50257x1024_S1x1_S1x1024_1_0_n_n_0_1_11024.startIndexMap from
    fun h => absurd (List.mem_singleton.mp h) (by decide))]
  unfold GatherDims.offCoord
  rw [dif_pos (show (1 : Fin 2) ∈ gather_S50257x1024_S1x1_S1x1024_1_0_n_n_0_1_11024.sKept by decide)]
  have hax : gather_S50257x1024_S1x1_S1x1024_1_0_n_n_0_1_11024.offsetDims[List.idxOf (1 : Fin 2)
      gather_S50257x1024_S1x1_S1x1024_1_0_n_n_0_1_11024.sKept]'(by decide) = (1 : Fin 2) := by decide
  simp only [Nat.zero_add]
  exact congrArg (fun a : Fin 2 => (ix2 (0 : Fin 1) j a).val) hax

theorem ref_gather_apply (x0 : (⟨S1, .i32⟩ : BufTy).Contents (Elt F)) (x3 : (⟨S50257x1024, .f32⟩ : BufTy).Contents (Elt F))
    (htok : BitVec.toNat (x0 (ix1 (0 : Fin 1))) < 50257) (j : Fin 1024) :
    val_main_v6 (F := F) x0 x3 (ix2 (0 : Fin 1) j)
      = x3 (ix2 (⟨BitVec.toNat (x0 (ix1 (0 : Fin 1))), htok⟩ : Fin 50257) j) := by
  unfold val_main_v6 Host.gather
  congr 1
  funext a
  refine Fin.ext ?_
  match a with
  | ⟨0, _⟩ =>
    refine (gather_row j (val_main_v5 (F := F) x0)).trans ?_
    have e5 : idx_main_v5 (ix2 (0 : Fin 1) (0 : Fin 1)) = ix1 (0 : Fin 1) :=
      funext fun a => Fin.ext (by match a with | ⟨0, _⟩ => rfl)
    have hlt : BitVec.toNat (x0 (ix1 (0 : Fin 1))) < 2 ^ 31 := by omega
    have hc : IntOp.cmpi .slt (x0 (ix1 (0 : Fin 1))) 0#32 = 0#1 :=
      eq_zero_of_ne_one fun h => Nat.not_lt_zero _ ((StableHlo.Predicate.slt_iff_toNat hlt (by decide)).mp h)
    rw [val_main_v5_apply, e5, val_main_v4_apply, val_main_v1_apply, val_main_v0_apply, val_main_c_apply, hc, select_zero,
      StableHlo.Predicate.toInt_eq_toNat_of_lt hlt, Int.toNat_natCast]
    exact min_eq_left (by omega)
  | ⟨1, _⟩ => exact gather_col j (val_main_v5 (F := F) x0)

end Gather

section Chains

open Cert.ReferenceIdeal.Gen Idealize.ShloMosaic.TcCoe Idealize.SL.Sem Idealize.ShloMosaic.StableHlo

variable {F : FTy → Type} [FloatOps F]

variable (x0 : (⟨S1, .i32⟩ : BufTy).Contents (Elt F)) (x1 : (⟨S1x1x1024, .f32⟩ : BufTy).Contents (Elt F))
  (x2 : (⟨S512x1024, .f32⟩ : BufTy).Contents (Elt F)) (x3 : (⟨S50257x1024, .f32⟩ : BufTy).Contents (Elt F))
  (x4 : (⟨S512x2048, .f32⟩ : BufTy).Contents (Elt F)) (x5 : (⟨S512, .f32⟩ : BufTy).Contents (Elt F))
  (x6 : (⟨S1024x2048, .f32⟩ : BufTy).Contents (Elt F)) (x7 : (⟨S1024, .f32⟩ : BufTy).Contents (Elt F))
  (x8 x9 : (⟨S3072x1024, .f32⟩ : BufTy).Contents (Elt F)) (x10 x11 : (⟨S3072, .f32⟩ : BufTy).Contents (Elt F))
  (x12 : (⟨S50257x1024, .f32⟩ : BufTy).Contents (Elt F)) (x13 : (⟨S50257, .f32⟩ : BufTy).Contents (Elt F))

theorem ref_join_hidden_eq :
    val_main_v8 (F := F) x0 x1 x3 = joinRows (val_main_v6 (F := F) x0 x3) (val_main_v7 (F := F) x1) := rfl

theorem ref_softmax_eq :
    val_main_v23 (F := F) x0 x1 x3 x4 x5 = softmaxRow (val_main_v12 (F := F) x0 x1 x3 x4 x5) := rfl

theorem ref_join_attn_eq :
    val_main_v25 (F := F) x0 x1 x2 x3 x4 x5
      = joinRows (val_main_v6 (F := F) x0 x3) (val_main_v24 (F := F) x0 x1 x2 x3 x4 x5) := rfl

theorem ref_relu_eq :
    val_main_v30 (F := F) x0 x1 x2 x3 x4 x5 x6 x7 = reluRow (val_main_v29 (F := F) x0 x1 x2 x3 x4 x5 x6 x7) := rfl

theorem ref_gru_eq :
    val_main_v66 (F := F) x0 x1 x2 x3 x4 x5 x6 x7 x8 x9 x10 x11
      = gruRow (val_main_v34 (F := F) x0 x1 x2 x3 x4 x5 x6 x7 x8 x10) (val_main_v38 (F := F) x1 x9 x11)
          (val_main_v7 (F := F) x1) := rfl

theorem ref_logsoftmax_eq :
    val_main_v71 (F := F) x0 x1 x2 x3 x4 x5 x6 x7 x8 x9 x10 x11 x12 x13
      = logSoftmaxRow (val_main_v70 (F := F) x0 x1 x2 x3 x4 x5 x6 x7 x8 x9 x10 x11 x12 x13) := rfl

theorem ref_hidden_out_eq :
    val_main_v72 (F := F) x0 x1 x2 x3 x4 x5 x6 x7 x8 x9 x10 x11
      = unitAxisRow (val_main_v66 (F := F) x0 x1 x2 x3 x4 x5 x6 x7 x8 x9 x10 x11) := rfl

end Chains

end Cert.RefStages

end
-- ==== Proof.KI.Bridge1.lean ====
import proofs.«409304_j78383153152469_3_alg».proof.Proof.KI.Fold
import proofs.«409304_j78383153152469_3_alg».proof.Proof.KI.PayIdeal
import proofs.«409304_j78383153152469_3_alg».proof.Proof.MatchChains
import proofs.«409304_j78383153152469_3_alg».proof.Proof.RefStages
import Idealize.ShloMosaic.Lib.ValueIdx

noncomputable section

namespace Cert.Bridge

open Cert.KernelIdeal Cert.KernelIdeal.Gen Cert.KernelIdeal.Hand
open Cert.RefHand.Read Cert.RefStages Cert.MatchChains
open Idealize.ShloMosaic Idealize.ShloMosaic.TcCoe Idealize.ShloMosaic.ValueIdx

variable (m : (ℓ : Loc nD τ sig) → Buf (Elt Ideal) ℓ) (ρ : Dev nD → PrngReg)

abbrev X0 (c : Dev nD) : (⟨Cert.ReferenceIdeal.S1, .i32⟩ : BufTy).Contents (Elt Ideal) := m ((c : Thread nD τ).loc main_arg0)
abbrev X1 (c : Dev nD) : (⟨Cert.ReferenceIdeal.S1x1x1024, .f32⟩ : BufTy).Contents (Elt Ideal) := m ((c : Thread nD τ).loc main_arg1)
abbrev X2 (c : Dev nD) : (⟨Cert.ReferenceIdeal.S512x1024, .f32⟩ : BufTy).Contents (Elt Ideal) := m ((c : Thread nD τ).loc main_arg2)
abbrev X3 (c : Dev nD) : (⟨Cert.ReferenceIdeal.S50257x1024, .f32⟩ : BufTy).Contents (Elt Ideal) := m ((c : Thread nD τ).loc main_arg3)
abbrev X4 (c : Dev nD) : (⟨Cert.ReferenceIdeal.S512x2048, .f32⟩ : BufTy).Contents (Elt Ideal) := m ((c : Thread nD τ).loc main_arg4)
abbrev X5 (c : Dev nD) : (⟨Cert.ReferenceIdeal.S512, .f32⟩ : BufTy).Contents (Elt Ideal) := m ((c : Thread nD τ).loc main_arg5)
abbrev X6 (c : Dev nD) : (⟨Cert.ReferenceIdeal.S1024x2048, .f32⟩ : BufTy).Contents (Elt Ideal) := m ((c : Thread nD τ).loc main_arg6)
abbrev X7 (c : Dev nD) : (⟨Cert.ReferenceIdeal.S1024, .f32⟩ : BufTy).Contents (Elt Ideal) := m ((c : Thread nD τ).loc main_arg7)
abbrev X8 (c : Dev nD) : (⟨Cert.ReferenceIdeal.S3072x1024, .f32⟩ : BufTy).Contents (Elt Ideal) := m ((c : Thread nD τ).loc main_arg8)
abbrev X9 (c : Dev nD) : (⟨Cert.ReferenceIdeal.S3072x1024, .f32⟩ : BufTy).Contents (Elt Ideal) := m ((c : Thread nD τ).loc main_arg9)
theorem linRow_congr₁ {K N : ℕ} {x x' : Fin K → EReal} {w w' : Fin N → Fin K → EReal} {b b' : Fin N → EReal}
    (hx : ∀ k, x k = x' k) (hw : ∀ n k, w n k = w' n k) (hb : ∀ n, b n = b' n) (n : Fin N) :
    linRow x w b n = linRow x' w' b' n := by
  rw [funext hx, funext fun n => funext (hw n), funext hb]

theorem dotRow_congr₁ {K N : ℕ} {x x' : Fin K → EReal} {e e' : Fin K → Fin N → EReal}
    (hx : ∀ k, x k = x' k) (he : ∀ k n, e k n = e' k n) (n : Fin N) :
    dotRow x e n = dotRow x' e' n := by
  rw [funext hx, funext fun k => funext (he k)]

theorem b0 (c : Dev nD) : (W2 m ρ c (Proc.devRef .tc main_v0) : IVec S1 32) = clipOps (X0 m c) :=
  after01_v0 (W0 m ρ c)

theorem arg3_W2 (c : Dev nD) : W2 m ρ c (Proc.devRef .tc main_arg3) = X3 m c :=
  (keep2 m ρ c main_arg3 (by decide)).trans (keep1 m ρ c main_arg3 (by decide))

theorem row0_of (V : (c : Dev nD) → (b : Ref sig .tc) → Buf (Elt Ideal) ((c : Thread nD τ).loc b))
    (a : (pcfg0 (F := Ideal)).Adm) (t : IVec S1 32) (ha : (a.1 0 : S1.Idx → BitVec 32) = clipOps t)
    (h0 : 0 ≤ (t (ix1 (0 : Fin 1))).toInt) (h1 : (t (ix1 (0 : Fin 1))).toInt < 50257)
    (htok : (t (ix1 (0 : Fin 1))).toNat < 50257) (c : Dev nD) (j : S1x1024.Idx) :
    ((dat0 V a c).arrAt 0 (cfg0 a).N : S1x1024.Idx → Elt Ideal .f32) j
      = (V c main_arg3 : Vec Ideal S50257x1024 .f32) (ix2 (⟨(t (ix1 (0 : Fin 1))).toNat, htok⟩ : Fin 50257) (j 1)) := by
  have hr : tokRow a = (t (ix1 (0 : Fin 1))).toNat := by
    unfold tokRow
    rw [tokWordA_eq a (ix1 (0 : Fin 1)), ha]
    exact congrArg BitVec.toNat (clipOps_ix_eq_self t h0 h1)
  have hrow : tokRow a + 1 ≤ 50257 := by omega
  refine (arrAt0_out_apply V a hrow c j).trans ?_
  congr 1
  funext x; apply Fin.ext
  match x with
  | ⟨0, _⟩ => exact hr
  | ⟨1, _⟩ => rfl

theorem b1 (c : Dev nD) (h0 : 0 ≤ (X0 m c (ix1 (0 : Fin 1))).toInt) (h1 : (X0 m c (ix1 (0 : Fin 1))).toInt < 50257)
    (htok : (X0 m c (ix1 (0 : Fin 1))).toNat < 50257) :
    W3 m ρ c (Proc.devRef .tc main_v1) = val_main_v6 (F := Ideal) (X0 m c) (X3 m c) := by
  obtain rfl : c = 0 := Subsingleton.elim _ _
  refine (W3_arr m ρ 0 0).trans ?_
  funext j
  refine (row0_of (V2 m ρ) (adm0 m ρ) (X0 m 0) rfl h0 h1 htok 0 j).trans ?_
  refine (congrFun (arg3_W2 m ρ 0) _).trans ?_
  exact ((congrArg (val_main_v6 (F := Ideal) (X0 m 0) (X3 m 0)) (eq_row j)).trans
    (ref_gather_apply (X0 m 0) (X3 m 0) htok (j 1))).symm

theorem arg1_W3 (c : Dev nD) : W3 m ρ c (Proc.devRef .tc main_arg1) = X1 m c :=
  (keep3 m ρ c main_arg1 (by decide)).trans <| (keep2 m ρ c main_arg1 (by decide)).trans (keep1 m ρ c main_arg1 (by decide))

theorem arg5_W3 (c : Dev nD) : W3 m ρ c (Proc.devRef .tc main_arg5) = X5 m c :=
  (keep3 m ρ c main_arg5 (by decide)).trans <| (keep2 m ρ c main_arg5 (by decide)).trans (keep1 m ρ c main_arg5 (by decide))

theorem flat_W3 (c : Dev nD) :
    flat1x1x1024 (F := Ideal) (W3 m ρ c (Proc.devRef .tc main_arg1)) = val_main_v7 (F := Ideal) (X1 m c) :=
  (congrArg (flat1x1x1024 (F := Ideal)) (arg1_W3 m ρ c)).trans (flat1x1x1024_eq _)

theorem b2 (c : Dev nD) : W4 m ρ c (Proc.devRef .tc main_v2) = val_main_v7 (F := Ideal) (X1 m c) :=
  (after1_v2 (W3 m ρ c)).trans (flat_W3 m ρ c)

theorem b3 (c : Dev nD) (h0 : 0 ≤ (X0 m c (ix1 (0 : Fin 1))).toInt) (h1 : (X0 m c (ix1 (0 : Fin 1))).toInt < 50257)
    (htok : (X0 m c (ix1 (0 : Fin 1))).toNat < 50257) :
    W4 m ρ c (Proc.devRef .tc main_v3) = val_main_v8 (F := Ideal) (X0 m c) (X1 m c) (X3 m c) :=
  (after1_v3 (W3 m ρ c)).trans <|
    (congrArg₂ (cat2 (F := Ideal)) (b1 m ρ c h0 h1 htok) (flat_W3 m ρ c)).trans <|
      (cat2_eq _ _).trans (ref_join_hidden_eq (F := Ideal) (X0 m c) (X1 m c) (X3 m c)).symm

theorem b4 (c : Dev nD) (n : Fin 512) :
    (W4 m ρ c (Proc.devRef .tc main_v4) : FVec Ideal S1x512 .f32) (ix2 (0 : Fin 1) n) = X5 m c (ix1 n) :=
  (congrFun (after1_v4 (W3 m ρ c)) _).trans <|
    (congrFun (congrArg (row512 (F := Ideal)) (arg5_W3 m ρ c)) _).trans (row512_apply _ n)

theorem arg4_W4 (c : Dev nD) : W4 m ρ c (Proc.devRef .tc main_arg4) = X4 m c :=
  (keep4 m ρ c main_arg4 (by decide)).trans <| (keep3 m ρ c main_arg4 (by decide)).trans <|
    (keep2 m ρ c main_arg4 (by decide)).trans (keep1 m ρ c main_arg4 (by decide))

theorem b5 (c : Dev nD) (h0 : 0 ≤ (X0 m c (ix1 (0 : Fin 1))).toInt) (h1 : (X0 m c (ix1 (0 : Fin 1))).toInt < 50257)
    (htok : (X0 m c (ix1 (0 : Fin 1))).toNat < 50257) :
    W5 m ρ c (Proc.devRef .tc main_v5) = val_main_v12 (F := Ideal) (X0 m c) (X1 m c) (X3 m c) (X4 m c) (X5 m c) := by
  refine (W5_arr m ρ c 3).trans ((arrAt1_out (V4 m ρ) c).trans ?_)
  funext i
  obtain ⟨n, rfl⟩ : ∃ n, i = ix2 (0 : Fin 1) n := ⟨i 1, eq_row i⟩
  rw [k1_pay1_ideal, ref_logits_apply]
  exact linRow_congr₁ (fun k => congrFun (b3 m ρ c h0 h1 htok) _) (fun n' k => congrFun (arg4_W4 m ρ c) _)
    (fun n' => b4 m ρ c n') n

theorem b16 (c : Dev nD) (h0 : 0 ≤ (X0 m c (ix1 (0 : Fin 1))).toInt) (h1 : (X0 m c (ix1 (0 : Fin 1))).toInt < 50257)
    (htok : (X0 m c (ix1 (0 : Fin 1))).toNat < 50257) :
    W6 m ρ c (Proc.devRef .tc main_v16) = val_main_v23 (F := Ideal) (X0 m c) (X1 m c) (X3 m c) (X4 m c) (X5 m c) :=
  (after2_v16 (W5 m ρ c)).trans <|
    (congrArg (softmaxOps (F := Ideal)) (b5 m ρ c h0 h1 htok)).trans <|
      (softmaxOps_eq _).trans (ref_softmax_eq (F := Ideal) (X0 m c) (X1 m c) (X3 m c) (X4 m c) (X5 m c)).symm

theorem arg2_W6 (c : Dev nD) : W6 m ρ c (Proc.devRef .tc main_arg2) = X2 m c :=
  (keep6 m ρ c main_arg2 (by decide)).trans <| (keep5 m ρ c main_arg2 (by decide)).trans <|
    (keep4 m ρ c main_arg2 (by decide)).trans <| (keep3 m ρ c main_arg2 (by decide)).trans <|
      (keep2 m ρ c main_arg2 (by decide)).trans (keep1 m ρ c main_arg2 (by decide))

theorem b17 (c : Dev nD) (h0 : 0 ≤ (X0 m c (ix1 (0 : Fin 1))).toInt) (h1 : (X0 m c (ix1 (0 : Fin 1))).toInt < 50257)
    (htok : (X0 m c (ix1 (0 : Fin 1))).toNat < 50257) :
    W7 m ρ c (Proc.devRef .tc main_v17)
      = val_main_v24 (F := Ideal) (X0 m c) (X1 m c) (X2 m c) (X3 m c) (X4 m c) (X5 m c) := by
  refine (W7_arr m ρ c 2).trans ((arrAt2_out (V6 m ρ) c).trans ?_)
  funext i
  obtain ⟨n, rfl⟩ : ∃ n, i = ix2 (0 : Fin 1) n := ⟨i 1, eq_row i⟩
  rw [k2_pay1_ideal, ref_attn_apply]
  exact dotRow_congr₁ (fun k => congrFun (b16 m ρ c h0 h1 htok) _) (fun k n' => congrFun (arg2_W6 m ρ c) _) n

theorem v1_W7 (c : Dev nD) : W7 m ρ c (Proc.devRef .tc main_v1) = W3 m ρ c (Proc.devRef .tc main_v1) :=
  (keep7 m ρ c main_v1 (by decide)).trans <| (keep6 m ρ c main_v1 (by decide)).trans <|
    (keep5 m ρ c main_v1 (by decide)).trans (keep4 m ρ c main_v1 (by decide))

theorem b18 (c : Dev nD) (h0 : 0 ≤ (X0 m c (ix1 (0 : Fin 1))).toInt) (h1 : (X0 m c (ix1 (0 : Fin 1))).toInt < 50257)
    (htok : (X0 m c (ix1 (0 : Fin 1))).toNat < 50257) :
    W8 m ρ c (Proc.devRef .tc main_v18)
      = val_main_v25 (F := Ideal) (X0 m c) (X1 m c) (X2 m c) (X3 m c) (X4 m c) (X5 m c) :=
  (after3_v18 (W7 m ρ c)).trans <|
    (congrArg₂ (cat2 (F := Ideal)) ((v1_W7 m ρ c).trans (b1 m ρ c h0 h1 htok)) (b17 m ρ c h0 h1 htok)).trans <|
      (cat2_eq _ _).trans (ref_join_attn_eq (F := Ideal) (X0 m c) (X1 m c) (X2 m c) (X3 m c) (X4 m c) (X5 m c)).symm

theorem arg7_W7 (c : Dev nD) : W7 m ρ c (Proc.devRef .tc main_arg7) = X7 m c :=
  (keep7 m ρ c main_arg7 (by decide)).trans <| (keep6 m ρ c main_arg7 (by decide)).trans <|
    (keep5 m ρ c main_arg7 (by decide)).trans <| (keep4 m ρ c main_arg7 (by decide)).trans <|
      (keep3 m ρ c main_arg7 (by decide)).trans <| (keep2 m ρ c main_arg7 (by decide)).trans (keep1 m ρ c main_arg7 (by decide))

theorem b19 (c : Dev nD) (n : Fin 1024) :
    (W8 m ρ c (Proc.devRef .tc main_v19) : FVec Ideal S1x1024 .f32) (ix2 (0 : Fin 1) n) = X7 m c (ix1 n) :=
  (congrFun (after3_v19 (W7 m ρ c)) _).trans <|
    (congrFun (congrArg (row1024 (F := Ideal)) (arg7_W7 m ρ c)) _).trans (row1024_apply _ n)

theorem arg6_W8 (c : Dev nD) : W8 m ρ c (Proc.devRef .tc main_arg6) = X6 m c :=
  (keep8 m ρ c main_arg6 (by decide)).trans <| (keep7 m ρ c main_arg6 (by decide)).trans <|
    (keep6 m ρ c main_arg6 (by decide)).trans <| (keep5 m ρ c main_arg6 (by decide)).trans <|
      (keep4 m ρ c main_arg6 (by decide)).trans <| (keep3 m ρ c main_arg6 (by decide)).trans <|
        (keep2 m ρ c main_arg6 (by decide)).trans (keep1 m ρ c main_arg6 (by decide))

theorem b20 (c : Dev nD) (h0 : 0 ≤ (X0 m c (ix1 (0 : Fin 1))).toInt) (h1 : (X0 m c (ix1 (0 : Fin 1))).toInt < 50257)
    (htok : (X0 m c (ix1 (0 : Fin 1))).toNat < 50257) :
    W9 m ρ c (Proc.devRef .tc main_v20)
      = val_main_v29 (F := Ideal) (X0 m c) (X1 m c) (X2 m c) (X3 m c) (X4 m c) (X5 m c) (X6 m c) (X7 m c) := by
  refine (W9_arr m ρ c 3).trans ((arrAt3_out (V8 m ρ) c).trans ?_)
  funext i
  obtain ⟨n, rfl⟩ : ∃ n, i = ix2 (0 : Fin 1) n := ⟨i 1, eq_row i⟩
  rw [k3_pay1_ideal, ref_comb_apply]
  exact linRow_congr₁ (fun k => congrFun (b18 m ρ c h0 h1 htok) _) (fun n' k => congrFun (arg6_W8 m ρ c) _)
    (fun n' => b19 m ρ c n') n

end Cert.Bridge

end
-- ==== Proof.KI.Val6.lean ====
import proofs.«409304_j78383153152469_3_alg».proof.Proof.KI.Reg6
import proofs.«409304_j78383153152469_3_alg».proof.Proof.KI.LinSpec
import proofs.«409304_j78383153152469_3_alg».proof.Proof.KI.PayIdeal
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

section Val6
open Idealize.ShloMosaic.ValueIdx

variable (V : (c : Dev nD) → (b : Ref sig .tc) → Buf (Elt F) ((c : Thread nD τ).loc b))

theorem idx_facts6 : ∀ t : Fin cfg6.N,
    win6_0.index t (0 : Fin 2) = 0 ∧ win6_0.index t (1 : Fin 2) = 0
    ∧ win6_1.index t (0 : Fin 2) = t.val ∧ win6_1.index t (1 : Fin 2) = 0
    ∧ win6_2.index t (0 : Fin 2) = 0 ∧ win6_2.index t (1 : Fin 2) = t.val
    ∧ win6_3.index t (0 : Fin 2) = 0 ∧ win6_3.index t (1 : Fin 2) = t.val
    ∧ win6_1.xsize (grid6.coords t) (0 : Fin 2) = min 4096 (50257 - 4096 * t.val) ∧ win6_1.xsize (grid6.coords t) (1 : Fin 2) = 1024
    ∧ win6_2.xsize (grid6.coords t) (0 : Fin 2) = 1 ∧ win6_2.xsize (grid6.coords t) (1 : Fin 2) = min 4096 (50257 - 4096 * t.val)
    ∧ win6_3.xsize (grid6.coords t) (0 : Fin 2) = 1 ∧ win6_3.xsize (grid6.coords t) (1 : Fin 2) = min 4096 (50257 - 4096 * t.val) :=
  (by decide +kernel : ∀ t : Fin grid6.N, _)

theorem xblk6_apply (c : Dev nD) (t : Fin cfg6.N) (k : Fin 1024) :
    xblk6 V c t (ix2 (0 : Fin 1) k) = (V c main_v53 : Vec F S1x1024 .f32) (ix2 (0 : Fin 1) k) := by
  obtain ⟨e0, e1, -⟩ := idx_facts6 t
  unfold xblk6 iblk6
  show V c main_v53 (((cfg6.win 0).blk t).view.emb (ix2 (0 : Fin 1) k)) = V c main_v53 (ix2 (0 : Fin 1) k)
  congr 1
  funext a; apply Fin.ext
  match a with
  | ⟨0, _⟩ => show win6_0.index t (0 : Fin 2) * 1 + 1 * 0 = 0; omega
  | ⟨1, _⟩ => show win6_0.index t (1 : Fin 2) * 1024 + 1 * k.val = k.val; omega

theorem wblk6_apply (c : Dev nD) (t : Fin cfg6.N) (q : Fin 4096) (k : Fin 1024) (hq : t.val * 4096 + q.val < 50257) :
    wblk6 V c t (ix2 q k) = (V c main_arg12 : Vec F S50257x1024 .f32) (ix2 (⟨t.val * 4096 + q.val, hq⟩ : Fin 50257) k) := by
  obtain ⟨-, -, e0, e1, -, -, -, -, x0, x1, -⟩ := idx_facts6 t
  have hm : win6_1.moved (grid6.coords t) (ix2 q k) = true := (win6_1.moved_iff _ _).mpr fun a => by
    match a with
    | ⟨0, _⟩ => show q.val < win6_1.xsize (grid6.coords t) (0 : Fin 2); rw [x0]; omega
    | ⟨1, _⟩ => show k.val < win6_1.xsize (grid6.coords t) (1 : Fin 2); rw [x1]; exact k.isLt
  unfold wblk6 Window.fill
  rw [dif_pos hm]
  unfold iblk6
  show V c main_arg12 (((cfg6.win 1).blk t).view.emb _) = V c main_arg12 _
  congr 1
  funext a; apply Fin.ext
  match a with
  | ⟨0, _⟩ => show win6_1.index t (0 : Fin 2) * 4096 + 1 * q.val = t.val * 4096 + q.val; omega
  | ⟨1, _⟩ => show win6_1.index t (1 : Fin 2) * 1024 + 1 * k.val = k.val; omega

theorem bblk6_apply (c : Dev nD) (t : Fin cfg6.N) (q : Fin 4096) (hq : t.val * 4096 + q.val < 50257) :
    bblk6 V c t (ix2 (0 : Fin 1) q) = (V c main_v54 : Vec F S1x50257 .f32) (ix2 (0 : Fin 1) (⟨t.val * 4096 + q.val, hq⟩ : Fin 50257)) := by
  obtain ⟨-, -, -, -, e0, e1, -, -, -, -, x0, x1, -⟩ := idx_facts6 t
  have hm : win6_2.moved (grid6.coords t) (ix2 (0 : Fin 1) q) = true := (win6_2.moved_iff _ _).mpr fun a => by
    match a with
    | ⟨0, _⟩ => show 0 < win6_2.xsize (grid6.coords t) (0 : Fin 2); rw [x0]; omega
    | ⟨1, _⟩ => show q.val < win6_2.xsize (grid6.coords t) (1 : Fin 2); rw [x1]; omega
  unfold bblk6 Window.fill
  rw [dif_pos hm]
  unfold iblk6
  show V c main_v54 (((cfg6.win 2).blk t).view.emb _) = V c main_v54 _
  congr 1
  funext a; apply Fin.ext
  match a with
  | ⟨0, _⟩ => show win6_2.index t (0 : Fin 2) * 1 + 1 * 0 = 0; omega
  | ⟨1, _⟩ => show win6_2.index t (1 : Fin 2) * 4096 + 1 * q.val = t.val * 4096 + q.val; omega

theorem mem_blk6 (n : Fin 50257) (t : Fin cfg6.N) (ht : t.val = n.val / 4096) :
    ix2 (0 : Fin 1) n ∈ ((cfg6.win 3).blk t).view.set := by
  obtain ⟨-, -, -, -, -, -, e0, e1, -, -, -, -, x0, x1⟩ := idx_facts6 t
  show ix2 (0 : Fin 1) n ∈ ((View.whole main_v55).slice (win6_3.rect t)).set
  rw [View.set_slice_whole, Rect.mem_set_unit]
  have hn := n.isLt
  intro a
  match a with
  | ⟨0, _⟩ =>
    show win6_3.index t (0 : Fin 2) * 1 ≤ 0 ∧ 0 < win6_3.index t (0 : Fin 2) * 1 + win6_3.xsize (grid6.coords t) (0 : Fin 2)
    rw [e0, x0]; omega
  | ⟨1, _⟩ =>
    show win6_3.index t (1 : Fin 2) * 4096 ≤ n.val ∧ n.val < win6_3.index t (1 : Fin 2) * 4096 + win6_3.xsize (grid6.coords t) (1 : Fin 2)
    rw [e1, x1]; omega

end Val6

section Ideal6
open Idealize.ShloMosaic.ValueIdx

variable (V : (c : Dev nD) → (b : Ref sig .tc) → Buf (Elt Ideal) ((c : Thread nD τ).loc b))

def G6 (c : Dev nD) : Vec Ideal S1x50257 .f32 := fun i =>
  linRow (fun k : Fin 1024 => (V c main_v53 : Vec Ideal S1x1024 .f32) (ix2 (0 : Fin 1) k))
    (fun n' k => (V c main_arg12 : Vec Ideal S50257x1024 .f32) (ix2 n' k))
    (fun n' : Fin 50257 => (V c main_v54 : Vec Ideal S1x50257 .f32) (ix2 (0 : Fin 1) n')) (i 1)

theorem flushed6_eq (c : Dev nD) (t : Fin cfg6.N) :
    (dat6 V c).flushed 3 t = ((cfg6.win 3).blk t).view.read (Elt Ideal) (G6 V c) := by
  show win6_3.cut (grid6.coords t) ((dat6 V c).after 3 t) = _
  rw [after6_3]
  obtain ⟨-, -, -, -, -, -, e0, e1, -, -, -, -, x0, x1⟩ := idx_facts6 t
  have hN : t.val < 13 := lt_of_lt_of_eq t.isLt N_6
  funext j
  have hj0 : (j 0).val < 1 := lt_of_lt_of_eq (j 0).isLt x0
  have hj1 : (j 1).val < min 4096 (50257 - 4096 * t.val) := lt_of_lt_of_eq (j 1).isLt x1
  have hq4 : (j 1).val < 4096 := by omega
  have hq : t.val * 4096 + (j 1).val < 50257 := by omega
  have hinj : win6_3.xinj (grid6.coords t) j = ix2 (0 : Fin 1) (⟨(j 1).val, hq4⟩ : Fin 4096) := by
    funext a
    match a with
    | ⟨0, _⟩ => apply Fin.ext; show (j 0).val = 0; omega
    | ⟨1, _⟩ => rfl
  show oblk6 V c t (win6_3.xinj (grid6.coords t) j) = G6 V c (((cfg6.win 3).blk t).view.emb j)
  rw [hinj]
  unfold oblk6
  rw [k6_pay1_ideal]
  have hemb : ((((cfg6.win 3).blk t).view.emb j) 1 : Fin 50257) = ⟨t.val * 4096 + (j 1).val, hq⟩ :=
    Fin.ext (show win6_3.index t (1 : Fin 2) * 4096 + 1 * (j 1).val = t.val * 4096 + (j 1).val by omega)
  unfold G6
  rw [hemb]
  unfold linRow
  simp only [xblk6_apply, wblk6_apply V c t ⟨(j 1).val, hq4⟩ _ hq, bblk6_apply V c t ⟨(j 1).val, hq4⟩ hq]
  rfl

theorem arrAt6_out_ideal (c : Dev nD) (n : Fin 50257) :
    (dat6 (F := Ideal) V c).arrAt 3 cfg6.N (ix2 (0 : Fin 1) n)
      = linRow (fun k : Fin 1024 => (V c main_v53 : Vec Ideal S1x1024 .f32) (ix2 (0 : Fin 1) k))
          (fun n' k => (V c main_arg12 : Vec Ideal S50257x1024 .f32) (ix2 n' k))
          (fun n' : Fin 50257 => (V c main_v54 : Vec Ideal S1x50257 .f32) (ix2 (0 : Fin 1) n')) n := by
  have hn := n.isLt
  have hN : cfg6.N = 13 := N_6
  have ht : n.val / 4096 < cfg6.N := by rw [hN]; omega
  exact (dat6 V c).arrAt_apply_of_mem 3 (G6 V c) (fun t _ => flushed6_eq V c t) cfg6.N ⟨n.val / 4096, ht⟩ (ix2 (0 : Fin 1) n)
    ht (flush6_3 _) (mem_blk6 n _ rfl)

end Ideal6

end Cert.KernelIdeal.Hand

end
-- ==== Proof.KI.Bridge2.lean ====
import proofs.«409304_j78383153152469_3_alg».proof.Proof.KI.Fold
import proofs.«409304_j78383153152469_3_alg».proof.Proof.KI.PayIdeal
import proofs.«409304_j78383153152469_3_alg».proof.Proof.KI.Val6
import proofs.«409304_j78383153152469_3_alg».proof.Proof.MatchChains
import proofs.«409304_j78383153152469_3_alg».proof.Proof.RefStages

noncomputable section

namespace Cert.Bridge

open Cert.KernelIdeal Cert.KernelIdeal.Gen Cert.KernelIdeal.Hand
open Cert.RefHand.Read Cert.RefStages Cert.MatchChains
open Idealize.ShloMosaic Idealize.ShloMosaic.TcCoe Idealize.ShloMosaic.ValueIdx
open Idealize.SL Idealize.SL.Sem

private theorem linRow_congr {K N : ℕ} {x x' : Fin K → EReal} {w w' : Fin N → Fin K → EReal} {b b' : Fin N → EReal}
    (hx : ∀ k, x k = x' k) (hw : ∀ n k, w n k = w' n k) (hb : ∀ n, b n = b' n) (n : Fin N) :
    linRow x w b n = linRow x' w' b' n := by
  obtain rfl : x = x' := funext hx
  obtain rfl : w = w' := funext fun n => funext (hw n)
  obtain rfl : b = b' := funext hb
  rfl

variable (m : (ℓ : Loc nD τ sig) → Buf (Elt Ideal) ℓ) (ρ : Dev nD → PrngReg) (c : Dev nD)

set_option quotPrecheck false

local notation "x0" => (m ((c : Thread nD τ).loc main_arg0) : (⟨Cert.ReferenceIdeal.S1, .i32⟩ : BufTy).Contents (Elt Ideal))
local notation "x1" => (m ((c : Thread nD τ).loc main_arg1) : (⟨Cert.ReferenceIdeal.S1x1x1024, .f32⟩ : BufTy).Contents (Elt Ideal))
local notation "x2" => (m ((c : Thread nD τ).loc main_arg2) : (⟨Cert.ReferenceIdeal.S512x1024, .f32⟩ : BufTy).Contents (Elt Ideal))
local notation "x3" => (m ((c : Thread nD τ).loc main_arg3) : (⟨Cert.ReferenceIdeal.S50257x1024, .f32⟩ : BufTy).Contents (Elt Ideal))
local notation "x4" => (m ((c : Thread nD τ).loc main_arg4) : (⟨Cert.ReferenceIdeal.S512x2048, .f32⟩ : BufTy).Contents (Elt Ideal))
local notation "x5" => (m ((c : Thread nD τ).loc main_arg5) : (⟨Cert.ReferenceIdeal.S512, .f32⟩ : BufTy).Contents (Elt Ideal))
local notation "x6" => (m ((c : Thread nD τ).loc main_arg6) : (⟨Cert.ReferenceIdeal.S1024x2048, .f32⟩ : BufTy).Contents (Elt Ideal))
local notation "x7" => (m ((c : Thread nD τ).loc main_arg7) : (⟨Cert.ReferenceIdeal.S1024, .f32⟩ : BufTy).Contents (Elt Ideal))
local notation "x8" => (m ((c : Thread nD τ).loc main_arg8) : (⟨Cert.ReferenceIdeal.S3072x1024, .f32⟩ : BufTy).Contents (Elt Ideal))
local notation "x9" => (m ((c : Thread nD τ).loc main_arg9) : (⟨Cert.ReferenceIdeal.S3072x1024, .f32⟩ : BufTy).Contents (Elt Ideal))
local notation "x10" => (m ((c : Thread nD τ).loc main_arg10) : (⟨Cert.ReferenceIdeal.S3072, .f32⟩ : BufTy).Contents (Elt Ideal))
local notation "x11" => (m ((c : Thread nD τ).loc main_arg11) : (⟨Cert.ReferenceIdeal.S3072, .f32⟩ : BufTy).Contents (Elt Ideal))
local notation "x12" => (m ((c : Thread nD τ).loc main_arg12) : (⟨Cert.ReferenceIdeal.S50257x1024, .f32⟩ : BufTy).Contents (Elt Ideal))
local notation "x13" => (m ((c : Thread nD τ).loc main_arg13) : (⟨Cert.ReferenceIdeal.S50257, .f32⟩ : BufTy).Contents (Elt Ideal))

theorem b21 (h20 : W9 m ρ c (Proc.devRef .tc main_v20) = val_main_v29 (F := Ideal) x0 x1 x2 x3 x4 x5 x6 x7) :
    W10 m ρ c (Proc.devRef .tc main_v21) = val_main_v30 (F := Ideal) x0 x1 x2 x3 x4 x5 x6 x7 :=
  (after4_v21 (W9 m ρ c)).trans <| (congrArg (reluOps (F := Ideal)) h20).trans <|
    (reluOps_eq _).trans (ref_relu_eq x0 x1 x2 x3 x4 x5 x6 x7).symm

def Untouched (r : Ref sig .tc) : Prop :=
  r ∉ hostOps0_W ∧ r ∉ hostOps0_1_W ∧ r ≠ main_v1 ∧ r ∉ hostOps1_W ∧ r ≠ main_v5 ∧ r ∉ hostOps2_W ∧ r ≠ main_v17 ∧
  r ∉ hostOps3_W ∧ r ≠ main_v20 ∧ r ∉ hostOps4_W ∧ r ∉ hostOps4_1_W ∧ r ≠ main_v24 ∧ r ≠ main_v25 ∧ r ∉ hostOps6_W

instance (r : Ref sig .tc) : Decidable (Untouched r) := by unfold Untouched; infer_instance

theorem at10 (r : Ref sig .tc) (h : Untouched r) : W10 m ρ c (Proc.devRef .tc r) = W0 m ρ c (Proc.devRef .tc r) := by
  obtain ⟨h1, h2, h3, h4, h5, h6, h7, h8, h9, h10, -⟩ := h
  exact (keep10 m ρ c r h10).trans <| (keep9 m ρ c r h9).trans <| (keep8 m ρ c r h8).trans <| (keep7 m ρ c r h7).trans <|
    (keep6 m ρ c r h6).trans <| (keep5 m ρ c r h5).trans <| (keep4 m ρ c r h4).trans <| (keep3 m ρ c r h3).trans <|
    (keep2 m ρ c r h2).trans (keep1 m ρ c r h1)

theorem at11 (r : Ref sig .tc) (h : Untouched r) : W11 m ρ c (Proc.devRef .tc r) = W0 m ρ c (Proc.devRef .tc r) :=
  (keep11 m ρ c r h.2.2.2.2.2.2.2.2.2.2.1).trans (at10 m ρ c r h)

theorem at12 (r : Ref sig .tc) (h : Untouched r) : W12 m ρ c (Proc.devRef .tc r) = W0 m ρ c (Proc.devRef .tc r) :=
  (keep12 m ρ c r h.2.2.2.2.2.2.2.2.2.2.2.1).trans (at11 m ρ c r h)

theorem at13 (r : Ref sig .tc) (h : Untouched r) : W13 m ρ c (Proc.devRef .tc r) = W0 m ρ c (Proc.devRef .tc r) :=
  (keep13 m ρ c r h.2.2.2.2.2.2.2.2.2.2.2.2.1).trans (at12 m ρ c r h)

theorem at14 (r : Ref sig .tc) (h : Untouched r) : W14 m ρ c (Proc.devRef .tc r) = W0 m ρ c (Proc.devRef .tc r) :=
  (keep14 m ρ c r h.2.2.2.2.2.2.2.2.2.2.2.2.2).trans (at13 m ρ c r h)

theorem v2_at12 : W12 m ρ c (Proc.devRef .tc main_v2) = W4 m ρ c (Proc.devRef .tc main_v2) :=
  (keep12 m ρ c main_v2 (by decide)).trans <| (keep11 m ρ c main_v2 (by decide)).trans <|
    (keep10 m ρ c main_v2 (by decide)).trans <| (keep9 m ρ c main_v2 (by decide)).trans <|
    (keep8 m ρ c main_v2 (by decide)).trans <| (keep7 m ρ c main_v2 (by decide)).trans <|
    (keep6 m ρ c main_v2 (by decide)).trans (keep5 m ρ c main_v2 (by decide))

theorem b22 (n : Fin 3072) :
    (W11 m ρ c (Proc.devRef .tc main_v22) : Vec Ideal S1x3072 .f32) (ix2 (0 : Fin 1) n) = x10 (ix1 n) :=
  (congrFun (after4_1_v22 (W10 m ρ c)) (ix2 (0 : Fin 1) n)).trans <| (row3072_apply _ n).trans
    (congrFun (at10 m ρ c main_arg10 (by decide)) (ix1 n))

theorem b23 (n : Fin 3072) :
    (W11 m ρ c (Proc.devRef .tc main_v23) : Vec Ideal S1x3072 .f32) (ix2 (0 : Fin 1) n) = x11 (ix1 n) :=
  (congrFun (after4_1_v23 (W10 m ρ c)) (ix2 (0 : Fin 1) n)).trans <| (row3072_apply _ n).trans
    (congrFun (at10 m ρ c main_arg11 (by decide)) (ix1 n))

theorem b24 (h20 : W9 m ρ c (Proc.devRef .tc main_v20) = val_main_v29 (F := Ideal) x0 x1 x2 x3 x4 x5 x6 x7) :
    W12 m ρ c (Proc.devRef .tc main_v24) = val_main_v34 (F := Ideal) x0 x1 x2 x3 x4 x5 x6 x7 x8 x10 := by
  refine (W12_arr m ρ c 3).trans ?_
  refine (arrAt4_out (V11 m ρ) c).trans ?_
  funext i
  obtain ⟨n, rfl⟩ : ∃ n : Fin 3072, i = ix2 (0 : Fin 1) n := ⟨i 1, eq_row i⟩
  refine (k4_pay1_ideal _ _ _ n).trans ?_
  refine (linRow_congr ?_ ?_ ?_ n).trans (ref_gi_apply x0 x1 x2 x3 x4 x5 x6 x7 x8 x10 n).symm
  · intro k
    exact congrFun ((keep11 m ρ c main_v21 (by decide)).trans (b21 m ρ c h20)) (ix2 (0 : Fin 1) k)
  · intro n' k
    exact congrFun (at11 m ρ c main_arg8 (by decide)) (ix2 n' k)
  · intro n'
    exact b22 m ρ c n'

theorem b25 (h2 : W4 m ρ c (Proc.devRef .tc main_v2) = val_main_v7 (F := Ideal) x1) :
    W13 m ρ c (Proc.devRef .tc main_v25) = val_main_v38 (F := Ideal) x1 x9 x11 := by
  refine (W13_arr m ρ c 3).trans ?_
  refine (arrAt5_out (V12 m ρ) c).trans ?_
  funext i
  obtain ⟨n, rfl⟩ : ∃ n : Fin 3072, i = ix2 (0 : Fin 1) n := ⟨i 1, eq_row i⟩
  refine (k5_pay1_ideal _ _ _ n).trans ?_
  refine (linRow_congr ?_ ?_ ?_ n).trans (ref_gh_apply x1 x9 x11 n).symm
  · intro k
    exact congrFun ((v2_at12 m ρ c).trans h2) (ix2 (0 : Fin 1) k)
  · intro n' k
    exact congrFun (at12 m ρ c main_arg9 (by decide)) (ix2 n' k)
  · intro n'
    exact (congrFun (keep12 m ρ c main_v23 (by decide)) (ix2 (0 : Fin 1) n')).trans (b23 m ρ c n')

theorem b53 (h2 : W4 m ρ c (Proc.devRef .tc main_v2) = val_main_v7 (F := Ideal) x1)
    (h20 : W9 m ρ c (Proc.devRef .tc main_v20) = val_main_v29 (F := Ideal) x0 x1 x2 x3 x4 x5 x6 x7) :
    W14 m ρ c (Proc.devRef .tc main_v53) = val_main_v66 (F := Ideal) x0 x1 x2 x3 x4 x5 x6 x7 x8 x9 x10 x11 := by
  have hgi : W13 m ρ c (Proc.devRef .tc main_v24) = val_main_v34 (F := Ideal) x0 x1 x2 x3 x4 x5 x6 x7 x8 x10 :=
    (keep13 m ρ c main_v24 (by decide)).trans (b24 m ρ c h20)
  have hh : W13 m ρ c (Proc.devRef .tc main_v2) = val_main_v7 (F := Ideal) x1 :=
    (keep13 m ρ c main_v2 (by decide)).trans ((v2_at12 m ρ c).trans h2)
  refine (after6_v53 (W13 m ρ c)).trans ?_
  rw [hgi, b25 m ρ c h2, hh]
  exact (gruOps_eq _ _ _).trans (ref_gru_eq x0 x1 x2 x3 x4 x5 x6 x7 x8 x9 x10 x11).symm

theorem b54 (n : Fin 50257) :
    (W14 m ρ c (Proc.devRef .tc main_v54) : Vec Ideal S1x50257 .f32) (ix2 (0 : Fin 1) n) = x13 (ix1 n) :=
  (congrFun (after6_v54 (W13 m ρ c)) (ix2 (0 : Fin 1) n)).trans <| (row50257_apply _ n).trans
    (congrFun (at13 m ρ c main_arg13 (by decide)) (ix1 n))

theorem b55 (h2 : W4 m ρ c (Proc.devRef .tc main_v2) = val_main_v7 (F := Ideal) x1)
    (h20 : W9 m ρ c (Proc.devRef .tc main_v20) = val_main_v29 (F := Ideal) x0 x1 x2 x3 x4 x5 x6 x7) :
    W15 m ρ c (Proc.devRef .tc main_v55)
      = val_main_v70 (F := Ideal) x0 x1 x2 x3 x4 x5 x6 x7 x8 x9 x10 x11 x12 x13 := by
  refine (W15_arr m ρ c 3).trans ?_
  funext i
  obtain ⟨n, rfl⟩ : ∃ n : Fin 50257, i = ix2 (0 : Fin 1) n := ⟨i 1, eq_row i⟩
  refine (arrAt6_out_ideal (V14 m ρ) c n).trans ?_
  refine (linRow_congr ?_ ?_ ?_ n).trans (ref_out_apply x0 x1 x2 x3 x4 x5 x6 x7 x8 x9 x10 x11 x12 x13 n).symm
  · intro k
    exact congrFun (b53 m ρ c h2 h20) (ix2 (0 : Fin 1) k)
  · intro n' k
    exact congrFun (at14 m ρ c main_arg12 (by decide)) (ix2 n' k)
  · intro n'
    exact b54 m ρ c n'

theorem b56 (h2 : W4 m ρ c (Proc.devRef .tc main_v2) = val_main_v7 (F := Ideal) x1)
    (h20 : W9 m ρ c (Proc.devRef .tc main_v20) = val_main_v29 (F := Ideal) x0 x1 x2 x3 x4 x5 x6 x7) :
    W17 m ρ c (Proc.devRef .tc main_v56)
      = val_main_v71 (F := Ideal) x0 x1 x2 x3 x4 x5 x6 x7 x8 x9 x10 x11 x12 x13 :=
  (keep17 m ρ c main_v56 (by decide)).trans <| (after7_v56 (W15 m ρ c)).trans <|
    (congrArg (logSoftmaxOps (F := Ideal)) (b55 m ρ c h2 h20)).trans <|
    (logSoftmaxOps_eq _).trans (ref_logsoftmax_eq x0 x1 x2 x3 x4 x5 x6 x7 x8 x9 x10 x11 x12 x13).symm

theorem b57 (h2 : W4 m ρ c (Proc.devRef .tc main_v2) = val_main_v7 (F := Ideal) x1)
    (h20 : W9 m ρ c (Proc.devRef .tc main_v20) = val_main_v29 (F := Ideal) x0 x1 x2 x3 x4 x5 x6 x7) :
    W17 m ρ c (Proc.devRef .tc main_v57) = val_main_v72 (F := Ideal) x0 x1 x2 x3 x4 x5 x6 x7 x8 x9 x10 x11 :=
  (after7_1_v57 (W16 m ρ c)).trans <|
    (congrArg (lift1x1024 (F := Ideal)) ((keep16 m ρ c main_v53 (by decide)).trans <|
      (keep15 m ρ c main_v53 (by decide)).trans (b53 m ρ c h2 h20))).trans <|
    (lift1x1024_eq _).trans (ref_hidden_out_eq x0 x1 x2 x3 x4 x5 x6 x7 x8 x9 x10 x11).symm

theorem b16' (h16 : W6 m ρ c (Proc.devRef .tc main_v16) = val_main_v23 (F := Ideal) x0 x1 x3 x4 x5) :
    W17 m ρ c (Proc.devRef .tc main_v16) = val_main_v23 (F := Ideal) x0 x1 x3 x4 x5 :=
  (keep17 m ρ c main_v16 (by decide)).trans <| (keep16 m ρ c main_v16 (by decide)).trans <|
    (keep15 m ρ c main_v16 (by decide)).trans <| (keep14 m ρ c main_v16 (by decide)).trans <|
    (keep13 m ρ c main_v16 (by decide)).trans <| (keep12 m ρ c main_v16 (by decide)).trans <|
    (keep11 m ρ c main_v16 (by decide)).trans <| (keep10 m ρ c main_v16 (by decide)).trans <|
    (keep9 m ρ c main_v16 (by decide)).trans <| (keep8 m ρ c main_v16 (by decide)).trans <|
    (keep7 m ρ c main_v16 (by decide)).trans h16

end Cert.Bridge

end
-- ==== Proof.Bridge.lean ====
import proofs.«409304_j78383153152469_3_alg».proof.Proof.KI.Bridge1
import proofs.«409304_j78383153152469_3_alg».proof.Proof.KI.Bridge2

noncomputable section

namespace Cert.Bridge

open Cert.KernelIdeal Cert.KernelIdeal.Hand
open Idealize.ShloMosaic Idealize.ShloMosaic.TcCoe Idealize.ShloMosaic.ValueIdx Idealize.SL.Sem

theorem toNat_lt_of_range (t : BitVec 32) (h0 : (0 : Int) ≤ t.toInt) (h1 : t.toInt < 50257) : t.toNat < 50257 := by
  have hw : t.toNat < 2 ^ 32 := t.isLt
  rw [BitVec.toInt_eq_toNat_cond] at h0 h1
  split at h0 <;> omega

theorem results_eq (m : (ℓ : Loc nD τ sig) → Buf (Elt Ideal) ℓ) (ρ : Dev nD → PrngReg) (c : Dev nD)
    (h0 : (0 : Int) ≤ ((m ((c.tc : Thread nD τ).loc main_arg0) : IVec S1 32) (ix1 (0 : Fin 1))).toInt)
    (h1 : ((m ((c.tc : Thread nD τ).loc main_arg0) : IVec S1 32) (ix1 (0 : Fin 1))).toInt < 50257) :
    W17 m ρ c (Proc.devRef .tc main_v56) = Cert.RefHand.Read.val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
    ∧ W17 m ρ c (Proc.devRef .tc main_v57) = Cert.RefHand.Read.val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
    ∧ W17 m ρ c (Proc.devRef .tc main_v16) = Cert.RefHand.Read.val_main_v23 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  have htok := toNat_lt_of_range _ h0 h1
  have e2 := b2 m ρ c
  have e16 := b16 m ρ c h0 h1 htok
  have e20 := b20 m ρ c h0 h1 htok
  exact ⟨b56 m ρ c e2 e20, b57 m ρ c e2 e20, b16' m ρ c e16⟩

end Cert.Bridge

end
-- ==== Proof.lean ====
import proofs.«409304_j78383153152469_3_alg».proof.Defs
import proofs.«409304_j78383153152469_3_alg».proof.Proof.Gen.Kernel
import proofs.«409304_j78383153152469_3_alg».proof.Proof.Gen.KernelIdeal
import proofs.«409304_j78383153152469_3_alg».proof.Proof.Gen.ReferenceIdeal
import proofs.«409304_j78383153152469_3_alg».proof.Proof.RefRead
import proofs.«409304_j78383153152469_3_alg».proof.Proof.RefRunHand
import proofs.«409304_j78383153152469_3_alg».proof.Proof.Gen.Pre_finite_inputs
import proofs.«409304_j78383153152469_3_alg».proof.Proof.PreTok
import proofs.«409304_j78383153152469_3_alg».proof.Proof.KI.Reg6Ideal
import proofs.«409304_j78383153152469_3_alg».proof.Proof.KI.RunR
import proofs.«409304_j78383153152469_3_alg».proof.Proof.Bridge

noncomputable section

namespace Cert.Proof

open Idealize.ShloMosaic Idealize.ShloMosaic.TcCoe Idealize.SL.Sem

section KernelIdeal

open Cert.KernelIdeal Cert.KernelIdeal.Gen Cert.KernelIdeal.Hand

/-- Every stage keeps the argument arrays, so a final memory at the last boundary's contents holds them as launched. -/
theorem ki_args_kept (m : (ℓ : Loc nD τ sig) → Buf (Elt Ideal) ℓ) (ρ : Dev nD → PrngReg) (s : MemSt nD τ sig (Elt Ideal))
    (h : ∀ c : Dev nD, ∀ b ∈ Pipeline.ucRefs τ sig, s.mem (((c : Thread nD τ)).1, b) = W17 m ρ c b) (c : Dev nD) :
    ArgsMem14 m c s :=
  ArgsMem.conj fun r hr =>
    (h c _ (mem_uc r ((by decide : ∀ r ∈ mainArgs, ¬ (Proc.devRef .tc r : DevRef τ sig).isScoped) r hr))).trans (W17_arg m ρ c r hr)

theorem frame_ki : Cert.frame_KernelIdeal := fun m ρ _ => frame_any (F := Ideal) m ρ

end KernelIdeal

/-- The idealization rewrote no operation, so both programs are one text: the frame proved for it at any float
    instance is the printed program's. -/
theorem frame_k : Cert.frame_Kernel := fun m ρ _ => cast (by chain_rfl) (Cert.KernelIdeal.Hand.frame_any (F := Bits) m ρ)

theorem frame_ri : Cert.frame_ReferenceIdeal := fun m ρ _ =>
  (θ_run Cert.ReferenceIdeal.defs _ _).mono (fun _ h c => (h c).2.2.2) (Cert.RefHand.run_hand (F := Ideal) m ρ)

theorem preserves : Cert.preserves_Kernel_KernelIdeal := trivial

section Algebraic

open Cert.KernelIdeal Cert.KernelIdeal.Gen Cert.KernelIdeal.Hand

def out0 (m : (ℓ : Loc nD τ sig) → Buf (Elt Ideal) ℓ) (c : Dev nD) : Buf (Elt Ideal) ((c.tc : Thread nD τ).loc main_v56) :=
  Cert.RefHand.Read.val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))

def out1 (m : (ℓ : Loc nD τ sig) → Buf (Elt Ideal) ℓ) (c : Dev nD) : Buf (Elt Ideal) ((c.tc : Thread nD τ).loc main_v57) :=
  Cert.RefHand.Read.val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

def out2 (m : (ℓ : Loc nD τ sig) → Buf (Elt Ideal) ℓ) (c : Dev nD) : Buf (Elt Ideal) ((c.tc : Thread nD τ).loc main_v16) :=
  Cert.RefHand.Read.val_main_v23 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))

theorem algebraic : Cert.algebraic_KernelIdeal_ReferenceIdeal := by
  intro m ρ m' ρ' hpre hagree
  refine ⟨out0 m, out1 m, out2 m, ?_, ?_⟩
  · refine (θ_run Cert.KernelIdeal.defs _ _).mono (fun r h c => ?_) (run_all (F := Ideal) m ρ k6Local_ideal)
    obtain ⟨h0, h1⟩ := Cert.PreTok.tok_range _ _ _ _ _ _ _ _ _ _ _ _ _ _ (hpre c)
    obtain ⟨e0, e1, e2⟩ := Cert.Bridge.results_eq m ρ c h0 h1
    exact ⟨(h c _ (mem_uc main_v56 (by decide))).trans e0, (h c _ (mem_uc main_v57 (by decide))).trans e1,
      (h c _ (mem_uc main_v16 (by decide))).trans e2, ki_args_kept m ρ r.2 h c⟩
  · refine (θ_run Cert.ReferenceIdeal.defs _ _).mono (fun r h c => ?_) (Cert.RefHand.run_hand (F := Ideal) m' ρ')
    obtain ⟨a0, a1, a2, a3, a4, a5, a6, a7, a8, a9, a10, a11, a12, a13⟩ := hagree c
    refine ⟨(h c).1.trans ?_, (h c).2.1.trans ?_, (h c).2.2.1.trans ?_, (h c).2.2.2⟩
    · rw [a0, a1, a2, a3, a4, a5, a6, a7, a8, a9, a10, a11, a12, a13]; rfl
    · rw [a0, a1, a2, a3, a4, a5, a6, a7, a8, a9, a10, a11]; rfl
    · rw [a0, a1, a3, a4, a5]; rfl

end Algebraic

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
